-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8, 1024]⟩ ⟨2, ![64, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S64x1024 : Shape := ⟨2, ![64, 1024]⟩
abbrev S1024x2048 : Shape := ⟨2, ![1024, 2048]⟩
abbrev S2048x1024 : Shape := ⟨2, ![2048, 1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x1024 .f32) (main_arg5 : FVec F S1024x2048 .f32) (main_arg6 : FVec F S2048x1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  main_v33

def fn {F : FTy → Type} [FloatOps F] (main_arg0 : FVec F S64x1024 .f32) (main_arg1 : FVec F S1024x2048 .f32) (main_arg2 : FVec F S2048x1024 .f32) (main_arg3 : FVec F S1024x2048 .f32) (main_arg4 : FVec F S2048x1024 .f32) (main_arg5 : FVec F S1024x2048 .f32) (main_arg6 : FVec F S2048x1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_v13 main_v16
-- ==== Pre_finite_inputs_ReferenceIdeal.lean ====
abbrev S64x1024 : Shape := ⟨2, ![64, 1024]⟩
abbrev S1024x16384 : Shape := ⟨2, ![1024, 16384]⟩
abbrev S16384x1024 : Shape := ⟨2, ![16384, 1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_arg4 : FVec F S16384x1024 .f32) (main_arg5 : FVec F S1024x16384 .f32) (main_arg6 : FVec F S16384x1024 .f32) (main_v13 : IVec S_ 1) (main_v16 : IVec S1024x16384 1) : IVec S_ 1 :=
  let main_c_5 : IVec S_ 1 := constantI S_ 1 1#1
  let main_v17 : IVec S_ 1 := (fun x v => Host.reduce IntOp.andi x v reducesTo_S1024x16384_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  let main_v24 : FVec F S1024x16384 .f32 := Host.absf main_arg5
  let main_cst_8 : FVec F S_ .f32 := constant S_ .f32 0x7F800000#32
  let main_v25 : FVec F S1024x16384 .f32 := broadcastInDim S1024x16384 ![] bcast_S_S1024x16384 main_cst_8
  let main_v26 : IVec S1024x16384 1 := cmpf .olt main_v24 main_v25
  let main_c_9 : IVec S_ 1 := constantI S_ 1 1#1
  let main_v27 : IVec S_ 1 := (fun x v => Host.reduce IntOp.andi x v reducesTo_S1024x16384_S_d0_1 h_S_) main_v26 main_c_9
  let main_v28 : IVec S_ 1 := andi main_v23 main_v27
  let main_v29 : FVec F S16384x1024 .f32 := Host.absf main_arg6
  let main_cst_10 : FVec F S_ .f32 := constant S_ .f32 0x7F800000#32
  let main_v30 : FVec F S16384x1024 .f32 := broadcastInDim S16384x1024 ![] bcast_S_S16384x1024 main_cst_10
  let main_v31 : IVec S16384x1024 1 := cmpf .olt main_v29 main_v30
  let main_c_11 : IVec S_ 1 := constantI S_ 1 1#1
  let main_v32 : IVec S_ 1 := (fun x v => Host.reduce IntOp.andi x v reducesTo_S16384x1024_S_d0_1 h_S_) main_v31 main_c_11
  let main_v33 : IVec S_ 1 := andi main_v28 main_v32
  main_v33

def fn {F : FTy → Type} [FloatOps F] (main_arg0 : FVec F S64x1024 .f32) (main_arg1 : FVec F S1024x16384 .f32) (main_arg2 : FVec F S16384x1024 .f32) (main_arg3 : FVec F S1024x16384 .f32) (main_arg4 : FVec F S16384x1024 .f32) (main_arg5 : FVec F S1024x16384 .f32) (main_arg6 : FVec F S16384x1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x16384 .f32 := Host.absf main_arg3
  let main_cst_4 : FVec F S_ .f32 := constant S_ .f32 0x7F800000#32
  let main_v15 : FVec F S1024x16384 .f32 := broadcastInDim S1024x16384 ![] bcast_S_S1024x16384 main_cst_4
  let main_v16 : IVec S1024x16384 1 := cmpf .olt main_v14 main_v15
  fn_part1 (F := F) main_arg4 main_arg5 main_arg6 main_v13 main_v16
-- ==== Kernel.lean ====
abbrev S64x1024 : Shape := ⟨2, ![64, 1024]⟩
abbrev S1024x2048 : Shape := ⟨2, ![1024, 2048]⟩
abbrev S2048x1024 : Shape := ⟨2, ![2048, 1024]⟩
abbrev S8x1024 : Shape := ⟨2, ![8, 1024]⟩
abbrev S2x1024x2048 : Shape := ⟨3, ![2, 1024, 2048]⟩
abbrev S2x2048x1024 : Shape := ⟨3, ![2, 2048, 1024]⟩
abbrev S12x64x512 : Shape := ⟨3, ![12, 64, 512]⟩
abbrev S8x8x1024 : Shape := ⟨3, ![8, 8, 1024]⟩
abbrev S4 : Shape := ⟨1, ![4]⟩
abbrev S2x2 : Shape := ⟨2, ![2, 2]⟩
abbrev S12 : Shape := ⟨1, ![12]⟩
abbrev S8 : Shape := ⟨1, ![8]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x1 : Shape := ⟨2, ![1, 1]⟩
abbrev S1x1024x2048 : Shape := ⟨3, ![1, 1024, 2048]⟩
abbrev S1x2048x1024 : Shape := ⟨3, ![1, 2048, 1024]⟩
abbrev S64x512 : Shape := ⟨2, ![64, 512]⟩
abbrev S1x64x512 : Shape := ⟨3, ![1, 64, 512]⟩
abbrev S64x2048 : Shape := ⟨2, ![64, 2048]⟩
abbrev S1x8x1024 : Shape := ⟨3, ![1, 8, 1024]⟩

abbrev nBuf : Space → Nat
  | .hbm => 8
  | .vmem => 9
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S8x1024, .f32⟩
  | .local _ .vmem, ⟨0, _⟩ => ⟨S64x1024, .f32⟩
  | .local _ .vmem, ⟨1, _⟩ => ⟨S8x1024, .f32⟩
  | .local _ .vmem, ⟨2, _⟩ => ⟨S2x1024x2048, .f32⟩
  | .local _ .vmem, ⟨3, _⟩ => ⟨S2x2048x1024, .f32⟩
  | .local _ .vmem, ⟨4, _⟩ => ⟨S64x1024, .f32⟩
  | .local _ .vmem, ⟨5, _⟩ => ⟨S12x64x512, .bf16⟩
  | .local _ .vmem, ⟨6, _⟩ => ⟨S12x64x512, .bf16⟩
  | .local _ .vmem, ⟨7, _⟩ => ⟨S8x8x1024, .bf16⟩
  | .local _ .vmem, ⟨8, _⟩ => ⟨S8x8x1024, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 2 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_20 : BitVec 32 := 1#32
  let v24 : BitVec 32 := Scalar.xori v2 c1_i32_20
  let c1_i32_22 : BitVec 32 := 1#32
  let v25 : BitVec 32 := Scalar.muli v24 c1_i32_22
  let v26 : BitVec 32 := Scalar.addi c0_i32_23 v25
  v26.toNat
def k0_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_24 : BitVec 32 := 2#32
  let v27 : BitVec 32 := Scalar.xori v2 c2_i32_24
  let c1_i32_26 : BitVec 32 := 1#32
  let v28 : BitVec 32 := Scalar.muli v27 c1_i32_26
  let v29 : BitVec 32 := Scalar.addi c0_i32_27 v28
  v29.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_28 : BitVec 32 := 3#32
  let v30 : BitVec 32 := Scalar.xori v2 c3_i32_28
  let c1_i32_30 : BitVec 32 := 1#32
  let v31 : BitVec 32 := Scalar.muli v30 c1_i32_30
  let v32 : BitVec 32 := Scalar.addi c0_i32_31 v31
  v32.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v33 : BitVec 32 := Scalar.xori v2 c4_i32
  let c1_i32_33 : BitVec 32 := 1#32
  let v34 : BitVec 32 := Scalar.muli v33 c1_i32_33
  let v35 : BitVec 32 := Scalar.addi c0_i32_34 v34
  v35.toNat
def k0_dev5 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v36 : BitVec 32 := Scalar.xori v2 c5_i32
  let c1_i32_36 : BitVec 32 := 1#32
  let v37 : BitVec 32 := Scalar.muli v36 c1_i32_36
  let v38 : BitVec 32 := Scalar.addi c0_i32_37 v37
  v38.toNat
def k0_dev6 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v39 : BitVec 32 := Scalar.xori v2 c6_i32
  let c1_i32_39 : BitVec 32 := 1#32
  let v40 : BitVec 32 := Scalar.muli v39 c1_i32_39
  let v41 : BitVec 32 := Scalar.addi c0_i32_40 v40
  v41.toNat
def k0_dev7 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v42 : BitVec 32 := Scalar.xori v2 c7_i32
  let c1_i32_42 : BitVec 32 := 1#32
  let v43 : BitVec 32 := Scalar.muli v42 c1_i32_42
  let v44 : BitVec 32 := Scalar.addi c0_i32_43 v43
  v44.toNat
def k0_dev8 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_96 : BitVec 32 := 1#32
  let v101 : BitVec 32 := Scalar.xori v2 c1_i32_96
  let c1_i32_104 : BitVec 32 := 1#32
  let v106 : BitVec 32 := Scalar.muli v101 c1_i32_104
  let v107 : BitVec 32 := Scalar.addi c0_i32_105 v106
  v107.toNat
def k0_dev9 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v116 : BitVec 32 := Scalar.xori v2 c1_i32_110
  let c1_i32_117 : BitVec 32 := 1#32
  let v121 : BitVec 32 := Scalar.muli v116 c1_i32_117
  let v122 : BitVec 32 := Scalar.addi c0_i32_118 v121
  v122.toNat
def k0_dev10 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_145 : BitVec 32 := 3#32
  let v149 : BitVec 32 := Scalar.xori v2 c3_i32_145
  let c1_i32_152 : BitVec 32 := 1#32
  let v154 : BitVec 32 := Scalar.muli v149 c1_i32_152
  let v155 : BitVec 32 := Scalar.addi c0_i32_153 v154
  v155.toNat
def k0_dev11 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_180 : BitVec 32 := 3#32
  let v182 : BitVec 32 := Scalar.xori v2 c3_i32_180
  let c1_i32_187 : BitVec 32 := 1#32
  let v187 : BitVec 32 := Scalar.muli v182 c1_i32_187
  let v188 : BitVec 32 := Scalar.addi c0_i32_188 v187
  v188.toNat
def k0_dev12 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_223 : BitVec 32 := 4#32
  let v222 : BitVec 32 := Scalar.xori v2 c4_i32_223
  let c1_i32_230 : BitVec 32 := 1#32
  let v227 : BitVec 32 := Scalar.muli v222 c1_i32_230
  let v228 : BitVec 32 := Scalar.addi c0_i32_231 v227
  v228.toNat
def k0_dev13 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_258 : BitVec 32 := 4#32
  let v255 : BitVec 32 := Scalar.xori v2 c4_i32_258
  let c1_i32_265 : BitVec 32 := 1#32
  let v260 : BitVec 32 := Scalar.muli v255 c1_i32_265
  let v261 : BitVec 32 := Scalar.addi c0_i32_266 v260
  v261.toNat
def k0_dev14 (d0 : Dev nD) : Nat :=
  let c0_i32_344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_336 : BitVec 32 := 1#32
  let v330 : BitVec 32 := Scalar.xori v2 c1_i32_336
  let c1_i32_343 : BitVec 32 := 1#32
  let v335 : BitVec 32 := Scalar.muli v330 c1_i32_343
  let v336 : BitVec 32 := Scalar.addi c0_i32_344 v335
  v336.toNat
def k0_dev15 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_349 : BitVec 32 := 1#32
  let v345 : BitVec 32 := Scalar.xori v2 c1_i32_349
  let c1_i32_356 : BitVec 32 := 1#32
  let v350 : BitVec 32 := Scalar.muli v345 c1_i32_356
  let v351 : BitVec 32 := Scalar.addi c0_i32_357 v350
  v351.toNat
def k0_dev16 (d0 : Dev nD) : Nat :=
  let c0_i32_392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_384 : BitVec 32 := 3#32
  let v378 : BitVec 32 := Scalar.xori v2 c3_i32_384
  let c1_i32_391 : BitVec 32 := 1#32
  let v383 : BitVec 32 := Scalar.muli v378 c1_i32_391
  let v384 : BitVec 32 := Scalar.addi c0_i32_392 v383
  v384.toNat
def k0_dev17 (d0 : Dev nD) : Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_419 : BitVec 32 := 3#32
  let v411 : BitVec 32 := Scalar.xori v2 c3_i32_419
  let c1_i32_425 : BitVec 32 := 1#32
  let v416 : BitVec 32 := Scalar.muli v411 c1_i32_425
  let v417 : BitVec 32 := Scalar.addi c0_i32_426 v416
  v417.toNat
def k0_dev18 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_461 : BitVec 32 := 4#32
  let v451 : BitVec 32 := Scalar.xori v2 c4_i32_461
  let c1_i32_467 : BitVec 32 := 1#32
  let v456 : BitVec 32 := Scalar.muli v451 c1_i32_467
  let v457 : BitVec 32 := Scalar.addi c0_i32_468 v456
  v457.toNat
def k0_dev19 (d0 : Dev nD) : Nat :=
  let c0_i32_502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_495 : BitVec 32 := 4#32
  let v484 : BitVec 32 := Scalar.xori v2 c4_i32_495
  let c1_i32_501 : BitVec 32 := 1#32
  let v489 : BitVec 32 := Scalar.muli v484 c1_i32_501
  let v490 : BitVec 32 := Scalar.addi c0_i32_502 v489
  v490.toNat
def k0_off1 (d0 : Dev nD) (c6_i32_564 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v552 : BitVec 32 := Scalar.xori v2 c6_i32_564
  let c8_i32_565 : BitVec 32 := 8#32
  let v553 : BitVec 32 := Scalar.muli v552 c8_i32_565
  let v554 : Index := Scalar.indexCast v553
  let c0_566 : Index := 0#32
  ![v554.toNat, 0]
def k0_dev20 (d0 : Dev nD) : Nat :=
  let c0_i32_575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_564 : BitVec 32 := 6#32
  let v552 : BitVec 32 := Scalar.xori v2 c6_i32_564
  let c1_i32_574 : BitVec 32 := 1#32
  let v560 : BitVec 32 := Scalar.muli v552 c1_i32_574
  let v561 : BitVec 32 := Scalar.addi c0_i32_575 v560
  v561.toNat
def k0_dev21 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_580 : BitVec 32 := 5#32
  let v570 : BitVec 32 := Scalar.xori v2 c5_i32_580
  let c1_i32_590 : BitVec 32 := 1#32
  let v578 : BitVec 32 := Scalar.muli v570 c1_i32_590
  let v579 : BitVec 32 := Scalar.addi c0_i32_591 v578
  v579.toNat
def k0_dev22 (d0 : Dev nD) : Nat :=
  let c0_i32_607 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_596 : BitVec 32 := 7#32
  let v588 : BitVec 32 := Scalar.xori v2 c7_i32_596
  let c1_i32_606 : BitVec 32 := 1#32
  let v596 : BitVec 32 := Scalar.muli v588 c1_i32_606
  let v597 : BitVec 32 := Scalar.addi c0_i32_607 v596
  v597.toNat
def k0_dev23 (d0 : Dev nD) : Nat :=
  let c0_i32_623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_612 : BitVec 32 := 2#32
  let v606 : BitVec 32 := Scalar.xori v2 c2_i32_612
  let c1_i32_622 : BitVec 32 := 1#32
  let v614 : BitVec 32 := Scalar.muli v606 c1_i32_622
  let v615 : BitVec 32 := Scalar.addi c0_i32_623 v614
  v615.toNat
def k0_dev24 (d0 : Dev nD) : Nat :=
  let c0_i32_639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_628 : BitVec 32 := 1#32
  let v624 : BitVec 32 := Scalar.xori v2 c1_i32_628
  let c1_i32_638 : BitVec 32 := 1#32
  let v632 : BitVec 32 := Scalar.muli v624 c1_i32_638
  let v633 : BitVec 32 := Scalar.addi c0_i32_639 v632
  v633.toNat
def k0_dev25 (d0 : Dev nD) : Nat :=
  let c0_i32_655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_644 : BitVec 32 := 3#32
  let v642 : BitVec 32 := Scalar.xori v2 c3_i32_644
  let c1_i32_654 : BitVec 32 := 1#32
  let v650 : BitVec 32 := Scalar.muli v642 c1_i32_654
  let v651 : BitVec 32 := Scalar.addi c0_i32_655 v650
  v651.toNat
def k0_dev26 (d0 : Dev nD) : Nat :=
  let c0_i32_671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_660 : BitVec 32 := 4#32
  let v660 : BitVec 32 := Scalar.xori v2 c4_i32_660
  let c1_i32_670 : BitVec 32 := 1#32
  let v668 : BitVec 32 := Scalar.muli v660 c1_i32_670
  let v669 : BitVec 32 := Scalar.addi c0_i32_671 v668
  v669.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_676 : BitVec 32 := 8#32
  let v678 : BitVec 32 := Scalar.muli v2 c8_i32_676
  let v679 : Index := Scalar.indexCast v678
  let c0_677 : Index := 0#32
  ![v679.toNat, 0]
def k0_dev27 (d0 : Dev nD) : Nat :=
  let c0_i32_837_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_834_r0 : BitVec 32 := 1#32
  let v809_r0 : BitVec 32 := Scalar.xori v2 c1_i32_834_r0
  let c1_i32_836_r0 : BitVec 32 := 1#32
  let v810_r0 : BitVec 32 := Scalar.muli v809_r0 c1_i32_836_r0
  let v811_r0 : BitVec 32 := Scalar.addi c0_i32_837_r0 v810_r0
  v811_r0.toNat
def k0_dev28 (d0 : Dev nD) : Nat :=
  let c0_i32_841_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_838_r0 : BitVec 32 := 2#32
  let v812_r0 : BitVec 32 := Scalar.xori v2 c2_i32_838_r0
  let c1_i32_840_r0 : BitVec 32 := 1#32
  let v813_r0 : BitVec 32 := Scalar.muli v812_r0 c1_i32_840_r0
  let v814_r0 : BitVec 32 := Scalar.addi c0_i32_841_r0 v813_r0
  v814_r0.toNat
def k0_dev29 (d0 : Dev nD) : Nat :=
  let c0_i32_845_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_842_r0 : BitVec 32 := 3#32
  let v815_r0 : BitVec 32 := Scalar.xori v2 c3_i32_842_r0
  let c1_i32_844_r0 : BitVec 32 := 1#32
  let v816_r0 : BitVec 32 := Scalar.muli v815_r0 c1_i32_844_r0
  let v817_r0 : BitVec 32 := Scalar.addi c0_i32_845_r0 v816_r0
  v817_r0.toNat
def k0_dev30 (d0 : Dev nD) : Nat :=
  let c0_i32_849_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_846_r0 : BitVec 32 := 4#32
  let v818_r0 : BitVec 32 := Scalar.xori v2 c4_i32_846_r0
  let c1_i32_848_r0 : BitVec 32 := 1#32
  let v819_r0 : BitVec 32 := Scalar.muli v818_r0 c1_i32_848_r0
  let v820_r0 : BitVec 32 := Scalar.addi c0_i32_849_r0 v819_r0
  v820_r0.toNat
def k0_dev31 (d0 : Dev nD) : Nat :=
  let c0_i32_853_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_850_r0 : BitVec 32 := 5#32
  let v821_r0 : BitVec 32 := Scalar.xori v2 c5_i32_850_r0
  let c1_i32_852_r0 : BitVec 32 := 1#32
  let v822_r0 : BitVec 32 := Scalar.muli v821_r0 c1_i32_852_r0
  let v823_r0 : BitVec 32 := Scalar.addi c0_i32_853_r0 v822_r0
  v823_r0.toNat
def k0_dev32 (d0 : Dev nD) : Nat :=
  let c0_i32_857_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_854_r0 : BitVec 32 := 6#32
  let v824_r0 : BitVec 32 := Scalar.xori v2 c6_i32_854_r0
  let c1_i32_856_r0 : BitVec 32 := 1#32
  let v825_r0 : BitVec 32 := Scalar.muli v824_r0 c1_i32_856_r0
  let v826_r0 : BitVec 32 := Scalar.addi c0_i32_857_r0 v825_r0
  v826_r0.toNat
def k0_dev33 (d0 : Dev nD) : Nat :=
  let c0_i32_861_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_858_r0 : BitVec 32 := 7#32
  let v827_r0 : BitVec 32 := Scalar.xori v2 c7_i32_858_r0
  let c1_i32_860_r0 : BitVec 32 := 1#32
  let v828_r0 : BitVec 32 := Scalar.muli v827_r0 c1_i32_860_r0
  let v829_r0 : BitVec 32 := Scalar.addi c0_i32_861_r0 v828_r0
  v829_r0.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  inb_S4_S1_0 : ∀ a, (![0] : Fin 1 → Nat) a + S1.size a ≤ S4.size a
  squeezes_S1_S_ : S1.Squeezes S_
  inb_S2x1024x2048_S1x1024x1024_0_0_0 : ∀ a, (![0, 0, 0] : Fin 3 → Nat) a + S1x1024x1024.size a ≤ S2x1024x2048.size a
  squeezes_S1x1024x1024_S1024x1024 : S1x1024x1024.Squeezes S1024x1024
  inb_S1024x2048_S1024x1024_0_0 : ∀ a, (![0, 0] : Fin 2 → Nat) a + S1024x1024.size a ≤ S1024x2048.size a
  inb_S4_S1_1 : ∀ a, (![1] : Fin 1 → Nat) a + S1.size a ≤ S4.size a
  inb_S2x1024x2048_S1x1024x1024_0_0_1024 : ∀ a, (![0, 0, 1024] : Fin 3 → Nat) a + S1x1024x1024.size a ≤ S2x1024x2048.size a
  inb_S1024x2048_S1024x1024_0_1024 : ∀ a, (![0, 1024] : Fin 2 → Nat) a + S1024x1024.size a ≤ S1024x2048.size a
  inb_S4_S1_2 : ∀ a, (![2] : Fin 1 → Nat) a + S1.size a ≤ S4.size a
  inb_S2x2048x1024_S1x1024x1024_0_0_0 : ∀ a, (![0, 0, 0] : Fin 3 → Nat) a + S1x1024x1024.size a ≤ S2x2048x1024.size a
  inb_S2048x1024_S1024x1024_0_0 : ∀ a, (![0, 0] : Fin 2 → Nat) a + S1024x1024.size a ≤ S2048x1024.size a
  inb_S4_S1_3 : ∀ a, (![3] : Fin 1 → Nat) a + S1.size a ≤ S4.size a
  inb_S2x2048x1024_S1x1024x1024_0_1024_0 : ∀ a, (![0, 1024, 0] : Fin 3 → Nat) a + S1x1024x1024.size a ≤ S2x2048x1024.size a
  inb_S2048x1024_S1024x1024_1024_0 : ∀ a, (![1024, 0] : Fin 2 → Nat) a + S1024x1024.size a ≤ S2048x1024.size a
  hamt_1 : (1#32 : BitVec 32).msb = false
  hamt_7 : (7#32 : BitVec 32).msb = false
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  bitsLt_bf16_f32 : FTy.bits .bf16 < FTy.bits .f32
  h_S1x1024x1024 : 0 < S1x1024x1024.numel
  shapeCasts_S1x1024x1024_S1024x1024 : S1x1024x1024.ShapeCasts S1024x1024
  inb_S2x2_S1x1_1_0 : ∀ a, (![1, 0] : Fin 2 → Nat) a + S1x1.size a ≤ S2x2.size a
  squeezes_S1x1_S_ : S1x1.Squeezes S_
  inb_S2x1024x2048_S1x1024x2048_1_0_0 : ∀ a, (![1, 0, 0] : Fin 3 → Nat) a + S1x1024x2048.size a ≤ S2x1024x2048.size a
  squeezes_S1x1024x2048_S1024x2048 : S1x1024x2048.Squeezes S1024x2048
  inb_S2x2_S1x1_1_1 : ∀ a, (![1, 1] : Fin 2 → Nat) a + S1x1.size a ≤ S2x2.size a
  inb_S2x2048x1024_S1x2048x1024_1_0_0 : ∀ a, (![1, 0, 0] : Fin 3 → Nat) a + S1x2048x1024.size a ≤ S2x2048x1024.size a
  squeezes_S1x2048x1024_S2048x1024 : S1x2048x1024.Squeezes S2048x1024
  slices_S64x1024_o0_0_S64x512 : S64x1024.Slices ![0, 0] S64x512
  slices_S64x1024_o0_512_S64x512 : S64x1024.Slices ![0, 512] S64x512
  inb_S12x64x512_S1x64x512_0_0_0 : ∀ a, (![0, 0, 0] : Fin 3 → Nat) a + S1x64x512.size a ≤ S12x64x512.size a
  h_S1x64x512 : 0 < S1x64x512.numel
  shapeCasts_S1x64x512_S64x512 : S1x64x512.ShapeCasts S64x512
  shapeCasts_S64x512_S1x64x512 : S64x512.ShapeCasts S1x64x512
  packedbf16_S12x64x512_S1x64x512_0_0_0 : (Rect.unit (s := S12x64x512) ![0, 0, 0] S1x64x512.size inb_S12x64x512_S1x64x512_0_0_0).PackedRows (EltTy.packing .bf16)
  inb_S12_S1_0 : ∀ a, (![0] : Fin 1 → Nat) a + S1.size a ≤ S12.size a
  squeezes_S1x64x512_S64x512 : S1x64x512.Squeezes S64x512
  wordsbf16_S12x64x512_S1x64x512_0_0_0 : (Rect.unit (s := S12x64x512) ![0, 0, 0] S1x64x512.size inb_S12x64x512_S1x64x512_0_0_0).WholeWords (EltTy.packing .bf16)
  inb_S12x64x512_S1x64x512_1_0_0 : ∀ a, (![1, 0, 0] : Fin 3 → Nat) a + S1x64x512.size a ≤ S12x64x512.size a
  packedbf16_S12x64x512_S1x64x512_1_0_0 : (Rect.unit (s := S12x64x512) ![1, 0, 0] S1x64x512.size inb_S12x64x512_S1x64x512_1_0_0).PackedRows (EltTy.packing .bf16)
  inb_S12_S1_1 : ∀ a, (![1] : Fin 1 → Nat) a + S1.size a ≤ S12.size a
  wordsbf16_S12x64x512_S1x64x512_1_0_0 : (Rect.unit (s := S12x64x512) ![1, 0, 0] S1x64x512.size inb_S12x64x512_S1x64x512_1_0_0).WholeWords (EltTy.packing .bf16)
  inb_S12x64x512_S1x64x512_2_0_0 : ∀ a, (![2, 0, 0] : Fin 3 → Nat) a + S1x64x512.size a ≤ S12x64x512.size a
  packedbf16_S12x64x512_S1x64x512_2_0_0 : (Rect.unit (s := S12x64x512) ![2, 0, 0] S1x64x512.size inb_S12x64x512_S1x64x512_2_0_0).PackedRows (EltTy.packing .bf16)
  inb_S12_S1_2 : ∀ a, (![2] : Fin 1 → Nat) a + S1.size a ≤ S12.size a
  wordsbf16_S12x64x512_S1x64x512_2_0_0 : (Rect.unit (s := S12x64x512) ![2, 0, 0] S1x64x512.size inb_S12x64x512_S1x64x512_2_0_0).WholeWords (EltTy.packing .bf16)
  inb_S12x64x512_S1x64x512_3_0_0 : ∀ a, (![3, 0, 0] : Fin 3 → Nat) a + S1x64x512.size a ≤ S12x64x512.size a
  packedbf16_S12x64x512_S1x64x512_3_0_0 : (Rect.unit (s := S12x64x512) ![3, 0, 0] S1x64x512.size inb_S12x64x512_S1x64x512_3_0_0).PackedRows (EltTy.packing .bf16)
  inb_S12_S1_3 : ∀ a, (![3] : Fin 1 → Nat) a + S1.size a ≤ S12.size a
  wordsbf16_S12x64x512_S1x64x512_3_0_0 : (Rect.unit (s := S12x64x512) ![3, 0, 0] S1x64x512.size inb_S12x64x512_S1x64x512_3_0_0).WholeWords (EltTy.packing .bf16)
  h_S1x1024x2048 : 0 < S1x1024x2048.numel
  shapeCasts_S1x1024x2048_S1024x2048 : S1x1024x2048.ShapeCasts S1024x2048
  inb_S12x64x512_S1x64x512_4_0_0 : ∀ a, (![4, 0, 0] : Fin 3 → Nat) a + S1x64x512.size a ≤ S12x64x512.size a
  packedbf16_S12x64x512_S1x64x512_4_0_0 : (Rect.unit (s := S12x64x512) ![4, 0, 0] S1x64x512.size inb_S12x64x512_S1x64x512_4_0_0).PackedRows (EltTy.packing .bf16)
  inb_S12_S1_4 : ∀ a, (![4] : Fin 1 → Nat) a + S1.size a ≤ S12.size a
  wordsbf16_S12x64x512_S1x64x512_4_0_0 : (Rect.unit (s := S12x64x512) ![4, 0, 0] S1x64x512.size inb_S12x64x512_S1x64x512_4_0_0).WholeWords (EltTy.packing .bf16)
  inb_S12x64x512_S1x64x512_5_0_0 : ∀ a, (![5, 0, 0] : Fin 3 → Nat) a + S1x64x512.size a ≤ S12x64x512.size a
  packedbf16_S12x64x512_S1x64x512_5_0_0 : (Rect.unit (s := S12x64x512) ![5, 0, 0] S1x64x512.size inb_S12x64x512_S1x64x512_5_0_0).PackedRows (EltTy.packing .bf16)
  inb_S12_S1_5 : ∀ a, (![5] : Fin 1 → Nat) a + S1.size a ≤ S12.size a
  wordsbf16_S12x64x512_S1x64x512_5_0_0 : (Rect.unit (s := S12x64x512) ![5, 0, 0] S1x64x512.size inb_S12x64x512_S1x64x512_5_0_0).WholeWords (EltTy.packing .bf16)
  h_S1x2048x1024 : 0 < S1x2048x1024.numel
  shapeCasts_S1x2048x1024_S2048x1024 : S1x2048x1024.ShapeCasts S2048x1024
  concatenates_S64x512_S64x512_S64x1024_d1 : Shape.Concatenates [S64x512, S64x512] S64x1024 1
  inb_S2x2_S1x1_0_0 : ∀ a, (![0, 0] : Fin 2 → Nat) a + S1x1.size a ≤ S2x2.size a
  inb_S2x1024x2048_S1x1024x2048_0_0_0 : ∀ a, (![0, 0, 0] : Fin 3 → Nat) a + S1x1024x2048.size a ≤ S2x1024x2048.size a
  inb_S2x2_S1x1_0_1 : ∀ a, (![0, 1] : Fin 2 → Nat) a + S1x1.size a ≤ S2x2.size a
  inb_S2x2048x1024_S1x2048x1024_0_0_0 : ∀ a, (![0, 0, 0] : Fin 3 → Nat) a + S1x2048x1024.size a ≤ S2x2048x1024.size a
  inb_S12x64x512_S1x64x512_6_0_0 : ∀ a, (![6, 0, 0] : Fin 3 → Nat) a + S1x64x512.size a ≤ S12x64x512.size a
  packedbf16_S12x64x512_S1x64x512_6_0_0 : (Rect.unit (s := S12x64x512) ![6, 0, 0] S1x64x512.size inb_S12x64x512_S1x64x512_6_0_0).PackedRows (EltTy.packing .bf16)
  inb_S12_S1_6 : ∀ a, (![6] : Fin 1 → Nat) a + S1.size a ≤ S12.size a
  wordsbf16_S12x64x512_S1x64x512_6_0_0 : (Rect.unit (s := S12x64x512) ![6, 0, 0] S1x64x512.size inb_S12x64x512_S1x64x512_6_0_0).WholeWords (EltTy.packing .bf16)
  inb_S12x64x512_S1x64x512_7_0_0 : ∀ a, (![7, 0, 0] : Fin 3 → Nat) a + S1x64x512.size a ≤ S12x64x512.size a
  packedbf16_S12x64x512_S1x64x512_7_0_0 : (Rect.unit (s := S12x64x512) ![7, 0, 0] S1x64x512.size inb_S12x64x512_S1x64x512_7_0_0).PackedRows (EltTy.packing .bf16)
  inb_S12_S1_7 : ∀ a, (![7] : Fin 1 → Nat) a + S1.size a ≤ S12.size a
  wordsbf16_S12x64x512_S1x64x512_7_0_0 : (Rect.unit (s := S12x64x512) ![7, 0, 0] S1x64x512.size inb_S12x64x512_S1x64x512_7_0_0).WholeWords (EltTy.packing .bf16)
  inb_S12x64x512_S1x64x512_8_0_0 : ∀ a, (![8, 0, 0] : Fin 3 → Nat) a + S1x64x512.size a ≤ S12x64x512.size a
  packedbf16_S12x64x512_S1x64x512_8_0_0 : (Rect.unit (s := S12x64x512) ![8, 0, 0] S1x64x512.size inb_S12x64x512_S1x64x512_8_0_0).PackedRows (EltTy.packing .bf16)
  inb_S12_S1_8 : ∀ a, (![8] : Fin 1 → Nat) a + S1.size a ≤ S12.size a
  wordsbf16_S12x64x512_S1x64x512_8_0_0 : (Rect.unit (s := S12x64x512) ![8, 0, 0] S1x64x512.size inb_S12x64x512_S1x64x512_8_0_0).WholeWords (EltTy.packing .bf16)
  inb_S12x64x512_S1x64x512_9_0_0 : ∀ a, (![9, 0, 0] : Fin 3 → Nat) a + S1x64x512.size a ≤ S12x64x512.size a
  packedbf16_S12x64x512_S1x64x512_9_0_0 : (Rect.unit (s := S12x64x512) ![9, 0, 0] S1x64x512.size inb_S12x64x512_S1x64x512_9_0_0).PackedRows (EltTy.packing .bf16)
  inb_S12_S1_9 : ∀ a, (![9] : Fin 1 → Nat) a + S1.size a ≤ S12.size a
  wordsbf16_S12x64x512_S1x64x512_9_0_0 : (Rect.unit (s := S12x64x512) ![9, 0, 0] S1x64x512.size inb_S12x64x512_S1x64x512_9_0_0).WholeWords (EltTy.packing .bf16)
  inb_S12x64x512_S1x64x512_10_0_0 : ∀ a, (![10, 0, 0] : Fin 3 → Nat) a + S1x64x512.size a ≤ S12x64x512.size a
  packedbf16_S12x64x512_S1x64x512_10_0_0 : (Rect.unit (s := S12x64x512) ![10, 0, 0] S1x64x512.size inb_S12x64x512_S1x64x512_10_0_0).PackedRows (EltTy.packing .bf16)
  inb_S12_S1_10 : ∀ a, (![10] : Fin 1 → Nat) a + S1.size a ≤ S12.size a
  wordsbf16_S12x64x512_S1x64x512_10_0_0 : (Rect.unit (s := S12x64x512) ![10, 0, 0] S1x64x512.size inb_S12x64x512_S1x64x512_10_0_0).WholeWords (EltTy.packing .bf16)
  inb_S12x64x512_S1x64x512_11_0_0 : ∀ a, (![11, 0, 0] : Fin 3 → Nat) a + S1x64x512.size a ≤ S12x64x512.size a
  packedbf16_S12x64x512_S1x64x512_11_0_0 : (Rect.unit (s := S12x64x512) ![11, 0, 0] S1x64x512.size inb_S12x64x512_S1x64x512_11_0_0).PackedRows (EltTy.packing .bf16)
  inb_S12_S1_11 : ∀ a, (![11] : Fin 1 → Nat) a + S1.size a ≤ S12.size a
  wordsbf16_S12x64x512_S1x64x512_11_0_0 : (Rect.unit (s := S12x64x512) ![11, 0, 0] S1x64x512.size inb_S12x64x512_S1x64x512_11_0_0).WholeWords (EltTy.packing .bf16)
  h_S8x1024 : 0 < S8x1024.numel
  inb_S8x8x1024_S1x8x1024_6_0_0 : ∀ a, (![6, 0, 0] : Fin 3 → Nat) a + S1x8x1024.size a ≤ S8x8x1024.size a
  h_S1x8x1024 : 0 < S1x8x1024.numel
  shapeCasts_S1x8x1024_S8x1024 : S1x8x1024.ShapeCasts S8x1024
  shapeCasts_S8x1024_S1x8x1024 : S8x1024.ShapeCasts S1x8x1024
  packedbf16_S8x8x1024_S1x8x1024_6_0_0 : (Rect.unit (s := S8x8x1024) ![6, 0, 0] S1x8x1024.size inb_S8x8x1024_S1x8x1024_6_0_0).PackedRows (EltTy.packing .bf16)
  inb_S8_S1_6 : ∀ a, (![6] : Fin 1 → Nat) a + S1.size a ≤ S8.size a
  squeezes_S1x8x1024_S8x1024 : S1x8x1024.Squeezes S8x1024
  wordsbf16_S8x8x1024_S1x8x1024_6_0_0 : (Rect.unit (s := S8x8x1024) ![6, 0, 0] S1x8x1024.size inb_S8x8x1024_S1x8x1024_6_0_0).WholeWords (EltTy.packing .bf16)
  inb_S8x8x1024_S1x8x1024_5_0_0 : ∀ a, (![5, 0, 0] : Fin 3 → Nat) a + S1x8x1024.size a ≤ S8x8x1024.size a
  packedbf16_S8x8x1024_S1x8x1024_5_0_0 : (Rect.unit (s := S8x8x1024) ![5, 0, 0] S1x8x1024.size inb_S8x8x1024_S1x8x1024_5_0_0).PackedRows (EltTy.packing .bf16)
  inb_S8_S1_5 : ∀ a, (![5] : Fin 1 → Nat) a + S1.size a ≤ S8.size a
  wordsbf16_S8x8x1024_S1x8x1024_5_0_0 : (Rect.unit (s := S8x8x1024) ![5, 0, 0] S1x8x1024.size inb_S8x8x1024_S1x8x1024_5_0_0).WholeWords (EltTy.packing .bf16)
  inb_S8x8x1024_S1x8x1024_7_0_0 : ∀ a, (![7, 0, 0] : Fin 3 → Nat) a + S1x8x1024.size a ≤ S8x8x1024.size a
  packedbf16_S8x8x1024_S1x8x1024_7_0_0 : (Rect.unit (s := S8x8x1024) ![7, 0, 0] S1x8x1024.size inb_S8x8x1024_S1x8x1024_7_0_0).PackedRows (EltTy.packing .bf16)
  inb_S8_S1_7 : ∀ a, (![7] : Fin 1 → Nat) a + S1.size a ≤ S8.size a
  wordsbf16_S8x8x1024_S1x8x1024_7_0_0 : (Rect.unit (s := S8x8x1024) ![7, 0, 0] S1x8x1024.size inb_S8x8x1024_S1x8x1024_7_0_0).WholeWords (EltTy.packing .bf16)
  inb_S8x8x1024_S1x8x1024_2_0_0 : ∀ a, (![2, 0, 0] : Fin 3 → Nat) a + S1x8x1024.size a ≤ S8x8x1024.size a
  packedbf16_S8x8x1024_S1x8x1024_2_0_0 : (Rect.unit (s := S8x8x1024) ![2, 0, 0] S1x8x1024.size inb_S8x8x1024_S1x8x1024_2_0_0).PackedRows (EltTy.packing .bf16)
  inb_S8_S1_2 : ∀ a, (![2] : Fin 1 → Nat) a + S1.size a ≤ S8.size a
  wordsbf16_S8x8x1024_S1x8x1024_2_0_0 : (Rect.unit (s := S8x8x1024) ![2, 0, 0] S1x8x1024.size inb_S8x8x1024_S1x8x1024_2_0_0).WholeWords (EltTy.packing .bf16)
  inb_S8x8x1024_S1x8x1024_1_0_0 : ∀ a, (![1, 0, 0] : Fin 3 → Nat) a + S1x8x1024.size a ≤ S8x8x1024.size a
  packedbf16_S8x8x1024_S1x8x1024_1_0_0 : (Rect.unit (s := S8x8x1024) ![1, 0, 0] S1x8x1024.size inb_S8x8x1024_S1x8x1024_1_0_0).PackedRows (EltTy.packing .bf16)
  inb_S8_S1_1 : ∀ a, (![1] : Fin 1 → Nat) a + S1.size a ≤ S8.size a
  wordsbf16_S8x8x1024_S1x8x1024_1_0_0 : (Rect.unit (s := S8x8x1024) ![1, 0, 0] S1x8x1024.size inb_S8x8x1024_S1x8x1024_1_0_0).WholeWords (EltTy.packing .bf16)
  inb_S8x8x1024_S1x8x1024_3_0_0 : ∀ a, (![3, 0, 0] : Fin 3 → Nat) a + S1x8x1024.size a ≤ S8x8x1024.size a
  packedbf16_S8x8x1024_S1x8x1024_3_0_0 : (Rect.unit (s := S8x8x1024) ![3, 0, 0] S1x8x1024.size inb_S8x8x1024_S1x8x1024_3_0_0).PackedRows (EltTy.packing .bf16)
  inb_S8_S1_3 : ∀ a, (![3] : Fin 1 → Nat) a + S1.size a ≤ S8.size a
  wordsbf16_S8x8x1024_S1x8x1024_3_0_0 : (Rect.unit (s := S8x8x1024) ![3, 0, 0] S1x8x1024.size inb_S8x8x1024_S1x8x1024_3_0_0).WholeWords (EltTy.packing .bf16)
  inb_S8x8x1024_S1x8x1024_4_0_0 : ∀ a, (![4, 0, 0] : Fin 3 → Nat) a + S1x8x1024.size a ≤ S8x8x1024.size a
  packedbf16_S8x8x1024_S1x8x1024_4_0_0 : (Rect.unit (s := S8x8x1024) ![4, 0, 0] S1x8x1024.size inb_S8x8x1024_S1x8x1024_4_0_0).PackedRows (EltTy.packing .bf16)
  inb_S8_S1_4 : ∀ a, (![4] : Fin 1 → Nat) a + S1.size a ≤ S8.size a
  wordsbf16_S8x8x1024_S1x8x1024_4_0_0 : (Rect.unit (s := S8x8x1024) ![4, 0, 0] S1x8x1024.size inb_S8x8x1024_S1x8x1024_4_0_0).WholeWords (EltTy.packing .bf16)
  inb_S8x1024_S8x1024_0_0 : ∀ a, (![0, 0] : Fin 2 → Nat) a + S8x1024.size a ≤ S8x1024.size a
  dot_S64x1024_S1024x1024_S64x1024_1_0_0_1_n_n_wf : DotDims.WF S64x1024 S1024x1024 S64x1024 [1] [0] [0] [1] [] []
  dot_S64x1024_S1024x2048_S64x2048_1_0_0_1_n_n_wf : DotDims.WF S64x1024 S1024x2048 S64x2048 [1] [0] [0] [1] [] []
  dot_S64x2048_S2048x1024_S64x1024_1_0_0_1_n_n_wf : DotDims.WF S64x2048 S2048x1024 S64x1024 [1] [0] [0] [1] [] []
  hcc0_scoped0 : 1 + S_.numel ≤ 2
  hcc0_scratch7 : 2 + S4.numel ≤ 50
  hcc0_scratch8 : 6 + S2x2.numel ≤ 50
  hcc0_scratch9 : 10 + S12.numel ≤ 50
  hcc0_scratch10 : 22 + S12.numel ≤ 50
  hcc0_scratch11 : 34 + S8.numel ≤ 50
  hcc0_scratch12 : 42 + S8.numel ≤ 50
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_off1_inb : ∀ d0 : Dev nD, ∀ (r : Fin 7), ∀ a, (k0_off1 d0 (BitVec.ofNat 32 (1 + r.val))) a + S8x1024.size a ≤ S64x1024.size a
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_off2_inb : ∀ d0 : Dev nD, ∀ a, (k0_off2 d0) a + S8x1024.size a ≤ S64x1024.size a
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  hstage0_0 : ∀ j, (stage0_0 j).IsWhole
  hstage0_1 : ∀ j, (stage0_1 j).IsWhole

variable [Facts₀]

abbrev cc0_scoped0 : Sems sig S_ := SemArray.consecutive 1 S_ hcc0_scoped0
abbrev cc0_scratch7 : DmaSems sig S4 := SemArray.consecutive 2 S4 hcc0_scratch7
abbrev cc0_scratch8 : DmaSems sig S2x2 := SemArray.consecutive 6 S2x2 hcc0_scratch8
abbrev cc0_scratch9 : DmaSems sig S12 := SemArray.consecutive 10 S12 hcc0_scratch9
abbrev cc0_scratch10 : DmaSems sig S12 := SemArray.consecutive 22 S12 hcc0_scratch10
abbrev cc0_scratch11 : DmaSems sig S8 := SemArray.consecutive 34 S8 hcc0_scratch11
abbrev cc0_scratch12 : DmaSems sig S8 := SemArray.consecutive 42 S8 hcc0_scratch12
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf
def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024 : Shape := ⟨2, ![64, 1024]⟩
abbrev S1024x16384 : Shape := ⟨2, ![1024, 16384]⟩
abbrev S16384x1024 : Shape := ⟨2, ![16384, 1024]⟩
abbrev S64x16384 : Shape := ⟨2, ![64, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x16384, .f32⟩
  | .hbm, ⟨2, _⟩ => ⟨S16384x1024, .f32⟩
  | .hbm, ⟨3, _⟩ => ⟨S1024x16384, .f32⟩
  | .hbm, ⟨4, _⟩ => ⟨S16384x1024, .f32⟩
  | .hbm, ⟨5, _⟩ => ⟨S1024x16384, .f32⟩
  | .hbm, ⟨6, _⟩ => ⟨S16384x1024, .f32⟩
  | .hbm, ⟨7, _⟩ => ⟨S64x16384, .f32⟩
  | .hbm, ⟨8, _⟩ => ⟨S_, .f32⟩
  | .hbm, ⟨9, _⟩ => ⟨S64x16384, .f32⟩
  | .hbm, ⟨10, _⟩ => ⟨S64x16384, .f32⟩
  | .hbm, ⟨11, _⟩ => ⟨S64x1024, .f32⟩
  | .hbm, ⟨12, _⟩ => ⟨S64x16384, .f32⟩
  | .hbm, ⟨13, _⟩ => ⟨S_, .f32⟩
  | .hbm, ⟨14, _⟩ => ⟨S64x16384, .f32⟩
  | .hbm, ⟨15, _⟩ => ⟨S64x16384, .f32⟩
  | .hbm, ⟨16, _⟩ => ⟨S64x1024, .f32⟩
  | .hbm, ⟨17, _⟩ => ⟨S64x16384, .f32⟩
  | .hbm, ⟨18, _⟩ => ⟨S_, .f32⟩
  | .hbm, ⟨19, _⟩ => ⟨S64x16384, .f32⟩
  | .hbm, ⟨20, _⟩ => ⟨S64x16384, .f32⟩
  | .hbm, ⟨21, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S64x16384 : S_.BroadcastsInDim S64x16384 (![] : Fin 0 → Fin S64x16384.rank)
  dot_S64x1024_S1024x16384_S64x16384_1_0_0_1_n_n_wf : DotDims.WF S64x1024 S1024x16384 S64x16384 [1] [0] [0] [1] [] []
  dot_S64x16384_S16384x1024_S64x1024_1_0_0_1_n_n_wf : DotDims.WF S64x16384 S16384x1024 S64x1024 [1] [0] [0] [1] [] []

variable [Facts₀]

def dot_S64x1024_S1024x16384_S64x16384_1_0_0_1_n_n : DotDims S64x1024 S1024x16384 S64x16384 where
  lhsContracting := [1]
  rhsContracting := [0]
  lhsNonContracting := [0]
  rhsNonContracting := [1]
  lhsBatch := []
  rhsBatch := []
  wf := dot_S64x1024_S1024x16384_S64x16384_1_0_0_1_n_n_wf
def dot_S64x16384_S16384x1024_S64x1024_1_0_0_1_n_n : DotDims S64x16384 S16384x1024 S64x1024 where
  lhsContracting := [1]
  rhsContracting := [0]
  lhsNonContracting := [0]
  rhsNonContracting := [1]
  lhsBatch := []
  rhsBatch := []
  wf := dot_S64x16384_S16384x1024_S64x1024_1_0_0_1_n_n_wf

class Facts : Prop extends Facts₀ where

variable [Facts]
-- ==== Proof.RefFrame.lean ====
import proofs.«900996_g7700000000000997_dist_mlpseq_tp1d_rep_bs_b64_d1024_h2048_v7x_i8_bf16_1_alg».proof.Defs
import proofs.«900996_g7700000000000997_dist_mlpseq_tp1d_rep_bs_b64_d1024_h2048_v7x_i8_bf16_1_alg».proof.Proof.Gen.ReferenceIdeal
import proofs.«900996_g7700000000000997_dist_mlpseq_tp1d_rep_bs_b64_d1024_h2048_v7x_i8_bf16_1_alg».proof.Proof.Gen.ReferenceIdeal.Run
import proofs.«900996_g7700000000000997_dist_mlpseq_tp1d_rep_bs_b64_d1024_h2048_v7x_i8_bf16_1_alg».proof.Proof.Gen.ReferenceIdeal.Read
import proofs.«900996_g7700000000000997_dist_mlpseq_tp1d_rep_bs_b64_d1024_h2048_v7x_i8_bf16_1_alg».proof.Proof.Gen.Pre_finite_inputs_ReferenceIdeal

noncomputable section

namespace Cert.ReferenceIdeal.RefFrame

open Idealize.ShloMosaic Idealize.ShloMosaic.TcCoe Idealize.SL.Sem

theorem frame_ri : Cert.frame_ReferenceIdeal (hReferenceIdeal := Cert.ReferenceIdeal.Gen.facts)
    (hPre_finite_inputs_ReferenceIdeal := Cert.Pre_finite_inputs_ReferenceIdeal.Gen.facts) := fun m ρ _ =>
  (θ_run Cert.ReferenceIdeal.defs _ _).mono (fun _ h c => (h c).2) (Cert.ReferenceIdeal.Value.run (F := Ideal) m ρ)

end Cert.ReferenceIdeal.RefFrame

end
-- ==== Proof.Dev.lean ====
import proofs.«900996_g7700000000000997_dist_mlpseq_tp1d_rep_bs_b64_d1024_h2048_v7x_i8_bf16_1_alg».proof.Proof.Gen.KernelIdeal
import Idealize.ShloMosaic.Lib.Tactic

noncomputable section

namespace Cert.KernelIdeal.Mlp

open Cert.KernelIdeal Cert.KernelIdeal.Gen
open Idealize.ShloMosaic

/-- The partner of device `c` under the mask `o`: `c ⊕ o`. -/
def xr (c : Dev nD) (o : Fin 8) : Dev nD := ⟨c.val ^^^ o.val, Nat.xor_lt_two_pow (n := 3) c.isLt o.isLt⟩

theorem xr_xr : ∀ (c : Dev nD) (o : Fin 8), xr (xr c o) o = c := by decide
/-- Every device word the body computes is `c ⊕ o` for a constant `o`: decided over the eight devices. -/
@[sl_canon] theorem dev1_eq : ∀ c : Dev nD, (⟨k0_dev1 c, k0_dev1_lt c⟩ : Dev nD) = xr c 1 := by decide +kernel
@[sl_canon] theorem dev2_eq : ∀ c : Dev nD, (⟨k0_dev2 c, k0_dev2_lt c⟩ : Dev nD) = xr c 2 := by decide +kernel
@[sl_canon] theorem dev3_eq : ∀ c : Dev nD, (⟨k0_dev3 c, k0_dev3_lt c⟩ : Dev nD) = xr c 3 := by decide +kernel
@[sl_canon] theorem dev4_eq : ∀ c : Dev nD, (⟨k0_dev4 c, k0_dev4_lt c⟩ : Dev nD) = xr c 4 := by decide +kernel
@[sl_canon] theorem dev5_eq : ∀ c : Dev nD, (⟨k0_dev5 c, k0_dev5_lt c⟩ : Dev nD) = xr c 5 := by decide +kernel
@[sl_canon] theorem dev6_eq : ∀ c : Dev nD, (⟨k0_dev6 c, k0_dev6_lt c⟩ : Dev nD) = xr c 6 := by decide +kernel
@[sl_canon] theorem dev7_eq : ∀ c : Dev nD, (⟨k0_dev7 c, k0_dev7_lt c⟩ : Dev nD) = xr c 7 := by decide +kernel
@[sl_canon] theorem dev8_eq : ∀ c : Dev nD, (⟨k0_dev8 c, k0_dev8_lt c⟩ : Dev nD) = xr c 1 := by decide +kernel
@[sl_canon] theorem dev9_eq : ∀ c : Dev nD, (⟨k0_dev9 c, k0_dev9_lt c⟩ : Dev nD) = xr c 1 := by decide +kernel
@[sl_canon] theorem dev10_eq : ∀ c : Dev nD, (⟨k0_dev10 c, k0_dev10_lt c⟩ : Dev nD) = xr c 3 := by decide +kernel
@[sl_canon] theorem dev11_eq : ∀ c : Dev nD, (⟨k0_dev11 c, k0_dev11_lt c⟩ : Dev nD) = xr c 3 := by decide +kernel
@[sl_canon] theorem dev12_eq : ∀ c : Dev nD, (⟨k0_dev12 c, k0_dev12_lt c⟩ : Dev nD) = xr c 4 := by decide +kernel
@[sl_canon] theorem dev13_eq : ∀ c : Dev nD, (⟨k0_dev13 c, k0_dev13_lt c⟩ : Dev nD) = xr c 4 := by decide +kernel
@[sl_canon] theorem dev14_eq : ∀ c : Dev nD, (⟨k0_dev14 c, k0_dev14_lt c⟩ : Dev nD) = xr c 1 := by decide +kernel
@[sl_canon] theorem dev15_eq : ∀ c : Dev nD, (⟨k0_dev15 c, k0_dev15_lt c⟩ : Dev nD) = xr c 1 := by decide +kernel
@[sl_canon] theorem dev16_eq : ∀ c : Dev nD, (⟨k0_dev16 c, k0_dev16_lt c⟩ : Dev nD) = xr c 3 := by decide +kernel
@[sl_canon] theorem dev17_eq : ∀ c : Dev nD, (⟨k0_dev17 c, k0_dev17_lt c⟩ : Dev nD) = xr c 3 := by decide +kernel
@[sl_canon] theorem dev18_eq : ∀ c : Dev nD, (⟨k0_dev18 c, k0_dev18_lt c⟩ : Dev nD) = xr c 4 := by decide +kernel
@[sl_canon] theorem dev19_eq : ∀ c : Dev nD, (⟨k0_dev19 c, k0_dev19_lt c⟩ : Dev nD) = xr c 4 := by decide +kernel
@[sl_canon] theorem dev20_eq : ∀ c : Dev nD, (⟨k0_dev20 c, k0_dev20_lt c⟩ : Dev nD) = xr c 6 := by decide +kernel
@[sl_canon] theorem dev21_eq : ∀ c : Dev nD, (⟨k0_dev21 c, k0_dev21_lt c⟩ : Dev nD) = xr c 5 := by decide +kernel
@[sl_canon] theorem dev22_eq : ∀ c : Dev nD, (⟨k0_dev22 c, k0_dev22_lt c⟩ : Dev nD) = xr c 7 := by decide +kernel
@[sl_canon] theorem dev23_eq : ∀ c : Dev nD, (⟨k0_dev23 c, k0_dev23_lt c⟩ : Dev nD) = xr c 2 := by decide +kernel
@[sl_canon] theorem dev24_eq : ∀ c : Dev nD, (⟨k0_dev24 c, k0_dev24_lt c⟩ : Dev nD) = xr c 1 := by decide +kernel
@[sl_canon] theorem dev25_eq : ∀ c : Dev nD, (⟨k0_dev25 c, k0_dev25_lt c⟩ : Dev nD) = xr c 3 := by decide +kernel
@[sl_canon] theorem dev26_eq : ∀ c : Dev nD, (⟨k0_dev26 c, k0_dev26_lt c⟩ : Dev nD) = xr c 4 := by decide +kernel
@[sl_canon] theorem dev27_eq : ∀ c : Dev nD, (⟨k0_dev27 c, k0_dev27_lt c⟩ : Dev nD) = xr c 1 := by decide +kernel
@[sl_canon] theorem dev28_eq : ∀ c : Dev nD, (⟨k0_dev28 c, k0_dev28_lt c⟩ : Dev nD) = xr c 2 := by decide +kernel
@[sl_canon] theorem dev29_eq : ∀ c : Dev nD, (⟨k0_dev29 c, k0_dev29_lt c⟩ : Dev nD) = xr c 3 := by decide +kernel
@[sl_canon] theorem dev30_eq : ∀ c : Dev nD, (⟨k0_dev30 c, k0_dev30_lt c⟩ : Dev nD) = xr c 4 := by decide +kernel
@[sl_canon] theorem dev31_eq : ∀ c : Dev nD, (⟨k0_dev31 c, k0_dev31_lt c⟩ : Dev nD) = xr c 5 := by decide +kernel
@[sl_canon] theorem dev32_eq : ∀ c : Dev nD, (⟨k0_dev32 c, k0_dev32_lt c⟩ : Dev nD) = xr c 6 := by decide +kernel
@[sl_canon] theorem dev33_eq : ∀ c : Dev nD, (⟨k0_dev33 c, k0_dev33_lt c⟩ : Dev nD) = xr c 7 := by decide +kernel

theorem off1_eq : ∀ (c : Dev nD) (o : Fin 8), o ≠ 0 → k0_off1 c (BitVec.ofNat 32 o.val) = ![8 * (xr c o).val, 0] := by decide +kernel

end Cert.KernelIdeal.Mlp

end
-- ==== Proof.Vals.lean ====
import proofs.«900996_g7700000000000997_dist_mlpseq_tp1d_rep_bs_b64_d1024_h2048_v7x_i8_bf16_1_alg».proof.Proof.Dev
import proofs.«900996_g7700000000000997_dist_mlpseq_tp1d_rep_bs_b64_d1024_h2048_v7x_i8_bf16_1_alg».proof.Proof.Gen.KernelIdeal.Skeleton
import Idealize.ShloMosaic.Lib.ValueIdx

noncomputable section

namespace Cert.KernelIdeal.Mlp

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

theorem c3_1 {a b c : Nat} (j : (⟨3, ![a, b, c]⟩ : Shape).Idx) : (j 1).val < b := (j 1).isLt
theorem c3_2 {a b c : Nat} (j : (⟨3, ![a, b, c]⟩ : Shape).Idx) : (j 2).val < c := (j 2).isLt

abbrev aX (c : Dev nD) : Vec F S64x1024 .f32 := m ((c : Thread nD τ).loc main_arg0)
abbrev aWi0 (c : Dev nD) : Vec F S1024x2048 .f32 := m ((c : Thread nD τ).loc main_arg1)
abbrev aWo0 (c : Dev nD) : Vec F S2048x1024 .f32 := m ((c : Thread nD τ).loc main_arg2)
abbrev aWi1 (c : Dev nD) : Vec F S1024x2048 .f32 := m ((c : Thread nD τ).loc main_arg3)
abbrev aWo1 (c : Dev nD) : Vec F S2048x1024 .f32 := m ((c : Thread nD τ).loc main_arg4)
abbrev aWi2 (c : Dev nD) : Vec F S1024x2048 .f32 := m ((c : Thread nD τ).loc main_arg5)
abbrev aWo2 (c : Dev nD) : Vec F S2048x1024 .f32 := m ((c : Thread nD τ).loc main_arg6)

def colsHalf (W : Vec F S1024x2048 .f32) (off : Nat) (h : off + 1024 ≤ 2048) : Vec F S1x1024x1024 .f32 :=
  fun j => W (ix2 (⟨(j 1).val, c3_1 j⟩ : Fin 1024) (⟨off + (j 2).val, by have := c3_2 j; omega⟩ : Fin 2048))

def rowsHalf (W : Vec F S2048x1024 .f32) (off : Nat) (h : off + 1024 ≤ 2048) : Vec F S1x1024x1024 .f32 :=
  fun j => W (ix2 (⟨off + (j 1).val, by have := c3_1 j; omega⟩ : Fin 2048) (⟨(j 2).val, c3_2 j⟩ : Fin 1024))

def lead1a (W : Vec F S1024x2048 .f32) : Vec F S1x1024x2048 .f32 :=
  fun j => W (ix2 (⟨(j 1).val, c3_1 j⟩ : Fin 1024) (⟨(j 2).val, c3_2 j⟩ : Fin 2048))
def lead1b (W : Vec F S2048x1024 .f32) : Vec F S1x2048x1024 .f32 :=
  fun j => W (ix2 (⟨(j 1).val, c3_1 j⟩ : Fin 2048) (⟨(j 2).val, c3_2 j⟩ : Fin 1024))

def xb0 (c : Dev nD) : FVec F S64x1024 .bf16 := k0_pay1 (aX m c)
def h0a (c : Dev nD) : FVec F S64x1024 .bf16 := k0_pay2 (xb0 m c) (colsHalf (aWi0 m c) 0 (by omega))
def h0b (c : Dev nD) : FVec F S64x1024 .bf16 := k0_pay3 (xb0 m c) (colsHalf (aWi0 m c) 1024 (by omega))

abbrev wo0a (c : Dev nD) : Vec F S1x1024x1024 .f32 := rowsHalf (aWo0 m c) 0 (by omega)
abbrev wo0b (c : Dev nD) : Vec F S1x1024x1024 .f32 := rowsHalf (aWo0 m c) 1024 (by omega)
def acc0 (c : Dev nD) : FVec F S64x1024 .f32 := k0_pay4 (h0a m c) (h0b m c) (wo0a m c) (wo0b m c)
def a00 (c : Dev nD) : FVec F S64x512 .f32 := k0_pay5 (h0a m c) (h0b m c) (wo0a m c) (wo0b m c)
def b00 (c : Dev nD) : FVec F S64x512 .f32 := k0_pay6 (h0a m c) (h0b m c) (wo0a m c) (wo0b m c)

def S0 (c : Dev nD) : FVec F S1x64x512 .bf16 := k0_pay7 (h0a m c) (h0b m c) (wo0a m c) (wo0b m c)
def S1 (c : Dev nD) : FVec F S1x64x512 .bf16 := k0_pay8 (b00 m c)
def a01 (c : Dev nD) : FVec F S64x512 .f32 := k0_pay9 (a00 m c) (S0 m (xr c 1))
def S2 (c : Dev nD) : FVec F S1x64x512 .bf16 := k0_pay10 (a00 m c) (S0 m (xr c 1))
def b01 (c : Dev nD) : FVec F S64x512 .f32 := k0_pay11 (b00 m c) (S1 m (xr c 1))
def S3 (c : Dev nD) : FVec F S1x64x512 .bf16 := k0_pay12 (b00 m c) (S1 m (xr c 1))
def a02 (c : Dev nD) : FVec F S64x512 .f32 := k0_pay14 (a01 m c) (S2 m (xr c 3))
def S4 (c : Dev nD) : FVec F S1x64x512 .bf16 := k0_pay15 (a01 m c) (S2 m (xr c 3))
def b02 (c : Dev nD) : FVec F S64x512 .f32 := k0_pay16 (b01 m c) (S3 m (xr c 3))
def S5 (c : Dev nD) : FVec F S1x64x512 .bf16 := k0_pay17 (b01 m c) (S3 m (xr c 3))
def a03 (c : Dev nD) : FVec F S64x512 .f32 := k0_pay19 (a02 m c) (S4 m (xr c 4))

def acc1 (c : Dev nD) : FVec F S64x1024 .f32 :=
  k0_pay20 (k0_pay13 (lead1a (aWi1 m c))) (b02 m c) (k0_pay18 (lead1b (aWo1 m c))) (a03 m c) (S5 m (xr c 4))
def a10 (c : Dev nD) : FVec F S64x512 .f32 := k0_pay21 (acc1 m c)
def b10 (c : Dev nD) : FVec F S64x512 .f32 := k0_pay22 (acc1 m c)
def S6 (c : Dev nD) : FVec F S1x64x512 .bf16 := k0_pay23 (acc1 m c)
def S7 (c : Dev nD) : FVec F S1x64x512 .bf16 := k0_pay24 (acc1 m c)
def a11 (c : Dev nD) : FVec F S64x512 .f32 := k0_pay25 (a10 m c) (S6 m (xr c 1))
def S8 (c : Dev nD) : FVec F S1x64x512 .bf16 := k0_pay27 (k0_pay26 (a10 m c) (S6 m (xr c 1)))
def b11 (c : Dev nD) : FVec F S64x512 .f32 := k0_pay28 (b10 m c) (S7 m (xr c 1))
def S9 (c : Dev nD) : FVec F S1x64x512 .bf16 := k0_pay29 (b10 m c) (S7 m (xr c 1))
def a12 (c : Dev nD) : FVec F S64x512 .f32 := k0_pay31 (a11 m c) (S8 m (xr c 3))
def S10 (c : Dev nD) : FVec F S1x64x512 .bf16 := k0_pay32 (a11 m c) (S8 m (xr c 3))
def b12 (c : Dev nD) : FVec F S64x512 .f32 := k0_pay33 (b11 m c) (S9 m (xr c 3))
def S11 (c : Dev nD) : FVec F S1x64x512 .bf16 := k0_pay34 (b11 m c) (S9 m (xr c 3))
def a13 (c : Dev nD) : FVec F S64x512 .f32 := k0_pay36 (a12 m c) (S10 m (xr c 4))

def acc2 (c : Dev nD) : FVec F S64x1024 .f32 :=
  k0_pay38 (k0_pay30 (lead1a (aWi2 m c))) (b12 m c) (k0_pay35 (lead1b (aWo2 m c))) (a13 m c) (k0_pay37 (S11 m (xr c 4)))

def rowsOf (c d : Dev nD) : Vec F S8x1024 .f32 :=
  fun j => acc2 m c (ix2 (⟨8 * d.val + (j 0).val, by have h0 : (j 0).val < 8 := idx2_lt0 j; have hd : d.val < 8 := d.isLt; omega⟩ : Fin 64) (⟨(j 1).val, idx2_lt1 j⟩ : Fin 1024))

def Q (o : Fin 8) (c : Dev nD) : FVec F S1x8x1024 .bf16 := k0_pay39 (rowsOf m c (xr c o))

def outV (c : Dev nD) : FVec F S8x1024 .f32 :=
  k0_pay50 (k0_pay49 (k0_pay48 (k0_pay47 (k0_pay46 (rowsOf m c c) (Q m 1 (xr c 1)) (Q m 3 (xr c 3))) (Q m 4 (xr c 4))) (Q m 2 (xr c 2)))
    (Q m 5 (xr c 5)) (Q m 7 (xr c 7))) (Q m 6 (xr c 6))

def Sv (i : Fin 12) (c : Dev nD) : FVec F S1x64x512 .bf16 :=
  match i with
  | 0 => S0 m c | 1 => S1 m c | 2 => S2 m c | 3 => S3 m c | 4 => S4 m c | 5 => S5 m c
  | 6 => S6 m c | 7 => S7 m c | 8 => S8 m c | 9 => S9 m c | 10 => S10 m c | 11 => S11 m c

def SVv (c : Dev nD) (i : Fin 12) : S64x512.Idx → Elt F .bf16 :=
  fun j => Sv m i c (ix3 (0 : Fin 1) (⟨(j 0).val, idx2_lt0 j⟩ : Fin 64) (⟨(j 1).val, idx2_lt1 j⟩ : Fin 512))

def RVv (c : Dev nD) (o : Fin 8) : S8x1024.Idx → Elt F .bf16 :=
  fun j => Q m o c (ix3 (0 : Fin 1) (⟨(j 0).val, idx2_lt0 j⟩ : Fin 8) (⟨(j 1).val, idx2_lt1 j⟩ : Fin 1024))

def OVv (c : Dev nD) : (cc0_stg1_0 : Ref sig .tc).ty.Contents (Elt F) := outV m c

end Cert.KernelIdeal.Mlp

end
-- ==== Proof.PayIdeal.lean ====
import proofs.«900996_g7700000000000997_dist_mlpseq_tp1d_rep_bs_b64_d1024_h2048_v7x_i8_bf16_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Group.Finset.Defs
import Mathlib.Algebra.BigOperators.Group.Finset.Basic

noncomputable section

namespace Cert.KernelIdeal.Mlp.Pay

open Idealize.ShloMosaic Idealize.ShloMosaic.ValueIdx Cert.KernelIdeal Cert.KernelIdeal.Gen
open scoped BigOperators

/-- A rows-by-contraction times contraction-by-columns product into the zero accumulator, at an entry: the sum over the contraction coordinate. -/
theorem matmul_plain_apply {M K N : ℕ} {φ₁ φ₂ : FTy} (x : FVec Ideal ⟨2, ![M, K]⟩ φ₁) (w : FVec Ideal ⟨2, ![K, N]⟩ φ₂) (b : Fin M) (n : Fin N) :
    matmul (F := Ideal) (DotDims.plain M K N) none x w (constant (F := Ideal) ⟨2, ![M, N]⟩ .f32 0x00000000#32) (ix2 b n)
      = ∑ k : Fin K, x (ix2 b k) * w (ix2 k n) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  rw [show (DotDims.plain M K N).lhsIdx (ix2 b n) _ = ix2 b k from (eq_ix2 _).trans (congrArg₂ ix2 (Fin.ext rfl) (Fin.ext hk)),
    show (DotDims.plain M K N).rhsIdx (ix2 b n) _ = ix2 k n from (eq_ix2 _).trans (congrArg₂ ix2 (Fin.ext hk) (Fin.ext rfl))]

theorem matmulA_apply {φ₁ φ₂ : FTy} (x : FVec Ideal S64x1024 φ₁) (w : FVec Ideal S1024x1024 φ₂) (b : Fin 64) (k : Fin 1024) :
    matmul (F := Ideal) dot_S64x1024_S1024x1024_S64x1024_1_0_0_1_n_n none x w (constant (F := Ideal) S64x1024 .f32 0x00000000#32) (ix2 b k)
      = ∑ j : Fin 1024, x (ix2 b j) * w (ix2 j k) := matmul_plain_apply x w b k

theorem matmulB_apply {φ₁ φ₂ : FTy} (x : FVec Ideal S64x1024 φ₁) (w : FVec Ideal S1024x2048 φ₂) (b : Fin 64) (k : Fin 2048) :
    matmul (F := Ideal) dot_S64x1024_S1024x2048_S64x2048_1_0_0_1_n_n none x w (constant (F := Ideal) S64x2048 .f32 0x00000000#32) (ix2 b k)
      = ∑ j : Fin 1024, x (ix2 b j) * w (ix2 j k) := matmul_plain_apply x w b k

theorem matmulC_apply {φ₁ φ₂ : FTy} (x : FVec Ideal S64x2048 φ₁) (w : FVec Ideal S2048x1024 φ₂) (b : Fin 64) (n : Fin 1024) :
    matmul (F := Ideal) dot_S64x2048_S2048x1024_S64x1024_1_0_0_1_n_n none x w (constant (F := Ideal) S64x1024 .f32 0x00000000#32) (ix2 b n)
      = ∑ k : Fin 2048, x (ix2 b k) * w (ix2 k n) := matmul_plain_apply x w b n

theorem scalar_zero_f32 : Scalar.ofBits (F := Ideal) .f32 0x00000000#32 = (0 : EReal) :=
  Ideal.ofBits_zero_f32

theorem pay2_apply (v47 : FVec Ideal S64x1024 .bf16) (v53 : FVec Ideal S1x1024x1024 .f32) (b : Fin 64) (k : Fin 1024) :
    k0_pay2 (F := Ideal) v47 v53 (ix2 b k) = max (∑ j : Fin 1024, v47 (ix2 b j) * v53 (ix3 (0 : Fin 1) j k)) 0 := by
  simp only [k0_pay2]
  rw [truncf_apply, maximumf_apply, broadcast_apply, matmulA_apply, scalar_zero_f32]
  simp only [truncf_apply, shapeCast_1ab_ab_apply]

theorem pay3_apply (v47 : FVec Ideal S64x1024 .bf16) (v65 : FVec Ideal S1x1024x1024 .f32) (b : Fin 64) (k : Fin 1024) :
    k0_pay3 (F := Ideal) v47 v65 (ix2 b k) = max (∑ j : Fin 1024, v47 (ix2 b j) * v65 (ix3 (0 : Fin 1) j k)) 0 :=
  pay2_apply v47 v65 b k

theorem pay4_apply (v59 v71 : FVec Ideal S64x1024 .bf16) (v77 v86 : FVec Ideal S1x1024x1024 .f32) (b : Fin 64) (n : Fin 1024) :
    k0_pay4 (F := Ideal) v59 v71 v77 v86 (ix2 b n)
      = (∑ k : Fin 1024, v59 (ix2 b k) * v77 (ix3 (0 : Fin 1) k n)) + ∑ k : Fin 1024, v71 (ix2 b k) * v86 (ix3 (0 : Fin 1) k n) := by
  simp only [k0_pay4]
  rw [addf_apply, matmulA_apply, matmulA_apply]
  simp only [truncf_apply, shapeCast_1ab_ab_apply]

theorem send_apply (x : FVec Ideal S64x512 .f32) (h₁ : FTy.bits .bf16 < FTy.bits .f32) (h₂ : S64x512.ShapeCasts S1x64x512)
    (u : Fin 1) (b : Fin 64) (q : Fin 512) :
    shapeCast S1x64x512 (truncf (F := Ideal) .bf16 x h₁) h₂ (ix3 u b q) = x (ix2 b q) := by
  rw [shapeCast_ab_1ab_apply, truncf_apply]

theorem add_apply (x : FVec Ideal S64x512 .f32) (y : FVec Ideal S1x64x512 .bf16) (h₁ : S1x64x512.ShapeCasts S64x512)
    (h₂ : FTy.bits .bf16 < FTy.bits .f32) (b : Fin 64) (q : Fin 512) :
    addf x (extf (F := Ideal) .f32 (shapeCast S64x512 y h₁) h₂) (ix2 b q) = x (ix2 b q) + y (ix3 (0 : Fin 1) b q) := by
  rw [addf_apply, extf_apply, shapeCast_1ab_ab_apply]

def catCols (A B : FVec Ideal S64x512 .f32) : FVec Ideal S64x1024 .f32 := fun i =>
  if h : (i 1).val < 512 then A (ix2 (⟨(i 0).val, idx2_lt0 i⟩ : Fin 64) (⟨(i 1).val, h⟩ : Fin 512))
  else B (ix2 (⟨(i 0).val, idx2_lt0 i⟩ : Fin 64) (⟨(i 1).val - 512, by have := idx2_lt1 i; omega⟩ : Fin 512))

theorem catCols_of_lt (A B : FVec Ideal S64x512 .f32) (b : Fin 64) (j : Fin 1024) (h : j.val < 512) :
    catCols A B (ix2 b j) = A (ix2 b (⟨j.val, h⟩ : Fin 512)) := by
  unfold catCols
  exact dif_pos h

theorem catCols_of_ge (A B : FVec Ideal S64x512 .f32) (b : Fin 64) (j : Fin 1024) (h : 512 ≤ j.val) :
    catCols A B (ix2 b j) = B (ix2 b (⟨j.val - 512, by omega⟩ : Fin 512)) := by
  unfold catCols
  exact dif_neg (Nat.not_lt.2 h)

theorem catCols_left (A B : FVec Ideal S64x512 .f32) (b : Fin 64) (q : Fin 512) :
    catCols A B (ix2 b (⟨q.val, by omega⟩ : Fin 1024)) = A (ix2 b q) :=
  catCols_of_lt A B b ⟨q.val, by omega⟩ q.isLt

theorem catCols_right (A B : FVec Ideal S64x512 .f32) (b : Fin 64) (q : Fin 512) :
    catCols A B (ix2 b (⟨512 + q.val, by omega⟩ : Fin 1024)) = B (ix2 b q) := by
  refine (catCols_of_ge A B b ⟨512 + q.val, by omega⟩ (Nat.le_add_right 512 q.val)).trans (congrArg B ?_)
  funext a
  match a with
  | ⟨0, _⟩ => rfl
  | ⟨1, _⟩ => exact Fin.ext (Nat.add_sub_cancel_left (n := 512) (m := q.val))

theorem concatenate_eq_catCols (A B : FVec Ideal S64x512 .f32) (h : Shape.Concatenates [S64x512, S64x512] S64x1024 1)
    (b : Fin 64) (j : Fin 1024) :
    concatenate S64x1024 1 [⟨S64x512, A⟩, ⟨S64x512, B⟩] h (ix2 b j) = catCols A B (ix2 b j) := by
  by_cases hj : j.val < 512
  · rw [catCols_of_lt A B b j hj]
    exact concatenate_pair_apply_left 1 A B h (ix2 b j) rfl (ix2 b (⟨j.val, hj⟩ : Fin 512)) (fun a => by
      match a with
      | ⟨0, _⟩ => rfl
      | ⟨1, _⟩ => rfl)
  · have hj' : 512 ≤ j.val := Nat.le_of_not_lt hj
    rw [catCols_of_ge A B b j hj']
    exact concatenate_pair_apply_right 1 A B h (ix2 b j) rfl rfl (ix2 b (⟨j.val - 512, by omega⟩ : Fin 512)) (fun a ha => by
      match a, ha with
      | ⟨0, _⟩, _ => rfl
      | ⟨1, _⟩, ha => exact absurd rfl ha) (by show j.val - 512 + 512 = j.val; omega)

theorem addRecv_eq (x : FVec Ideal S64x512 .f32) (y : FVec Ideal S1x64x512 .bf16) (h₁ : S1x64x512.ShapeCasts S64x512)
    (h₂ : FTy.bits .bf16 < FTy.bits .f32) :
    addf x (extf (F := Ideal) .f32 (shapeCast S64x512 y h₁) h₂)
      = fun i => x i + y (ix3 (0 : Fin 1) (⟨(i 0).val, idx2_lt0 i⟩ : Fin 64) (⟨(i 1).val, idx2_lt1 i⟩ : Fin 512)) := by
  funext i
  obtain ⟨p, q, rfl⟩ : ∃ (p : Fin 64) (q : Fin 512), i = ix2 p q := ⟨i 0, i 1, eq_ix2 i⟩
  exact add_apply x y h₁ h₂ p q

def concat20 (v254 v294 : FVec Ideal S64x512 .f32) (v309 : FVec Ideal S1x64x512 .bf16) : FVec Ideal S64x1024 .f32 :=
  catCols v294 (fun i => v254 i + v309 (ix3 (0 : Fin 1) (⟨(i 0).val, idx2_lt0 i⟩ : Fin 64) (⟨(i 1).val, idx2_lt1 i⟩ : Fin 512)))

theorem pay20_apply (v203 : FVec Ideal S1024x2048 .bf16) (v254 : FVec Ideal S64x512 .f32) (v276 : FVec Ideal S2048x1024 .bf16)
    (v294 : FVec Ideal S64x512 .f32) (v309 : FVec Ideal S1x64x512 .bf16) (b : Fin 64) (n : Fin 1024) :
    k0_pay20 (F := Ideal) v203 v254 v276 v294 v309 (ix2 b n)
      = ∑ k : Fin 2048, max (∑ j : Fin 1024, concat20 v254 v294 v309 (ix2 b j) * v203 (ix2 j k)) 0 * v276 (ix2 k n) := by
  simp only [k0_pay20]
  rw [matmulC_apply]
  refine Finset.sum_congr rfl fun k _ => ?_
  rw [truncf_apply, maximumf_apply, broadcast_apply, matmulB_apply, scalar_zero_f32]
  refine congrArg (fun t => max t 0 * v276 (ix2 k n)) (Finset.sum_congr rfl fun j _ => ?_)
  rw [truncf_apply, concatenate_eq_catCols, addRecv_eq]
  rfl

def concat38 (v483 v523 : FVec Ideal S64x512 .f32) (v539 : FVec Ideal S64x512 .bf16) : FVec Ideal S64x1024 .f32 :=
  catCols v523 (fun i => v483 i + v539 i)

theorem pay38_apply (v432 : FVec Ideal S1024x2048 .bf16) (v483 : FVec Ideal S64x512 .f32) (v505 : FVec Ideal S2048x1024 .bf16)
    (v523 : FVec Ideal S64x512 .f32) (v539 : FVec Ideal S64x512 .bf16) (b : Fin 64) (n : Fin 1024) :
    k0_pay38 (F := Ideal) v432 v483 v505 v523 v539 (ix2 b n)
      = ∑ k : Fin 2048, max (∑ j : Fin 1024, concat38 v483 v523 v539 (ix2 b j) * v432 (ix2 j k)) 0 * v505 (ix2 k n) := by
  simp only [k0_pay38]
  rw [shapeCast_self, matmulC_apply]
  refine Finset.sum_congr rfl fun k _ => ?_
  rw [truncf_apply, maximumf_apply, broadcast_apply, matmulB_apply, scalar_zero_f32]
  refine congrArg (fun t => max t 0 * v505 (ix2 k n)) (Finset.sum_congr rfl fun j _ => ?_)
  rw [truncf_apply, concatenate_eq_catCols]
  rfl

theorem rs_apply (x : FVec Ideal S8x1024 .f32) (h₁ : FTy.bits .bf16 < FTy.bits .f32) (h₂ : S8x1024.ShapeCasts S1x8x1024)
    (u : Fin 1) (r : Fin 8) (n : Fin 1024) :
    shapeCast S1x8x1024 (truncf (F := Ideal) .bf16 x h₁) h₂ (ix3 u r n) = x (ix2 r n) := by
  rw [shapeCast_ab_1ab_apply, truncf_apply]

theorem out_apply (x : FVec Ideal S8x1024 .f32) (y : FVec Ideal S1x8x1024 .bf16) (h₁ : S1x8x1024.ShapeCasts S8x1024)
    (h₂ : FTy.bits .bf16 < FTy.bits .f32) (r : Fin 8) (n : Fin 1024) :
    addf x (extf (F := Ideal) .f32 (shapeCast S8x1024 y h₁) h₂) (ix2 r n) = x (ix2 r n) + y (ix3 (0 : Fin 1) r n) := by
  rw [addf_apply, extf_apply, shapeCast_1ab_ab_apply]

end Cert.KernelIdeal.Mlp.Pay

end
-- ==== Proof.RefMath.lean ====
import proofs.«900996_g7700000000000997_dist_mlpseq_tp1d_rep_bs_b64_d1024_h2048_v7x_i8_bf16_1_alg».proof.Proof.Gen.ReferenceIdeal.Read
import Idealize.ShloMosaic.Lib.ValueIdx
import Idealize.ShloMosaic.Lib.Layout
import Idealize.ShloMosaic.PureOps.Ideal
import Idealize.ShloMosaic.PureOps.Ideal.Laws
import Mathlib.Algebra.BigOperators.Fin
import Mathlib.Data.Fintype.BigOperators

noncomputable section

namespace Cert.Mlp.Math

open Idealize.ShloMosaic Idealize.ShloMosaic.ValueIdx Cert.ReferenceIdeal
open scoped BigOperators

def layer {H : ℕ} (x : Fin 64 → Fin 1024 → EReal) (wi : Fin 1024 → Fin H → EReal) (wo : Fin H → Fin 1024 → EReal) :
    Fin 64 → Fin 1024 → EReal :=
  fun b n => ∑ k : Fin H, max (∑ j : Fin 1024, x b j * wi j k) 0 * wo k n

def splitHidden : Fin 8 × Fin 2048 ≃ Fin 16384 where
  toFun p := ⟨2048 * p.1.val + p.2.val, by omega⟩
  invFun x := (⟨x.val / 2048, by omega⟩, ⟨x.val % 2048, by omega⟩)
  left_inv p := by
    refine Prod.ext (Fin.ext ?_) (Fin.ext ?_)
    · show (2048 * p.1.val + p.2.val) / 2048 = p.1.val
      omega
    · show (2048 * p.1.val + p.2.val) % 2048 = p.2.val
      omega
  right_inv x := by
    refine Fin.ext ?_
    show 2048 * (x.val / 2048) + x.val % 2048 = x.val
    omega

theorem layer_blocks (x : Fin 64 → Fin 1024 → EReal) (wi : Fin 1024 → Fin 16384 → EReal) (wo : Fin 16384 → Fin 1024 → EReal) :
    layer x wi wo = fun b n => ∑ d : Fin 8, layer (H := 2048) x (fun j k => wi j ⟨2048 * d.val + k.val, by omega⟩)
      (fun k n => wo ⟨2048 * d.val + k.val, by omega⟩ n) b n := by
  funext b n
  unfold layer
  rw [← Equiv.sum_comp splitHidden, Fintype.sum_prod_type]
  rfl

theorem xor_allreduce {M : Type*} [AddCommMonoid M] (A : ℕ → Fin 8 → M)
    (h0 : ∀ c : Fin 8, A 1 c = A 0 c + A 0 ⟨c.val ^^^ 1, Nat.xor_lt_two_pow (n := 3) c.isLt (by decide)⟩)
    (h1 : ∀ c : Fin 8, A 2 c = A 1 c + A 1 ⟨c.val ^^^ 3, Nat.xor_lt_two_pow (n := 3) c.isLt (by decide)⟩)
    (h2 : ∀ c : Fin 8, A 3 c = A 2 c + A 2 ⟨c.val ^^^ 4, Nat.xor_lt_two_pow (n := 3) c.isLt (by decide)⟩) :
    ∀ c : Fin 8, A 3 c = ∑ d : Fin 8, A 0 d := by
  intro c
  simp only [h2, h1, h0, Fin.sum_univ_eight]
  fin_cases c <;> simp <;> abel

theorem xor_reduce_scatter {M : Type*} [AddCommMonoid M] (R : Fin 8 → M) (c : Fin 8) :
    R c + R ⟨c.val ^^^ 1, Nat.xor_lt_two_pow (n := 3) c.isLt (by decide)⟩
        + R ⟨c.val ^^^ 3, Nat.xor_lt_two_pow (n := 3) c.isLt (by decide)⟩
        + R ⟨c.val ^^^ 4, Nat.xor_lt_two_pow (n := 3) c.isLt (by decide)⟩
        + R ⟨c.val ^^^ 2, Nat.xor_lt_two_pow (n := 3) c.isLt (by decide)⟩
        + R ⟨c.val ^^^ 5, Nat.xor_lt_two_pow (n := 3) c.isLt (by decide)⟩
        + R ⟨c.val ^^^ 7, Nat.xor_lt_two_pow (n := 3) c.isLt (by decide)⟩
        + R ⟨c.val ^^^ 6, Nat.xor_lt_two_pow (n := 3) c.isLt (by decide)⟩ = ∑ d : Fin 8, R d := by
  rw [Fin.sum_univ_eight]
  fin_cases c <;> simp <;> abel

theorem block_cols (c : Fin 8) (W : (⟨⟨2, ![1024, 16384]⟩, .f32⟩ : BufTy).Contents (Elt Ideal)) (j : Fin 1024) (k : Fin 2048) :
    (Layout.block ⟨2, ![1024, 2048]⟩ ⟨2, ![1024, 16384]⟩ 1 8 c W) (ix2 j k) = W (ix2 j ⟨2048 * c.val + k.val, by omega⟩) := by
  show W _ = W _
  congr 1
  funext a
  match a with
  | ⟨0, _⟩ => rfl
  | ⟨1, _⟩ => exact Fin.ext (Nat.add_right_cancel_iff.mpr (Nat.mul_comm c.val 2048))

theorem block_rows (c : Fin 8) (W : (⟨⟨2, ![16384, 1024]⟩, .f32⟩ : BufTy).Contents (Elt Ideal)) (k : Fin 2048) (n : Fin 1024) :
    (Layout.block ⟨2, ![2048, 1024]⟩ ⟨2, ![16384, 1024]⟩ 0 8 c W) (ix2 k n) = W (ix2 ⟨2048 * c.val + k.val, by omega⟩ n) := by
  show W _ = W _
  congr 1
  funext a
  match a with
  | ⟨0, _⟩ => exact Fin.ext (Nat.add_right_cancel_iff.mpr (Nat.mul_comm c.val 2048))
  | ⟨1, _⟩ => rfl

theorem block_out (c : Fin 8) (V : (⟨⟨2, ![64, 1024]⟩, .f32⟩ : BufTy).Contents (Elt Ideal)) (b : Fin 8) (n : Fin 1024) :
    (Layout.block ⟨2, ![8, 1024]⟩ ⟨2, ![64, 1024]⟩ 0 8 c V) (ix2 b n) = V (ix2 ⟨8 * c.val + b.val, by omega⟩ n) := by
  show V _ = V _
  congr 1
  funext a
  match a with
  | ⟨0, _⟩ => exact Fin.ext (Nat.add_right_cancel_iff.mpr (Nat.mul_comm c.val 8))
  | ⟨1, _⟩ => rfl

theorem idx2_ext {n0 n1 : ℕ} (p q : (⟨2, ![n0, n1]⟩ : Shape).Idx) (h0 : (p 0).val = (q 0).val) (h1 : (p 1).val = (q 1).val) :
    p = q := by
  funext a
  match a with
  | ⟨0, _⟩ => exact Fin.ext h0
  | ⟨1, _⟩ => exact Fin.ext h1

/-- One dense layer of the reference, at any operands: a product, a maximum with zero, a product. -/
theorem ref_layer (X : (⟨S64x1024, .f32⟩ : BufTy).Contents (Elt Ideal)) (W1 : (⟨S1024x16384, .f32⟩ : BufTy).Contents (Elt Ideal))
    (W2 : (⟨S16384x1024, .f32⟩ : BufTy).Contents (Elt Ideal)) (b : Fin 64) (n : Fin 1024) :
    Read.val_main_v3 (F := Ideal) X W1 W2 (ix2 b n)
      = layer (fun b j => X (ix2 b j)) (fun j k => W1 (ix2 j k)) (fun k n => W2 (ix2 k n)) b n := by
  rw [Read.val_main_v3_apply]
  refine Finset.sum_congr rfl fun k _ => ?_
  rw [idx2_ext (Read.lidx_main_v3 (ix2 b n) k) (ix2 b k) rfl rfl, idx2_ext (Read.ridx_main_v3 (ix2 b n) k) (ix2 k n) rfl rfl,
    Read.val_main_v2_apply, Read.val_main_v0_apply, Read.val_main_v1_apply, Read.val_main_cst_apply,
    Ideal.maximumf_def, Ideal.ofBits_def, Ideal.ofBits_zero_f32]
  refine congrArg (fun s => max s 0 * _) (Finset.sum_congr rfl fun j _ => ?_)
  rw [idx2_ext (Read.lidx_main_v0 (ix2 b k) j) (ix2 b j) rfl rfl, idx2_ext (Read.ridx_main_v0 (ix2 b k) j) (ix2 j k) rfl rfl]

/-- The reference is three such layers, each fed the one before: its later values are `val_main_v3` again, by unfolding. -/
theorem ref_result_ix2 (x0 : (⟨S64x1024, .f32⟩ : BufTy).Contents (Elt Ideal)) (x1 : (⟨S1024x16384, .f32⟩ : BufTy).Contents (Elt Ideal))
    (x2 : (⟨S16384x1024, .f32⟩ : BufTy).Contents (Elt Ideal)) (x3 : (⟨S1024x16384, .f32⟩ : BufTy).Contents (Elt Ideal))
    (x4 : (⟨S16384x1024, .f32⟩ : BufTy).Contents (Elt Ideal)) (x5 : (⟨S1024x16384, .f32⟩ : BufTy).Contents (Elt Ideal))
    (x6 : (⟨S16384x1024, .f32⟩ : BufTy).Contents (Elt Ideal)) (b : Fin 64) (n : Fin 1024) :
    Cert.ReferenceIdeal.Read.val_main_v11 (F := Ideal) x0 x1 x2 x3 x4 x5 x6 (ix2 b n)
      = layer (layer (layer (fun b j => x0 (ix2 b j)) (fun j k => x1 (ix2 j k)) (fun k n => x2 (ix2 k n)))
            (fun j k => x3 (ix2 j k)) (fun k n => x4 (ix2 k n)))
          (fun j k => x5 (ix2 j k)) (fun k n => x6 (ix2 k n)) b n := by
  show Read.val_main_v3 (Read.val_main_v3 (Read.val_main_v3 x0 x1 x2) x3 x4) x5 x6 (ix2 b n) = _
  simp only [ref_layer]

end Cert.Mlp.Math

end
-- ==== Proof.ValueIdeal.lean ====
import proofs.«900996_g7700000000000997_dist_mlpseq_tp1d_rep_bs_b64_d1024_h2048_v7x_i8_bf16_1_alg».proof.Proof.Vals
import proofs.«900996_g7700000000000997_dist_mlpseq_tp1d_rep_bs_b64_d1024_h2048_v7x_i8_bf16_1_alg».proof.Proof.PayIdeal
import proofs.«900996_g7700000000000997_dist_mlpseq_tp1d_rep_bs_b64_d1024_h2048_v7x_i8_bf16_1_alg».proof.Proof.RefMath
import proofs.«900996_g7700000000000997_dist_mlpseq_tp1d_rep_bs_b64_d1024_h2048_v7x_i8_bf16_1_alg».proof.Proof.Gen.ReferenceIdeal.Read
import Mathlib.Algebra.BigOperators.Fin

noncomputable section

namespace Cert.KernelIdeal.Mlp

open Cert.KernelIdeal Cert.KernelIdeal.Gen
open Idealize.ShloMosaic Idealize.ShloMosaic.TcCoe Idealize.ShloMosaic.ValueIdx
open Cert.KernelIdeal.Mlp.Pay Cert.Mlp
open scoped BigOperators

variable (m : (ℓ : Loc nD τ sig) → Buf (Elt Ideal) ℓ)

theorem colsHalf_lo (W : Vec Ideal S1024x2048 .f32) (h : 0 + 1024 ≤ 2048) (u : Fin 1) (j k : Fin 1024) :
    colsHalf W 0 h (ix3 u j k) = W (ix2 j (⟨k.val, by omega⟩ : Fin 2048)) :=
  congrArg W (Math.idx2_ext _ _ rfl (Nat.zero_add _))

theorem colsHalf_hi (W : Vec Ideal S1024x2048 .f32) (h : 1024 + 1024 ≤ 2048) (u : Fin 1) (j k : Fin 1024) :
    colsHalf W 1024 h (ix3 u j k) = W (ix2 j (⟨1024 + k.val, by omega⟩ : Fin 2048)) := rfl

theorem rowsHalf_lo (W : Vec Ideal S2048x1024 .f32) (h : 0 + 1024 ≤ 2048) (u : Fin 1) (k n : Fin 1024) :
    rowsHalf W 0 h (ix3 u k n) = W (ix2 (⟨k.val, by omega⟩ : Fin 2048) n) :=
  congrArg W (Math.idx2_ext _ _ (Nat.zero_add _) rfl)

theorem rowsHalf_hi (W : Vec Ideal S2048x1024 .f32) (h : 1024 + 1024 ≤ 2048) (u : Fin 1) (k n : Fin 1024) :
    rowsHalf W 1024 h (ix3 u k n) = W (ix2 (⟨1024 + k.val, by omega⟩ : Fin 2048) n) := rfl

theorem lead1a_apply (W : Vec Ideal S1024x2048 .f32) (u : Fin 1) (j : Fin 1024) (k : Fin 2048) :
    lead1a W (ix3 u j k) = W (ix2 j k) := rfl

theorem lead1b_apply (W : Vec Ideal S2048x1024 .f32) (u : Fin 1) (k : Fin 2048) (n : Fin 1024) :
    lead1b W (ix3 u k n) = W (ix2 k n) := rfl

theorem sum_halves {M : Type*} [AddCommMonoid M] (f : Fin 2048 → M) :
    ∑ k : Fin 2048, f k = (∑ k : Fin 1024, f ⟨k.val, by omega⟩) + ∑ k : Fin 1024, f ⟨1024 + k.val, by omega⟩ :=
  Fin.sum_univ_add (a := 1024) (b := 1024) f

theorem h0a_apply (c : Dev nD) (b : Fin 64) (k : Fin 1024) :
    h0a m c (ix2 b k) = max (∑ j : Fin 1024, aX m c (ix2 b j) * aWi0 m c (ix2 j (⟨k.val, by omega⟩ : Fin 2048))) 0 := by
  unfold h0a xb0
  rw [pay2_apply]
  simp only [k0_pay1, truncf_apply, shapeCast_self, colsHalf_lo]

theorem h0b_apply (c : Dev nD) (b : Fin 64) (k : Fin 1024) :
    h0b m c (ix2 b k) = max (∑ j : Fin 1024, aX m c (ix2 b j) * aWi0 m c (ix2 j (⟨1024 + k.val, by omega⟩ : Fin 2048))) 0 := by
  unfold h0b xb0
  rw [pay3_apply]
  simp only [k0_pay1, truncf_apply, shapeCast_self, colsHalf_hi]

theorem acc0_apply (c : Dev nD) (b : Fin 64) (n : Fin 1024) :
    acc0 m c (ix2 b n) = Math.layer (H := 2048) (fun b j => aX m c (ix2 b j)) (fun j k => aWi0 m c (ix2 j k))
      (fun k n => aWo0 m c (ix2 k n)) b n := by
  unfold acc0 Math.layer
  rw [pay4_apply, sum_halves]
  simp only [h0a_apply, h0b_apply, rowsHalf_lo, rowsHalf_hi]

section Rounds
variable (c : Dev nD) (u : Fin 1) (b : Fin 64) (q : Fin 512)

theorem a00_apply :
    a00 m c (ix2 b q) = acc0 m c (ix2 b (⟨q.val, by omega⟩ : Fin 1024)) := by
  unfold a00 acc0 k0_pay5
  exact slice2_axis1_apply 0 _ _ b q _ (Nat.zero_add _).symm

theorem b00_apply :
    b00 m c (ix2 b q) = acc0 m c (ix2 b (⟨512 + q.val, by omega⟩ : Fin 1024)) := by
  unfold b00 acc0 k0_pay6
  exact slice2_axis1_apply 512 _ _ b q _ rfl

theorem S0_apply : S0 m c (ix3 u b q) = a00 m c (ix2 b q) := by
  unfold S0 a00 k0_pay7
  exact send_apply _ _ _ u b q

theorem S1_apply : S1 m c (ix3 u b q) = b00 m c (ix2 b q) := by
  unfold S1 k0_pay8
  exact send_apply _ _ _ u b q

theorem a01_apply :
    a01 m c (ix2 b q) = a00 m c (ix2 b q) + a00 m (xr c 1) (ix2 b q) := by
  unfold a01 k0_pay9
  rw [add_apply, S0_apply]

theorem S2_apply : S2 m c (ix3 u b q) = a01 m c (ix2 b q) := by
  unfold S2 a01 k0_pay10
  exact send_apply _ _ _ u b q

theorem b01_apply :
    b01 m c (ix2 b q) = b00 m c (ix2 b q) + b00 m (xr c 1) (ix2 b q) := by
  unfold b01 k0_pay11
  rw [add_apply, S1_apply]

theorem S3_apply : S3 m c (ix3 u b q) = b01 m c (ix2 b q) := by
  unfold S3 b01 k0_pay12
  exact send_apply _ _ _ u b q

theorem a02_apply :
    a02 m c (ix2 b q) = a01 m c (ix2 b q) + a01 m (xr c 3) (ix2 b q) := by
  unfold a02 k0_pay14
  rw [add_apply, S2_apply]

theorem S4_apply : S4 m c (ix3 u b q) = a02 m c (ix2 b q) := by
  unfold S4 a02 k0_pay15
  exact send_apply _ _ _ u b q

theorem b02_apply :
    b02 m c (ix2 b q) = b01 m c (ix2 b q) + b01 m (xr c 3) (ix2 b q) := by
  unfold b02 k0_pay16
  rw [add_apply, S3_apply]

theorem S5_apply : S5 m c (ix3 u b q) = b02 m c (ix2 b q) := by
  unfold S5 b02 k0_pay17
  exact send_apply _ _ _ u b q

theorem a03_apply :
    a03 m c (ix2 b q) = a02 m c (ix2 b q) + a02 m (xr c 4) (ix2 b q) := by
  unfold a03 k0_pay19
  rw [add_apply, S4_apply]

theorem a03_sum :
    a03 m c (ix2 b q) = ∑ d : Fin 8, a00 m d (ix2 b q) :=
  Math.xor_allreduce
    (fun r d => match r with
      | 0 => a00 m d (ix2 b q) | 1 => a01 m d (ix2 b q) | 2 => a02 m d (ix2 b q) | _ => a03 m d (ix2 b q))
    (fun d => a01_apply m d b q) (fun d => a02_apply m d b q) (fun d => a03_apply m d b q) c

theorem b03_sum :
    b02 m c (ix2 b q) + S5 m (xr c 4) (ix3 (0 : Fin 1) b q) = ∑ d : Fin 8, b00 m d (ix2 b q) := by
  rw [S5_apply]
  exact Math.xor_allreduce
    (fun r d => match r with
      | 0 => b00 m d (ix2 b q) | 1 => b01 m d (ix2 b q) | 2 => b02 m d (ix2 b q)
      | _ => b02 m d (ix2 b q) + b02 m (xr d 4) (ix2 b q))
    (fun d => b01_apply m d b q) (fun d => b02_apply m d b q) (fun d => rfl) c

theorem concat20_sum (c : Dev nD) (b : Fin 64) (j : Fin 1024) :
    concat20 (b02 m c) (a03 m c) (S5 m (xr c 4)) (ix2 b j) = ∑ d : Fin 8, acc0 m d (ix2 b j) := by
  by_cases hj : j.val < 512
  · obtain ⟨q, rfl⟩ : ∃ q : Fin 512, j = ⟨q.val, Nat.lt_of_lt_of_le q.isLt (by decide)⟩ := ⟨⟨j.val, hj⟩, rfl⟩
    exact (catCols_left _ _ b q).trans ((a03_sum m c b q).trans (Finset.sum_congr rfl fun d _ => a00_apply m d b q))
  · obtain ⟨q, rfl⟩ : ∃ q : Fin 512, j = ⟨512 + q.val, Nat.add_lt_add_left q.isLt 512⟩ :=
      ⟨⟨j.val - 512, by omega⟩, Fin.ext (show j.val = 512 + (j.val - 512) by omega)⟩
    exact (catCols_right _ _ b q).trans ((b03_sum m c b q).trans (Finset.sum_congr rfl fun d _ => b00_apply m d b q))

theorem acc1_apply (c : Dev nD) (b : Fin 64) (n : Fin 1024) :
    acc1 m c (ix2 b n) = Math.layer (H := 2048) (fun b j => ∑ d : Fin 8, acc0 m d (ix2 b j))
      (fun j k => aWi1 m c (ix2 j k)) (fun k n => aWo1 m c (ix2 k n)) b n := by
  unfold acc1 Math.layer
  rw [pay20_apply]
  simp only [k0_pay13, k0_pay18, truncf_apply, shapeCast_1ab_ab_apply, lead1a_apply, lead1b_apply, concat20_sum]

theorem a10_apply :
    a10 m c (ix2 b q) = acc1 m c (ix2 b (⟨q.val, by omega⟩ : Fin 1024)) := by
  unfold a10 k0_pay21
  exact slice2_axis1_apply 0 _ _ b q _ (Nat.zero_add _).symm

theorem b10_apply :
    b10 m c (ix2 b q) = acc1 m c (ix2 b (⟨512 + q.val, by omega⟩ : Fin 1024)) := by
  unfold b10 k0_pay22
  exact slice2_axis1_apply 512 _ _ b q _ rfl

theorem S6_apply : S6 m c (ix3 u b q) = a10 m c (ix2 b q) := by
  unfold S6 a10 k0_pay23
  exact send_apply _ _ _ u b q

theorem S7_apply : S7 m c (ix3 u b q) = b10 m c (ix2 b q) := by
  unfold S7 b10 k0_pay24
  exact send_apply _ _ _ u b q

theorem a11_apply :
    a11 m c (ix2 b q) = a10 m c (ix2 b q) + a10 m (xr c 1) (ix2 b q) := by
  unfold a11 k0_pay25
  rw [add_apply, S6_apply]

theorem S8_apply : S8 m c (ix3 u b q) = a11 m c (ix2 b q) := by
  unfold S8 a11 k0_pay27 k0_pay26
  rw [shapeCast_ab_1ab_apply, truncf_apply]

theorem b11_apply :
    b11 m c (ix2 b q) = b10 m c (ix2 b q) + b10 m (xr c 1) (ix2 b q) := by
  unfold b11 k0_pay28
  rw [add_apply, S7_apply]

theorem S9_apply : S9 m c (ix3 u b q) = b11 m c (ix2 b q) := by
  unfold S9 b11 k0_pay29
  exact send_apply _ _ _ u b q

theorem a12_apply :
    a12 m c (ix2 b q) = a11 m c (ix2 b q) + a11 m (xr c 3) (ix2 b q) := by
  unfold a12 k0_pay31
  rw [add_apply, S8_apply]

theorem S10_apply : S10 m c (ix3 u b q) = a12 m c (ix2 b q) := by
  unfold S10 a12 k0_pay32
  exact send_apply _ _ _ u b q

theorem b12_apply :
    b12 m c (ix2 b q) = b11 m c (ix2 b q) + b11 m (xr c 3) (ix2 b q) := by
  unfold b12 k0_pay33
  rw [add_apply, S9_apply]

theorem S11_apply : S11 m c (ix3 u b q) = b12 m c (ix2 b q) := by
  unfold S11 b12 k0_pay34
  exact send_apply _ _ _ u b q

theorem a13_apply :
    a13 m c (ix2 b q) = a12 m c (ix2 b q) + a12 m (xr c 4) (ix2 b q) := by
  unfold a13 k0_pay36
  rw [add_apply, S10_apply]

theorem a13_sum :
    a13 m c (ix2 b q) = ∑ d : Fin 8, a10 m d (ix2 b q) :=
  Math.xor_allreduce
    (fun r d => match r with
      | 0 => a10 m d (ix2 b q) | 1 => a11 m d (ix2 b q) | 2 => a12 m d (ix2 b q) | _ => a13 m d (ix2 b q))
    (fun d => a11_apply m d b q) (fun d => a12_apply m d b q) (fun d => a13_apply m d b q) c

theorem b13_sum :
    b12 m c (ix2 b q) + k0_pay37 (S11 m (xr c 4)) (ix2 b q) = ∑ d : Fin 8, b10 m d (ix2 b q) := by
  unfold k0_pay37
  rw [shapeCast_1ab_ab_apply, S11_apply]
  exact Math.xor_allreduce
    (fun r d => match r with
      | 0 => b10 m d (ix2 b q) | 1 => b11 m d (ix2 b q) | 2 => b12 m d (ix2 b q)
      | _ => b12 m d (ix2 b q) + b12 m (xr d 4) (ix2 b q))
    (fun d => b11_apply m d b q) (fun d => b12_apply m d b q) (fun d => rfl) c

theorem concat38_sum (c : Dev nD) (b : Fin 64) (j : Fin 1024) :
    concat38 (b12 m c) (a13 m c) (k0_pay37 (S11 m (xr c 4))) (ix2 b j) = ∑ d : Fin 8, acc1 m d (ix2 b j) := by
  by_cases hj : j.val < 512
  · obtain ⟨q, rfl⟩ : ∃ q : Fin 512, j = ⟨q.val, Nat.lt_of_lt_of_le q.isLt (by decide)⟩ := ⟨⟨j.val, hj⟩, rfl⟩
    exact (catCols_left _ _ b q).trans ((a13_sum m c b q).trans (Finset.sum_congr rfl fun d _ => a10_apply m d b q))
  · obtain ⟨q, rfl⟩ : ∃ q : Fin 512, j = ⟨512 + q.val, Nat.add_lt_add_left q.isLt 512⟩ :=
      ⟨⟨j.val - 512, by omega⟩, Fin.ext (show j.val = 512 + (j.val - 512) by omega)⟩
    exact (catCols_right _ _ b q).trans ((b13_sum m c b q).trans (Finset.sum_congr rfl fun d _ => b10_apply m d b q))

theorem acc2_apply (c : Dev nD) (b : Fin 64) (n : Fin 1024) :
    acc2 m c (ix2 b n) = Math.layer (H := 2048) (fun b j => ∑ d : Fin 8, acc1 m d (ix2 b j))
      (fun j k => aWi2 m c (ix2 j k)) (fun k n => aWo2 m c (ix2 k n)) b n := by
  unfold acc2 Math.layer
  rw [pay38_apply]
  simp only [k0_pay30, k0_pay35, truncf_apply, shapeCast_1ab_ab_apply, lead1a_apply, lead1b_apply, concat38_sum]

end Rounds

theorem rowsOf_apply (c d : Dev nD) (r : Fin 8) (n : Fin 1024) :
    rowsOf m c d (ix2 r n) = acc2 m c (ix2 (⟨8 * d.val + r.val, by have hd : d.val < 8 := d.isLt; omega⟩ : Fin 64) n) := rfl

theorem Q_apply (o : Fin 8) (d : Dev nD) (u : Fin 1) (r : Fin 8) (n : Fin 1024) :
    Q m o d (ix3 u r n)
      = acc2 m d (ix2 (⟨8 * (xr d o).val + r.val, by have hd : (xr d o).val < 8 := (xr d o).isLt; omega⟩ : Fin 64) n) := by
  unfold Q k0_pay39
  rw [rs_apply, rowsOf_apply]

theorem outV_apply (c : Dev nD) (r : Fin 8) (n : Fin 1024) :
    outV m c (ix2 r n)
      = ∑ d : Fin 8, acc2 m d (ix2 (⟨8 * c.val + r.val, by have hd : c.val < 8 := c.isLt; omega⟩ : Fin 64) n) := by
  unfold outV k0_pay50 k0_pay49 k0_pay48 k0_pay47 k0_pay46
  simp only [out_apply, Q_apply, xr_xr, rowsOf_apply]
  exact Math.xor_reduce_scatter
    (fun d => acc2 m d (ix2 (⟨8 * c.val + r.val, by have hd : c.val < 8 := c.isLt; omega⟩ : Fin 64) n)) c

theorem block_cols_fun (c : Fin 8) (W : (⟨⟨2, ![1024, 16384]⟩, .f32⟩ : BufTy).Contents (Elt Ideal)) :
    (fun (j : Fin 1024) (k : Fin 2048) => (Layout.block ⟨2, ![1024, 2048]⟩ ⟨2, ![1024, 16384]⟩ 1 8 c W) (ix2 j k))
      = fun j k => W (ix2 j ⟨2048 * c.val + k.val, by omega⟩) :=
  funext fun j => funext fun k => Math.block_cols c W j k

theorem block_rows_fun (c : Fin 8) (W : (⟨⟨2, ![16384, 1024]⟩, .f32⟩ : BufTy).Contents (Elt Ideal)) :
    (fun (k : Fin 2048) (n : Fin 1024) => (Layout.block ⟨2, ![2048, 1024]⟩ ⟨2, ![16384, 1024]⟩ 0 8 c W) (ix2 k n))
      = fun k n => W (ix2 ⟨2048 * c.val + k.val, by omega⟩ n) :=
  funext fun k => funext fun n => Math.block_rows c W k n

/-- A layer whose hidden units are split over the eight devices: the devices' partial layers add up to the whole layer. -/
theorem sum_blocks (A : Dev nD → FVec Ideal S64x1024 .f32) (X : Fin 64 → Fin 1024 → EReal)
    (Wi : (⟨⟨2, ![1024, 16384]⟩, .f32⟩ : BufTy).Contents (Elt Ideal)) (Wo : (⟨⟨2, ![16384, 1024]⟩, .f32⟩ : BufTy).Contents (Elt Ideal))
    (h : ∀ (d : Fin 8) (b : Fin 64) (n : Fin 1024), A d (ix2 b n) = Math.layer (H := 2048) X
      (fun j k => (Layout.block ⟨2, ![1024, 2048]⟩ ⟨2, ![1024, 16384]⟩ 1 8 d Wi) (ix2 j k))
      (fun k n => (Layout.block ⟨2, ![2048, 1024]⟩ ⟨2, ![16384, 1024]⟩ 0 8 d Wo) (ix2 k n)) b n) :
    (fun (b : Fin 64) (j : Fin 1024) => ∑ d : Fin 8, A d (ix2 b j)) = Math.layer X (fun j k => Wi (ix2 j k)) (fun k n => Wo (ix2 k n)) := by
  refine Eq.symm ((Math.layer_blocks _ _ _).trans ?_)
  funext b j
  exact Finset.sum_congr rfl fun d _ => by rw [h, block_cols_fun, block_rows_fun]

theorem outV_eq_block
    (x0 : (⟨⟨2, ![64, 1024]⟩, .f32⟩ : BufTy).Contents (Elt Ideal))
    (x1 x3 x5 : (⟨⟨2, ![1024, 16384]⟩, .f32⟩ : BufTy).Contents (Elt Ideal))
    (x2 x4 x6 : (⟨⟨2, ![16384, 1024]⟩, .f32⟩ : BufTy).Contents (Elt Ideal))
    (h0 : ∀ c : Dev nD, m ((c.tc : Thread nD τ).loc main_arg0) = x0)
    (h1 : ∀ c : Dev nD, m ((c.tc : Thread nD τ).loc main_arg1) = Layout.block ⟨2, ![1024, 2048]⟩ ⟨2, ![1024, 16384]⟩ 1 8 c x1)
    (h2 : ∀ c : Dev nD, m ((c.tc : Thread nD τ).loc main_arg2) = Layout.block ⟨2, ![2048, 1024]⟩ ⟨2, ![16384, 1024]⟩ 0 8 c x2)
    (h3 : ∀ c : Dev nD, m ((c.tc : Thread nD τ).loc main_arg3) = Layout.block ⟨2, ![1024, 2048]⟩ ⟨2, ![1024, 16384]⟩ 1 8 c x3)
    (h4 : ∀ c : Dev nD, m ((c.tc : Thread nD τ).loc main_arg4) = Layout.block ⟨2, ![2048, 1024]⟩ ⟨2, ![16384, 1024]⟩ 0 8 c x4)
    (h5 : ∀ c : Dev nD, m ((c.tc : Thread nD τ).loc main_arg5) = Layout.block ⟨2, ![1024, 2048]⟩ ⟨2, ![1024, 16384]⟩ 1 8 c x5)
    (h6 : ∀ c : Dev nD, m ((c.tc : Thread nD τ).loc main_arg6) = Layout.block ⟨2, ![2048, 1024]⟩ ⟨2, ![16384, 1024]⟩ 0 8 c x6)
    (c : Dev nD) :
    outV (F := Ideal) m c = Layout.block ⟨2, ![8, 1024]⟩ ⟨2, ![64, 1024]⟩ 0 8 c
      (Cert.ReferenceIdeal.Read.val_main_v11 (F := Ideal) x0 x1 x2 x3 x4 x5 x6) := by

  have s0 := sum_blocks (acc0 m) (fun b j => x0 (ix2 b j)) x1 x2 fun d b n => by
    rw [acc0_apply]; simp only [aX, aWi0, aWo0, h0 d, h1 d, h2 d]
  have s1 := sum_blocks (acc1 m) _ x3 x4 fun d b n => by
    rw [acc1_apply, s0]; simp only [aWi1, aWo1, h3 d, h4 d]; rfl
  have s2 := sum_blocks (acc2 m) _ x5 x6 fun d b n => by
    rw [acc2_apply, s1]; simp only [aWi2, aWo2, h5 d, h6 d]; rfl
  funext i
  obtain ⟨r, n, rfl⟩ : ∃ (r : Fin 8) (n : Fin 1024), i = ix2 r n := ⟨i 0, i 1, eq_ix2 i⟩
  rw [Math.block_out, Math.ref_result_ix2, outV_apply]
  exact congrFun (congrFun s2 _) n

end Cert.KernelIdeal.Mlp

end
-- ==== Proof.Sched.lean ====
import proofs.«900996_g7700000000000997_dist_mlpseq_tp1d_rep_bs_b64_d1024_h2048_v7x_i8_bf16_1_alg».proof.Proof.Dev
import proofs.«900996_g7700000000000997_dist_mlpseq_tp1d_rep_bs_b64_d1024_h2048_v7x_i8_bf16_1_alg».proof.Proof.Gen.KernelIdeal.Skeleton
import proofs.«900996_g7700000000000997_dist_mlpseq_tp1d_rep_bs_b64_d1024_h2048_v7x_i8_bf16_1_alg».proof.Proof.Gen.KernelIdeal.Launch
import proofs.«900996_g7700000000000997_dist_mlpseq_tp1d_rep_bs_b64_d1024_h2048_v7x_i8_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

theorem slot12_inb (i : Fin 12) : ∀ a, (![i.val, 0, 0] : Fin 3 → Nat) a + S1x64x512.size a ≤ S12x64x512.size a := by
  intro a; fin_cases a <;> simp <;> omega
theorem slot8_inb (o : Fin 8) : ∀ a, (![o.val, 0, 0] : Fin 3 → Nat) a + S1x8x1024.size a ≤ S8x8x1024.size a := by
  intro a; fin_cases a <;> simp <;> omega

abbrev sslot (i : Fin 12) : Memref sig .tc .vmem S64x512 .bf16 :=
  ((Memref.whole cc0_scratch3).slice (Rect.unit (s := S12x64x512) ![i.val, 0, 0] S1x64x512.size (slot12_inb i)) (fun _ => rfl)).squeeze S64x512 squeezes_S1x64x512_S64x512

abbrev rslot (i : Fin 12) : Memref sig .tc .vmem S64x512 .bf16 :=
  ((Memref.whole cc0_scratch4).slice (Rect.unit (s := S12x64x512) ![i.val, 0, 0] S1x64x512.size (slot12_inb i)) (fun _ => rfl)).squeeze S64x512 squeezes_S1x64x512_S64x512

abbrev qslot (o : Fin 8) : Memref sig .tc .vmem S8x1024 .bf16 :=
  ((Memref.whole cc0_scratch5).slice (Rect.unit (s := S8x8x1024) ![o.val, 0, 0] S1x8x1024.size (slot8_inb o)) (fun _ => rfl)).squeeze S8x1024 squeezes_S1x8x1024_S8x1024
abbrev pslot (o : Fin 8) : Memref sig .tc .vmem S8x1024 .bf16 :=
  ((Memref.whole cc0_scratch6).slice (Rect.unit (s := S8x8x1024) ![o.val, 0, 0] S1x8x1024.size (slot8_inb o)) (fun _ => rfl)).squeeze S8x1024 squeezes_S1x8x1024_S8x1024

abbrev barS : Sem sig := (SemArray.scalar (sig.barrier 0 rfl) : Sems sig S_).sem
abbrev exitS : Sem sig := (cc0_scoped0 : Sems sig S_).sem

abbrev sendS (i : Fin 12) : DmaSem sig := ⟨10 + i.val, by show 10 + i.val < 50; omega⟩
abbrev recvS (i : Fin 12) : DmaSem sig := ⟨22 + i.val, by show 22 + i.val < 50; omega⟩
abbrev rssS (o : Fin 8) : DmaSem sig := ⟨34 + o.val, by show 34 + o.val < 50; omega⟩
abbrev rsrS (o : Fin 8) : DmaSem sig := ⟨42 + o.val, by show 42 + o.val < 50; omega⟩

abbrev barCell (c : Dev nD) : GSem nD τ sig := ((c : Thread nD τ), .reg barS)
abbrev exitCell (c : Dev nD) : GSem nD τ sig := ((c : Thread nD τ), .reg exitS)
abbrev sendCell (c : Dev nD) (i : Fin 12) : GSem nD τ sig := ((c : Thread nD τ), .dma (sendS i))
abbrev recvCell (c : Dev nD) (i : Fin 12) : GSem nD τ sig := ((c : Thread nD τ), .dma (recvS i))
abbrev rssCell (c : Dev nD) (o : Fin 8) : GSem nD τ sig := ((c : Thread nD τ), .dma (rssS o))
abbrev rsrCell (c : Dev nD) (o : Fin 8) : GSem nD τ sig := ((c : Thread nD τ), .dma (rsrS o))

def maskOf (i : Fin 12) : Fin 8 := match (i.val / 2) % 3 with | 0 => 1 | 1 => 3 | _ => 4

abbrev N1 : ℕ := (sslot 0).view.dmaCredit
abbrev N2 : ℕ := (qslot 0).view.dmaCredit

variable (SV : Dev nD → Fin 12 → (S64x512.Idx → Elt F .bf16)) (RV : Dev nD → Fin 8 → (S8x1024.Idx → Elt F .bf16))

def slotAny {s : Shape} {e : EltTy} (c : Dev nD) (M : Memref sig .tc .vmem s e) : sProp 𝕄 :=
  iprop(∃ f : Buf (Elt F) (M.view.loc (c : Thread nD τ)), M.view.loc (c : Thread nD τ) ↦[M.view.set]{fullShare} f)

def slotIs {s : Shape} {e : EltTy} (c : Dev nD) (M : Memref sig .tc .vmem s e) (v : s.Idx → Elt F e) : sProp 𝕄 :=
  iprop(∃ f : Buf (Elt F) (M.view.loc (c : Thread nD τ)), ⌜M.view.read (Elt F) f = v⌝ ∗ (M.view.loc (c : Thread nD τ) ↦[M.view.set]{fullShare} f))

instance slotAny_storable {s : Shape} {e : EltTy} (c : Dev nD) (M : Memref sig .tc .vmem s e) :
    BI.Storable (upEmb : UEmb _ 𝕄) (slotAny (F := F) c M) := by unfold slotAny; infer_instance
instance slotIs_storable {s : Shape} {e : EltTy} (c : Dev nD) (M : Memref sig .tc .vmem s e) (v : s.Idx → Elt F e) :
    BI.Storable (upEmb : UEmb _ 𝕄) (slotIs (F := F) c M v) := by unfold slotIs; infer_instance

def slotsOf (o : Fin 8) : Finset (Fin 12) := Finset.univ.filter fun i => maskOf i = o

def barPay (c : Dev nD) (o : Fin 8) : sProp 𝕄 :=
  iprop(slotAny (F := F) (xr c o) (pslot o) ∗ bigSep (slotsOf o) fun i => slotAny (F := F) (xr c o) (rslot i))

instance barPay_storable (c : Dev nD) (o : Fin 8) : BI.Storable (upEmb : UEmb _ 𝕄) (barPay (F := F) c o) := by
  unfold barPay; infer_instance

inductive CellKind where
  | bar | exit | send (i : Fin 12) | recv (i : Fin 12) | rss (o : Fin 8) | rsr (o : Fin 8) | other
  deriving DecidableEq

def kindOf : SemLoc sig → CellKind
  | .reg s => if s = barS then .bar else if s = exitS then .exit else .other
  | .dma q =>
    if h : 10 ≤ q.val ∧ q.val < 22 then .send ⟨q.val - 10, by omega⟩
    else if h : 22 ≤ q.val ∧ q.val < 34 then .recv ⟨q.val - 22, by omega⟩
    else if h : 34 < q.val ∧ q.val < 42 then .rss ⟨q.val - 34, by omega⟩
    else if h : 42 < q.val ∧ q.val < 50 then .rsr ⟨q.val - 42, by omega⟩
    else .other

def sched : Rounds.Schedule (GSem nD τ sig) (Fin 8) 𝕄 where
  duties g r :=
    if r = 0 ∧ g.1.2 = .tc then
      match kindOf g.2 with
      | .bar | .exit => Finset.univ.erase 0
      | .send _ | .recv _ | .rss _ | .rsr _ => {0}
      | .other => ∅
    else ∅
  amount g _ _ :=
    match kindOf g.2 with
    | .send _ | .recv _ => N1
    | .rss _ | .rsr _ => N2
    | _ => 1
  payload g _ d :=
    match kindOf g.2 with
    | .bar => barPay g.1.1 d
    | .send i => slotAny g.1.1 (sslot i)
    | .recv i => slotIs g.1.1 (rslot i) (SV (xr g.1.1 (maskOf i)) i)
    | .rss o => slotAny g.1.1 (qslot o)
    | .rsr o => slotIs g.1.1 (pslot o) (RV (xr g.1.1 o) o)
    | _ => iprop(emp)
  amount_pos g _ _ _ := by
    cases kindOf g.2 <;> first | exact Nat.one_pos | exact View.dmaCredit_pos _ (by decide)

instance sched_payload_storable (g : GSem nD τ sig) (r : ℕ) (d : Fin 8) :
    BI.Storable (upEmb : UEmb _ 𝕄) ((sched (F := F) SV RV).payload g r d) := by
  show BI.Storable upEmb (match kindOf g.2 with
    | .bar => barPay g.1.1 d
    | .send i => slotAny g.1.1 (sslot i)
    | .recv i => slotIs g.1.1 (rslot i) (SV (xr g.1.1 (maskOf i)) i)
    | .rss o => slotAny g.1.1 (qslot o)
    | .rsr o => slotIs g.1.1 (pslot o) (RV (xr g.1.1 o) o)
    | _ => iprop(emp))
  split <;> infer_instance

def csem (k : Fin 40) : SemLoc sig :=
  if k.val = 0 then .reg barS else if k.val = 1 then .reg exitS
  else if h : k.val < 14 then .dma (sendS ⟨k.val - 2, by omega⟩)
  else if h : k.val < 26 then .dma (recvS ⟨k.val - 14, by omega⟩)
  else if h : k.val < 33 then .dma (rssS ⟨k.val - 25, by omega⟩)
  else .dma (rsrS ⟨k.val - 32, by omega⟩)
abbrev kcell (ck : Dev nD × Fin 40) : GSem nD τ sig := ((ck.1 : Thread nD τ), csem ck.2)

def O₀ (c : Dev nD) : CellTallies nD τ sig Unit :=
  tallyAt (exitCell (xr c 7)) () 1
    + tallyAt (exitCell (xr c 6)) () 1
    + tallyAt (exitCell (xr c 5)) () 1
    + tallyAt (exitCell (xr c 4)) () 1
    + tallyAt (exitCell (xr c 3)) () 1
    + tallyAt (exitCell (xr c 2)) () 1
    + tallyAt (exitCell (xr c 1)) () 1
    + tallyAt (rsrCell (xr c 4) 4) () N2
    + tallyAt (rsrCell (xr c 3) 3) () N2
    + tallyAt (rsrCell (xr c 1) 1) () N2
    + tallyAt (rsrCell (xr c 2) 2) () N2
    + tallyAt (rsrCell (xr c 7) 7) () N2
    + tallyAt (rsrCell (xr c 5) 5) () N2
    + tallyAt (rsrCell (xr c 6) 6) () N2
    + tallyAt (recvCell (xr c (maskOf 11)) 11) () N1
    + tallyAt (recvCell (xr c (maskOf 10)) 10) () N1
    + tallyAt (recvCell (xr c (maskOf 9)) 9) () N1
    + tallyAt (recvCell (xr c (maskOf 8)) 8) () N1
    + tallyAt (recvCell (xr c (maskOf 7)) 7) () N1
    + tallyAt (recvCell (xr c (maskOf 6)) 6) () N1
    + tallyAt (recvCell (xr c (maskOf 5)) 5) () N1
    + tallyAt (recvCell (xr c (maskOf 4)) 4) () N1
    + tallyAt (recvCell (xr c (maskOf 3)) 3) () N1
    + tallyAt (recvCell (xr c (maskOf 2)) 2) () N1
    + tallyAt (recvCell (xr c (maskOf 1)) 1) () N1
    + tallyAt (recvCell (xr c (maskOf 0)) 0) () N1
    + tallyAt (barCell (xr c 7)) () 1
    + tallyAt (barCell (xr c 6)) () 1
    + tallyAt (barCell (xr c 5)) () 1
    + tallyAt (barCell (xr c 4)) () 1
    + tallyAt (barCell (xr c 3)) () 1
    + tallyAt (barCell (xr c 2)) () 1
    + tallyAt (barCell (xr c 1)) () 1

def L (g : GSem nD τ sig) : Finset Unit := if g.1.2 = .tc then {()} else ∅

def lv (g : GSem nD τ sig) (_ : Unit) : ℕ :=
  match kindOf g.2 with
  | .bar => 1 | .recv i => 2 + i.val | .rsr _ => 20 | .exit => 30 | _ => 0

theorem L_of_ne (g : GSem nD τ sig) (h : g.1.2 ≠ .tc) : L g = ∅ := if_neg h
theorem L_tc (c : Dev nD) (sm : SemLoc sig) : L ((c : Thread nD τ), sm) = {()} := if_pos rfl

variable (m : (ℓ : Loc nD τ sig) → Buf (Elt F) ℓ) (ρ : Dev nD → PrngReg)

def records (K : Dev nD × Fin 40 → ℕ) : sProp 𝕄 :=
  iprop((bigSep Finset.univ fun ck : Dev nD × Fin 40 => cellInv ER (sched SV RV) (K ck) (kcell ck))
    ∗ bigSep Finset.univ fun ck : Dev nD × Fin 40 => reached ER (kcell ck) 0)

instance records_persistent (K : Dev nD × Fin 40 → ℕ) : BI.Persistent (records (F := F) SV RV K) := by unfold records; infer_instance

def payToks (c : Dev nD) : sProp 𝕄 :=
  iprop((bigSep (Finset.univ.erase (0 : Fin 8)) fun o => iprop(dutyTok ER (barCell (xr c o)) 0 o ∗ dutyTok ER (exitCell (xr c o)) 0 o
        ∗ dutyTok ER (rsrCell (xr c o) o) 0 0 ∗ dutyTok ER (rssCell c o) 0 0))
    ∗ bigSep Finset.univ fun i : Fin 12 => iprop(dutyTok ER (recvCell (xr c (maskOf i)) i) 0 0 ∗ dutyTok ER (sendCell c i) 0 0))

def positions (c : Dev nD) : sProp 𝕄 := bigSep Finset.univ fun k : Fin 40 => atPos ER (kcell (c, k)) 0 ∅ 0

def idleQ : Finset (DmaSem sig) := {2, 3, 4, 5, 6, 7, 8, 9, 34, 42}
def idleSems (c : Dev nD) : sProp 𝕄 := bigSep idleQ fun q => semVal ((c : Thread nD τ), SemLoc.dma q) 0

def ghost (K : Dev nD × Fin 40 → ℕ) (c : Dev nD) : sProp 𝕄 :=
  iprop(records SV RV K ∗ positions c ∗ payToks c ∗ idleSems c)

def creds (c : Dev nD) : sProp 𝕄 :=
  iprop(cred (tallyAt (barCell c) () 7) ∗ cred (tallyAt (exitCell c) () 7)
    ∗ (bigSep Finset.univ fun i : Fin 12 => cred (tallyAt (recvCell c i) () N1))
    ∗ bigSep (Finset.univ.erase (0 : Fin 8)) fun o => cred (tallyAt (rsrCell c o) () N2))

def weights (c : Dev nD) : sProp 𝕄 :=
  iprop((((c : Thread nD τ).loc main_arg1) ↦{fullShare} m ((c : Thread nD τ).loc main_arg1)) ∗ (((c : Thread nD τ).loc main_arg2) ↦{fullShare} m ((c : Thread nD τ).loc main_arg2))
    ∗ (((c : Thread nD τ).loc main_arg3) ↦{fullShare} m ((c : Thread nD τ).loc main_arg3)) ∗ (((c : Thread nD τ).loc main_arg4) ↦{fullShare} m ((c : Thread nD τ).loc main_arg4))
    ∗ (((c : Thread nD τ).loc main_arg5) ↦{fullShare} m ((c : Thread nD τ).loc main_arg5)) ∗ (((c : Thread nD τ).loc main_arg6) ↦{fullShare} m ((c : Thread nD τ).loc main_arg6)))

def scratch (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))

def start (c : Dev nD) : sProp 𝕄 :=
  iprop((∃ K, ghost SV RV K c) ∗ creds c ∗ levAts L lv ∗ weights m c)

def Φ₀ (c : Dev nD) : sProp 𝕄 := iprop(start SV RV m c ∗ scratch c)

def ownZero (c : Dev nD) : sProp 𝕄 :=
  iprop(semVal (exitCell c) 0 ∗ bigSep (Finset.univ.filter fun q : DmaSem sig => 2 ≤ q.val) fun q => semVal ((c : Thread nD τ), SemLoc.dma q) 0)

def Φ₁ (c : Dev nD) : sProp 𝕄 := iprop(weights m c ∗ scratch c ∗ ownZero c)

def xstg (c : Dev nD) : (cc0_stg0_0 : Ref sig .tc).ty.Contents (Elt F) :=
  (win0_0.blk (0 : Fin 1)).view.read (Elt F) (m ((c : Thread nD τ).loc main_arg0))

variable (OV : Dev nD → (cc0_stg1_0 : Ref sig .tc).ty.Contents (Elt F))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => OV c
  Φ t := match t with
    | ⟨0, _⟩ => Φ₀ SV RV m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Mlp

end
-- ==== Proof.Glob.lean ====
import proofs.«900996_g7700000000000997_dist_mlpseq_tp1d_rep_bs_b64_d1024_h2048_v7x_i8_bf16_1_alg».proof.Proof.Sched

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev osem : Fin 49 → SemLoc sig := fun k =>
  if h : k.val = 0 then .reg exitS else .dma ⟨k.val + 1, by show k.val + 1 < 50; omega⟩

set_option maxRecDepth 100000 in
theorem ownSemFacts : Pipeline.OwnSemFacts cfg0.spec osem := by decide

set_option maxRecDepth 100000 in

theorem csem_injective : Function.Injective (csem : Fin 40 → SemLoc sig) := by decide

theorem kcell_injective : Function.Injective (kcell : Dev nD × Fin 40 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

def allCells : Finset (GSem nD τ sig) := Finset.univ.map ⟨kcell, kcell_injective⟩

abbrev TokIx : Type := ({o : Fin 8 // o ≠ 0} × Fin 4) ⊕ (Fin 12 × Fin 2)

def tokSem : TokIx → SemLoc sig × Fin 8
  | .inl (o, 0) => (.reg barS, o.1)
  | .inl (o, 1) => (.reg exitS, o.1)
  | .inl (o, 2) => (.dma (rsrS o.1), 0)
  | .inl (o, 3) => (.dma (rssS o.1), 0)
  | .inr (i, 0) => (.dma (recvS i), 0)
  | .inr (i, 1) => (.dma (sendS i), 0)

set_option maxRecDepth 100000 in
theorem tokSem_injective : Function.Injective tokSem := by decide

abbrev tokOf (ct : Dev nD × TokIx) : GSem nD τ sig × ℕ × Fin 8 := (((ct.1 : Thread nD τ), (tokSem ct.2).1), 0, (tokSem ct.2).2)

theorem tokOf_injective : Function.Injective (tokOf : Dev nD × TokIx → GSem nD τ sig × ℕ × Fin 8) := by
  rintro ⟨c, t⟩ ⟨c', t'⟩ h
  have h1 : c = c' := congrArg (fun x : GSem nD τ sig × ℕ × Fin 8 => x.1.1.1) h
  subst h1
  have h2 : t = t' := tokSem_injective (Prod.ext (congrArg (fun x : GSem nD τ sig × ℕ × Fin 8 => x.1.2) h) (congrArg (fun x : GSem nD τ sig × ℕ × Fin 8 => x.2.2) h))
  subst h2; rfl

def allToks : Finset (GSem nD τ sig × ℕ × Fin 8) := Finset.univ.map ⟨tokOf, tokOf_injective⟩

def u₀ : UU :=
  (initOf (Pipeline.cells cfgs cellOf_inj) (Pipeline.launchToks cfgs cellOf_inj), (initOf allCells allToks, 1))

variable (SV : Dev nD → Fin 12 → (S64x512.Idx → Elt F .bf16)) (RV : Dev nD → Fin 8 → (S8x1024.Idx → Elt F .bf16))

def toks (c : Dev nD) : sProp 𝕄 :=
  iprop((bigSep (Finset.univ.erase (0 : Fin 8)) fun o => iprop(dutyTok ER (barCell c) 0 o ∗ dutyTok ER (exitCell c) 0 o
        ∗ dutyTok ER (rsrCell c o) 0 0 ∗ dutyTok ER (rssCell c o) 0 0))
    ∗ bigSep Finset.univ fun i : Fin 12 => iprop(dutyTok ER (recvCell c i) 0 0 ∗ dutyTok ER (sendCell c i) 0 0))

def G (c : Dev nD) : sProp 𝕄 :=
  iprop((bigSep Finset.univ fun k : Fin 40 => roundState ER (sched SV RV) (kcell (c, k)) 0)
    ∗ (bigSep Finset.univ fun k : Fin 40 => iprop(atPos ER (kcell (c, k)) 0 ∅ 0 ∗ reached ER (kcell (c, k)) 0)) ∗ toks c)

def G' (c : Dev nD) : sProp 𝕄 := iprop(∃ K, ghost SV RV K c)

omit [FloatOps F] in

theorem allToks_eq : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  rw [bigSep_univ_sum, bigSep_univ_prod, bigSep_univ_prod]
  unfold toks
  rw [← bigSep_subtype_ne (0 : Fin 8) (fun o => iprop(dutyTok ER (barCell c) 0 o ∗ dutyTok ER (exitCell c) 0 o
        ∗ dutyTok ER (rsrCell c o) 0 0 ∗ dutyTok ER (rssCell c o) 0 0))]
  congr 1
  · exact bigSep_congr fun o _ => by rw [bigSep_univ_eq_bigSepL [0, 1, 2, 3] (by decide) (by decide)]; rfl
  · exact bigSep_congr fun i _ => by rw [bigSep_univ_two]; rfl

theorem fund_all : BI.own (ER (initOf allCells allToks)) ⊢ (|==> bigSep Finset.univ (G SV RV) : sProp 𝕄) := by
  have hX (Φ : GSem nD τ sig → sProp 𝕄) : bigSep allCells Φ = bigSep Finset.univ fun c : Dev nD => bigSep Finset.univ fun k : Fin 40 => Φ (kcell (c, k)) := by
    unfold allCells; rw [bigSep_map, bigSep_univ_prod]; rfl
  iintro HX
  imod (Rounds.fund ER (sched SV RV) allCells allToks) $$ HX with ⟨Hst, Hr, Hat, Htok⟩
  imodintro
  ihave Hst' := (Entails.of_eq (hX fun g => roundState ER (sched SV RV) g 0)) $$ Hst
  ihave Hat' := (Entails.of_eq (hX fun g => atPos ER g 0 ∅ 0)) $$ Hat
  ihave Hr' := (Entails.of_eq (hX fun g => reached ER g 0)) $$ Hr
  ihave Htok' := (Entails.of_eq (allToks_eq (F := F))) $$ Htok
  unfold G; simp only [bigSep_sep']
  iframe

omit [FloatOps F] in
theorem dma_injective : Function.Injective (SemLoc.dma : DmaSem sig → SemLoc sig) := fun a b h => by cases h; rfl

set_option maxRecDepth 100000 in

theorem sems_cover :
    Finset.univ.map ⟨osem, ownSemFacts.inj⟩ ∪ (Finset.univ.filter fun sm : SemLoc sig => ¬ sm.isScoped .tc)
      = Finset.univ.map ⟨csem, csem_injective⟩ ∪ idleQ.map ⟨SemLoc.dma, dma_injective⟩ := by decide

set_option maxRecDepth 100000 in
theorem own_disj : Disjoint (Finset.univ.map ⟨osem, ownSemFacts.inj⟩) (Finset.univ.filter fun sm : SemLoc sig => ¬ sm.isScoped .tc) := by decide

set_option maxRecDepth 100000 in
theorem cells_disj : Disjoint (Finset.univ.map ⟨csem, csem_injective⟩) (idleQ.map ⟨SemLoc.dma, dma_injective⟩) := by decide

omit [FloatOps F] in

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 40 => semVal (kcell (c, k)) 0) ∗ idleSems c) : sProp 𝕄) := by
  have h1 : (Pipeline.ownSems0 (Ix := Unit) (Name := ℕ) (U := UU) (Lvl := ℕ) (Val := Elt F) (τ := τ) osem c : sProp 𝕄)
      = bigSep (Finset.univ.map ⟨osem, ownSemFacts.inj⟩) fun sm => semVal ((c : Thread nD τ), sm) 0 := by
    rw [bigSep_map]; rfl
  have h2 : (bigSep Finset.univ fun k : Fin 40 => semVal (kcell (c, k)) 0 : sProp 𝕄)
      = bigSep (Finset.univ.map ⟨csem, csem_injective⟩) fun sm => semVal ((c : Thread nD τ), sm) 0 := by
    rw [bigSep_map]; rfl
  have h3 : (idleSems c : sProp 𝕄) = bigSep (idleQ.map ⟨SemLoc.dma, dma_injective⟩) fun sm => semVal ((c : Thread nD τ), sm) 0 := by
    rw [bigSep_map]; rfl
  rw [h1, h2, h3]; unfold unscopedSems0
  refine Entails.of_eq ?_
  refine (bigSep_union own_disj).symm.trans ?_
  rw [sems_cover]
  exact bigSep_union cells_disj

/-- A device's cells with their invariants in place, beside what the device still holds outright. -/
def allocated (c : Dev nD) : sProp 𝕄 :=
  iprop((bigSep Finset.univ fun k : Fin 40 => iprop(∃ κ : ℕ, cellInv ER (sched SV RV) κ (kcell (c, k))))
    ∗ (bigSep Finset.univ fun k : Fin 40 => iprop(atPos ER (kcell (c, k)) 0 ∅ 0 ∗ reached ER (kcell (c, k)) 0)) ∗ toks c ∗ idleSems c)

theorem core_alloc (c : Dev nD) :
    iprop(Pipeline.ownSems0 (Ix := Unit) (Name := ℕ) (U := UU) (Lvl := ℕ) (Val := Elt F) (τ := τ) osem c ∗ unscopedSems0 c ∗ G SV RV c)
      ⊢ |={Set.univ}=> allocated SV RV c := by
  unfold G allocated
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun k : Fin 40 => semVal (kcell (c, k)) 0) ∗ bigSep Finset.univ fun k : Fin 40 => roundState ER (sched SV RV) (kcell (c, k)) 0)
      ⊢ (|={Set.univ}=> bigSep Finset.univ fun k : Fin 40 => iprop(∃ κ : ℕ, cellInv ER (sched SV RV) κ (kcell (c, k))) : sProp 𝕄) from by
        rw [← bigSep_sep']
        exact (bigSep_mono fun k _ => (Rounds.body_intro ER (sched SV RV) (kcell (c, k))).trans inv_alloc).trans (bigSep_fupd _ _)) $$ [Hv Hst] with Hinv
  · isplitl [Hv] <;> iassumption
  imodintro
  iframe

def xrE (o : Fin 8) : Dev nD ≃ Dev nD := ⟨fun c => xr c o, fun c => xr c o, fun c => xr_xr c o, fun c => xr_xr c o⟩

omit [FloatOps F] in
theorem bigSep_comm_univ {J : Type} [DecidableEq J] (S : Finset J) (Φ : Dev nD → J → sProp 𝕄) :
    bigSep Finset.univ (fun c => bigSep S fun j => Φ c j) = bigSep S fun j => bigSep Finset.univ fun c => Φ c j := by
  induction S using Finset.induction_on with
  | empty => simp only [bigSep_empty]; exact bigSep_emp_const _
  | insert j S hj ih =>
    rw [bigSep_insert hj, ← ih, ← bigSep_sep]
    exact bigSep_congr fun c _ => bigSep_insert hj

omit [FloatOps F] in

theorem deal {J : Type} [DecidableEq J] (S : Finset J) (μ : J → Fin 8) (Φ : Dev nD → J → sProp 𝕄) :
    bigSep Finset.univ (fun c => bigSep S fun j => Φ c j) = bigSep Finset.univ fun c => bigSep S fun j => Φ (xr c (μ j)) j := by
  rw [bigSep_comm_univ, bigSep_comm_univ S (fun c j => Φ (xr c (μ j)) j)]
  exact bigSep_congr fun j _ => bigSep_univ_equiv (xrE (μ j)) (fun c => Φ c j)

omit [FloatOps F] in

theorem toks_around : (bigSep Finset.univ fun c : Dev nD => (toks c : sProp 𝕄)) ⊢ bigSep Finset.univ fun c : Dev nD => payToks c := by
  unfold toks payToks
  simp only [bigSep_sep']
  rw [deal (Finset.univ.erase (0 : Fin 8)) (fun o => o) (fun c o => (dutyTok ER (barCell c) 0 o : sProp 𝕄)),
    deal (Finset.univ.erase (0 : Fin 8)) (fun o => o) (fun c o => (dutyTok ER (exitCell c) 0 o : sProp 𝕄)),
    deal (Finset.univ.erase (0 : Fin 8)) (fun o => o) (fun c o => (dutyTok ER (rsrCell c o) 0 0 : sProp 𝕄)),
    deal Finset.univ maskOf (fun c i => (dutyTok ER (recvCell c i) 0 0 : sProp 𝕄))]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

def linear (c : Dev nD) : sProp 𝕄 := iprop(positions c ∗ payToks c ∗ idleSems c)

theorem ghost_intro (K : Dev nD × Fin 40 → ℕ) (c : Dev nD) : iprop(records SV RV K ∗ linear c) ⊢ G' SV RV c := by
  unfold linear G' ghost
  iintro ⟨HR, HL⟩
  iexists K
  iframe

theorem regroup :
    (bigSep Finset.univ (allocated SV RV) : sProp 𝕄) ⊢ bigSep Finset.univ (G' SV RV) := by
  unfold allocated
  rw [bigSep_sep', bigSep_sep', bigSep_sep', ← bigSep_univ_prod (fun ck : Dev nD × Fin 40 => iprop(∃ κ : ℕ, cellInv ER (sched SV RV) κ (kcell ck))),
    bigSep_congr (s := Finset.univ) (fun (c : Dev nD) _ => bigSep_sep' Finset.univ (fun k : Fin 40 => (atPos ER (kcell (c, k)) 0 ∅ 0 : sProp 𝕄)) (fun k => reached ER (kcell (c, k)) 0)),
    bigSep_sep', ← bigSep_univ_prod (fun ck : Dev nD × Fin 40 => (reached ER (kcell ck) 0 : sProp 𝕄))]
  iintro ⟨HI, ⟨Hat, #HR⟩, Htok, Hidle⟩
  ihave HK := (BI.bigSep_exists_pi Finset.univ (fun (ck : Dev nD × Fin 40) (κ : ℕ) => (cellInv ER (sched SV RV) κ (kcell ck) : sProp 𝕄))) $$ HI
  icases HK with ⟨%K, #HI⟩
  ihave Htk := (toks_around (F := F)) $$ Htok
  iapply (bigSep_with_persistent (R := records SV RV K) fun c _ => ghost_intro SV RV K c)
  isplitr
  · unfold records; isplitl; · iexact HI
    iexact HR
  · unfold linear positions
    rw [bigSep_sep', bigSep_sep']
    iframe

theorem glob : (bigSep Finset.univ fun c => iprop(Pipeline.ownSems0 (Ix := Unit) (Name := ℕ) (U := UU) (Lvl := ℕ) (Val := Elt F) (τ := τ) osem c ∗ unscopedSems0 c ∗ G SV RV c) : sProp 𝕄)
    ⊢ |={Set.univ}=> bigSep Finset.univ (G' SV RV) :=
  ((bigSep_mono fun c _ => core_alloc SV RV c).trans (bigSep_fupd _ _)).trans (BI.fupd_mono (regroup SV RV))

end Cert.KernelIdeal.Mlp

end
-- ==== Proof.Launch.lean ====
import proofs.«900996_g7700000000000997_dist_mlpseq_tp1d_rep_bs_b64_d1024_h2048_v7x_i8_bf16_1_alg».proof.Proof.Sched
import proofs.«900996_g7700000000000997_dist_mlpseq_tp1d_rep_bs_b64_d1024_h2048_v7x_i8_bf16_1_alg».proof.Proof.Glob
import Idealize.ShloMosaic.Lib.Pipeline.Launch
import Idealize.ShloMosaic.Lib.Pipeline.Kit
import Idealize.ShloMosaic.Lib.Pipeline.Cells
import Idealize.ShloMosaic.Lib.Tactic

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (SV : Dev nD → Fin 12 → (S64x512.Idx → Elt F .bf16)) (RV : Dev nD → Fin 8 → (S8x1024.Idx → Elt F .bf16))
variable (m : (ℓ : Loc nD τ sig) → Buf (Elt F) ℓ) (ρ : Dev nD → PrngReg)
variable (OV : Dev nD → (cc0_stg1_0 : Ref sig .tc).ty.Contents (Elt F))

namespace Launch

theorem cred_from (sm : SemLoc sig) (o : Fin 8) (n : ℕ) (c : Dev nD) :
    (Pipeline.launchCred (fun d : Dev nD => (tallyAt (((xr d o : Dev nD) : Thread nD τ), sm) () n : CellTallies nD τ sig Unit)) c : sProp 𝕄)
      ⊢ cred (tallyAt ((c : Thread nD τ), sm) () n) :=
  Pipeline.launchCred_tallyAt sm (fun d => xr d o) (fun d => xr d o) (fun c => xr_xr c o) (fun c => xr_xr c o) () n c

theorem cred_succ (g : GSem nD τ sig) (n : ℕ) :
    iprop(cred (tallyAt g () 1) ∗ cred (tallyAt g () n)) ⊢ (cred (tallyAt g () (1 + n)) : sProp 𝕄) := by
  rw [← tallyAt_add]; exact (cred_add _ _).2

theorem cred_seven (g : GSem nD τ sig) :
    iprop(cred (tallyAt g () 1) ∗ cred (tallyAt g () 1) ∗ cred (tallyAt g () 1) ∗ cred (tallyAt g () 1) ∗ cred (tallyAt g () 1)
        ∗ cred (tallyAt g () 1) ∗ cred (tallyAt g () 1)) ⊢ (cred (tallyAt g () 7) : sProp 𝕄) :=
  (sep_mono_right ((sep_mono_right ((sep_mono_right ((sep_mono_right ((sep_mono_right (cred_succ (F := F) g 1)).trans (cred_succ g 2))).trans
    (cred_succ g 3))).trans (cred_succ g 4))).trans (cred_succ g 5))).trans (cred_succ g 6)

omit [FloatOps F] in
theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
omit [FloatOps F] in
theorem bigSep_masks (Φ : Fin 8 → sProp 𝕄) :
    bigSep (Finset.univ.erase (0 : Fin 8)) Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ

end Launch

open Launch in
/-- Each summand of what the others owe is a credit on this device's own cell; equal cells' credits add up. -/
theorem creds_of (c : Dev nD) : (Pipeline.launchCred O₀ c : sProp 𝕄) ⊢ creds c := by
  delta O₀
  simp only [Pipeline.launchCred_add]
  apply BIBase.Entails.trans
  · repeat' first | exact cred_from (F := F) _ _ _ c | apply BIClass.sep_mono
  iintro ⟨⟨⟨⟨⟨⟨⟨⟨⟨⟨⟨⟨⟨⟨⟨⟨⟨⟨⟨⟨⟨⟨⟨⟨⟨⟨⟨⟨⟨⟨⟨⟨E7, E6⟩, E5⟩, E4⟩, E3⟩, E2⟩, E1⟩, Q4⟩, Q3⟩, Q1⟩, Q2⟩, Q7⟩, Q5⟩, Q6⟩, V11⟩, V10⟩, V9⟩, V8⟩, V7⟩, V6⟩, V5⟩, V4⟩, V3⟩, V2⟩, V1⟩, V0⟩, B7⟩, B6⟩, B5⟩, B4⟩, B3⟩, B2⟩, B1⟩
  unfold creds
  rw [bigSep_fin12, bigSep_masks]
  isplitl [B1 B2 B3 B4 B5 B6 B7]
  · iapply (cred_seven (F := F) (barCell c)); iframe
  isplitl [E1 E2 E3 E4 E5 E6 E7]
  · iapply (cred_seven (F := F) (exitCell c)); iframe
  iframe

namespace Launch

theorem lv_pos_exit (d : Dev nD) : 1 ≤ lv (exitCell d) () := by revert d; decide
theorem lv_pos_bar (d : Dev nD) : 1 ≤ lv (barCell d) () := by revert d; decide
theorem lv_pos_recv (d : Dev nD) (i : Fin 12) : 1 ≤ lv (recvCell d i) () := by revert d i; decide
theorem lv_pos_rsr (d : Dev nD) (o : Fin 8) (ho : o ≠ 0) : 1 ≤ lv (rsrCell d o) () := by revert d o; decide

theorem O₀_pos {c : Dev nD} {g : GSem nD τ sig} {u : Unit} (h : 0 < O₀ c g u) : g.1.2 = .tc ∧ 1 ≤ lv g u := by
  unfold O₀ at h
  repeat' (rcases Pipeline.add_pos_cases h with h | h)
  all_goals (obtain ⟨rfl, rfl⟩ := Pipeline.tallyAt_pos h; refine ⟨rfl, ?_⟩)
  all_goals first
    | exact lv_pos_exit _
    | exact lv_pos_bar _
    | exact lv_pos_recv _ _
    | exact lv_pos_rsr _ _ (by decide)

theorem lv_stage (c : Dev nD) (w : Fin cfg0.W) (s : Fin (cfg0.win w).nbuf) :
    lv ((c : Thread nD τ), SemLoc.dma ((cfg0.win w).sem s)) () = 0 := by
  revert c; fin_cases w <;> fin_cases s <;> decide

end Launch

open Launch in
theorem waits (c : Dev nD) : (levAts L lv : sProp 𝕄) ⊢ Pipeline.cellsWaits cfgs (dats SV RV m OV) () 0 c :=
  Pipeline.cellsWaits_intro cfgs (dats SV RV m OV) () 0 c fun w s t => by
    rcases t with ⟨_ | _, ht⟩
    · show _ ⊢ MayWait (c : Thread nD τ) (SemLoc.dma ((cfg0.win w).sem s)) () (O₀ c)
      refine Pipeline.mayWait_of_levAts (by rw [L_tc]; exact Finset.mem_singleton_self _) fun g i hg => ?_
      obtain ⟨h1, h2⟩ := O₀_pos hg
      refine ⟨?_, ?_⟩
      · unfold L; rw [if_pos h1]; exact Finset.mem_singleton_self _
      · rw [lv_stage]; exact h2
    · show _ ⊢ MayWait (c : Thread nD τ) (SemLoc.dma ((cfg0.win w).sem s)) () 0
      rw [MayWait_zero]; iintro -; iempintro

theorem share_eq (c : Dev nD) (w : Fin cfg0.W) : (dats SV RV m OV 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' SV RV c)
      ⊢ |={Set.univ}=> iprop(start SV RV m c ∗ emp) := by
  rw [Pipeline.unscopedRestP_none, unscopedRest0_eq]
  iintro ⟨Hw, Hlev, Hcr, -, HG⟩
  ihave Hc := (creds_of (F := F) c) $$ Hcr
  imodintro
  unfold start G' weights
  isplitl
  · iframe
  · iempintro

theorem phi0_intro (c : Dev nD) :
    iprop(start SV RV m c ∗ Pipeline.prefHeld Pipeline.Prefetch.none c (fun _ => fullShare.right) (fun k => k.elim0) ∗ Pipeline.scopedRest cfg0.spec c)
      ⊢ (dats SV RV m OV 0 c).Φ 0 := by
  rw [show (dats SV RV m OV 0 c).Φ 0 = Φ₀ SV RV m c from rfl, scopedRest0_eq]
  unfold Φ₀ scratch
  iintro ⟨Hs, -, Hr⟩
  iframe

namespace Launch

theorem osem_set : Finset.univ.map ⟨osem, ownSemFacts.inj⟩
    = insert (SemLoc.reg exitS) ((Finset.univ.filter fun q : DmaSem sig => 2 ≤ q.val).map ⟨SemLoc.dma, dma_injective⟩) := by
  decide +kernel

theorem ownZero_sems (c : Dev nD) :
    (ownZero c : sProp 𝕄) = Pipeline.ownSems0 (Ix := Unit) (Name := ℕ) (U := UU) (Lvl := ℕ) (Val := Elt F) (τ := τ) osem c := by
  have h1 : (Pipeline.ownSems0 (Ix := Unit) (Name := ℕ) (U := UU) (Lvl := ℕ) (Val := Elt F) (τ := τ) osem c : sProp 𝕄)
      = bigSep (Finset.univ.map ⟨osem, ownSemFacts.inj⟩) (fun sm : SemLoc sig => (semVal ((c : Thread nD τ), sm) 0 : sProp 𝕄)) :=
    by rw [bigSep_map]; rfl
  rw [h1, osem_set, bigSep_insert (by decide), bigSep_map]
  rfl

end Launch

theorem phi1_exit (c : Dev nD) :
    (dats SV RV m OV 0 c).Φ (Fin.last cfg0.N) ⊢ iprop(weights m c ∗ Pipeline.ownSems0 osem c ∗ Pipeline.scopedRest cfg0.spec c) := by
  rw [show (dats SV RV m OV 0 c).Φ (Fin.last cfg0.N) = Φ₁ m c from rfl, scopedRest0_eq, ← Launch.ownZero_sems]
  unfold Φ₁ scratch
  iintro ⟨Hw, Hr, Hz⟩
  iframe

theorem finalA_in (c : Dev nD) : (dats SV RV m OV 0 c).arrAt (0 : Fin 2) cfg0.N = m ((c : Thread nD τ).loc main_arg0) :=
  (dats SV RV m OV 0 c).arrAt_in (0 : Fin 2) rfl _

theorem finalA_out (c : Dev nD) : (dats SV RV m OV 0 c).arrAt (1 : Fin 2) cfg0.N = OV c := by
  have h := (dats SV RV m OV 0 c).arrAt_succ (1 : Fin 2) t0_0
  rw [flush0_1, if_pos rfl] at h
  refine h.trans ?_
  have hz : (fun a => (cfg0.win (1 : Fin 2)).index t0_0 a * (cfg0.win (1 : Fin 2)).size a) = fun _ => 0 := funext fun a => Nat.zero_mul _
  exact Memref.write_access_unit_zero_univ (Elt F) main_v1 hz _ _ _

def WeightsKept (c : Dev nD) (s : MemSt nD τ sig (Elt F)) : Prop :=
  s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)

theorem weights_read (c : Dev nD) (s' : Phys nD τ sig (Elt F)) :
    iprop(weights m c ∗ emp ∗ SI s') ⊢ |={Set.univ}=> iprop(⌜WeightsKept m c s'.mem⌝ ∗ SI s') := by
  unfold weights
  iintro ⟨⟨H1, H2, H3, H4, H5, H6⟩, -, HSI⟩
  icombine HSI H1 gives %h1
  icombine HSI H2 gives %h2
  icombine HSI H3 gives %h3
  icombine HSI H4 gives %h4
  icombine HSI H5 gives %h5
  icombine HSI H6 gives %h6
  imodintro
  isplitr
  · ipureintro
    exact ⟨Buf.eq_of_forall_mem_univ h1, Buf.eq_of_forall_mem_univ h2, Buf.eq_of_forall_mem_univ h3, Buf.eq_of_forall_mem_univ h4,
      Buf.eq_of_forall_mem_univ h5, Buf.eq_of_forall_mem_univ h6⟩
  iexact HSI
set_option maxRecDepth 8000 in

theorem run_main (hbody : ∀ c, BodyObligation (dats SV RV m OV 0 c) (defs₀ (F := F)) 𝒱₀ () Set.univ) :
    θ_run defs (onTc (τ := τ) (main (F := F))) ⟨m, fun _ => 0, ρ⟩ (fun r => ∀ c : Dev nD,
      r.2.mem ((c : Thread nD τ).loc main_v1) = OV c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  Pipeline.θ_run_region_owing_glob_pf (fun p => (cfgs p).toPCfg) (fun p => (cfgs p).toPCfg_adm) (dats SV RV m OV) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq SV RV m OV)
    (hdistinct := winFacts0.arr_inj)
    (O₀ := O₀) (howed₀ := fun _ => rfl) (howedN := fun _ => rfl)
    (L := L) (lv := lv) (hL := L_of_ne) (hwaits := waits SV RV m OV)
    (G := G SV RV) (G' := G' SV RV) (u₀ := u₀)
    (hu₀ := by
      unfold u₀
      iintro Hu
      ihave H := (ownU_pair _ _) $$ Hu
      icases H with ⟨HP, HX⟩
      ihave HX' := (show (BI.own (embR (initOf allCells allToks, (1 : Counters))) : sProp 𝕄) ⊢ BI.own (ER (initOf allCells allToks)) from .rfl) $$ HX
      imod (fund_all SV RV) $$ HX' with HG
      imodintro
      isplitl [HP] <;> iassumption)
    (hglob := glob SV RV)
    (hA := fun _ _ => rfl) (hpf := fun _ k => k.elim0)
    (X := start SV RV m) (Y := weights m) (Z := fun _ => iprop(emp))
    (hX := start_intro SV RV m ρ) (hin := phi0_intro SV RV m OV) (hout := phi1_exit SV RV m OV)
    (QY := WeightsKept m)
    (hY := weights_read m)
    (hQ := fun s h c => ⟨((h c).1 (1 : Fin 2)).trans (finalA_out SV RV m OV c), ((h c).1 (0 : Fin 2)).trans (finalA_in SV RV m OV c), (h c).2.2⟩)

end Cert.KernelIdeal.Mlp

end
-- ==== Proof.Tables.lean ====
import proofs.«900996_g7700000000000997_dist_mlpseq_tp1d_rep_bs_b64_d1024_h2048_v7x_i8_bf16_1_alg».proof.Proof.Sched

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem kindOf_bar : kindOf (.reg barS) = .bar := by decide
theorem kindOf_exit : kindOf (.reg exitS) = .exit := by decide
theorem kindOf_send : ∀ i : Fin 12, kindOf (.dma (sendS i)) = .send i := by decide
theorem kindOf_recv : ∀ i : Fin 12, kindOf (.dma (recvS i)) = .recv i := by decide
theorem kindOf_rss : ∀ o : Fin 8, o ≠ 0 → kindOf (.dma (rssS o)) = .rss o := by decide
theorem kindOf_rsr : ∀ o : Fin 8, o ≠ 0 → kindOf (.dma (rsrS o)) = .rsr o := by decide

section Tables
variable (SV : Dev nD → Fin 12 → (S64x512.Idx → Elt F .bf16)) (RV : Dev nD → Fin 8 → (S8x1024.Idx → Elt F .bf16))
variable (c : Dev nD) (i : Fin 12) (o : Fin 8) (ho : o ≠ 0) (d : Fin 8)

theorem duties_bar : (sched SV RV).duties (barCell c) 0 = Finset.univ.erase 0 := by dsimp only [sched]; rw [if_pos ⟨rfl, rfl⟩, kindOf_bar]
theorem duties_exit : (sched SV RV).duties (exitCell c) 0 = Finset.univ.erase 0 := by dsimp only [sched]; rw [if_pos ⟨rfl, rfl⟩, kindOf_exit]
theorem duties_send : (sched SV RV).duties (sendCell c i) 0 = {0} := by dsimp only [sched]; rw [if_pos ⟨rfl, rfl⟩, kindOf_send]
theorem duties_recv : (sched SV RV).duties (recvCell c i) 0 = {0} := by dsimp only [sched]; rw [if_pos ⟨rfl, rfl⟩, kindOf_recv]
theorem duties_later (g : GSem nD τ sig) : ∀ r, 1 ≤ r → (sched SV RV).duties g r = ∅ := fun r hr => if_neg fun h => by have := h.1; omega

theorem amount_bar : (sched SV RV).amount (barCell c) 0 d = 1 := by dsimp only [sched]; rw [kindOf_bar]
theorem amount_exit : (sched SV RV).amount (exitCell c) 0 d = 1 := by dsimp only [sched]; rw [kindOf_exit]
theorem amount_send : (sched SV RV).amount (sendCell c i) 0 d = N1 := by dsimp only [sched]; rw [kindOf_send]
theorem amount_recv : (sched SV RV).amount (recvCell c i) 0 d = N1 := by dsimp only [sched]; rw [kindOf_recv]

/-- A round expects the sum of its duties' amounts: as many times `N` as it has duties, when each is of `N`. -/
theorem expect_of {g : GSem nD τ sig} {S : Finset (Fin 8)} {N : ℕ} (hd : (sched SV RV).duties g 0 = S) (ha : ∀ d, (sched SV RV).amount g 0 d = N) :
    (sched SV RV).expect g 0 = S.card * N := by
  unfold Schedule.expect Schedule.amountOf; rw [hd, Finset.sum_congr rfl fun d _ => ha d, Finset.sum_const, smul_eq_mul]
theorem expect_bar : (sched SV RV).expect (barCell c) 0 = 7 := expect_of SV RV (duties_bar SV RV c) (amount_bar SV RV c)
theorem expect_exit : (sched SV RV).expect (exitCell c) 0 = 7 := expect_of SV RV (duties_exit SV RV c) (amount_exit SV RV c)
theorem expect_send : (sched SV RV).expect (sendCell c i) 0 = N1 := (expect_of SV RV (duties_send SV RV c i) (amount_send SV RV c i)).trans (Nat.one_mul _)
theorem expect_recv : (sched SV RV).expect (recvCell c i) 0 = N1 := (expect_of SV RV (duties_recv SV RV c i) (amount_recv SV RV c i)).trans (Nat.one_mul _)

theorem payload_bar : (sched SV RV).payload (barCell c) 0 o = barPay c o := by dsimp only [sched]; rw [kindOf_bar]
theorem payload_exit : (sched SV RV).payload (exitCell c) 0 o = iprop(emp) := by dsimp only [sched]; rw [kindOf_exit]
theorem payload_send : (sched SV RV).payload (sendCell c i) 0 d = slotAny c (sslot i) := by dsimp only [sched]; rw [kindOf_send]
theorem payload_recv : (sched SV RV).payload (recvCell c i) 0 d = slotIs c (rslot i) (SV (xr c (maskOf i)) i) := by dsimp only [sched]; rw [kindOf_recv]

section
include ho
theorem duties_rss : (sched SV RV).duties (rssCell c o) 0 = {0} := by dsimp only [sched]; rw [if_pos ⟨rfl, rfl⟩, kindOf_rss o ho]
theorem duties_rsr : (sched SV RV).duties (rsrCell c o) 0 = {0} := by dsimp only [sched]; rw [if_pos ⟨rfl, rfl⟩, kindOf_rsr o ho]
theorem amount_rss : (sched SV RV).amount (rssCell c o) 0 d = N2 := by dsimp only [sched]; rw [kindOf_rss o ho]
theorem amount_rsr : (sched SV RV).amount (rsrCell c o) 0 d = N2 := by dsimp only [sched]; rw [kindOf_rsr o ho]
theorem expect_rss : (sched SV RV).expect (rssCell c o) 0 = N2 := (expect_of SV RV (duties_rss SV RV c o ho) (amount_rss SV RV c o ho)).trans (Nat.one_mul _)
theorem expect_rsr : (sched SV RV).expect (rsrCell c o) 0 = N2 := (expect_of SV RV (duties_rsr SV RV c o ho) (amount_rsr SV RV c o ho)).trans (Nat.one_mul _)
theorem payload_rss : (sched SV RV).payload (rssCell c o) 0 d = slotAny c (qslot o) := by dsimp only [sched]; rw [kindOf_rss o ho]
theorem payload_rsr : (sched SV RV).payload (rsrCell c o) 0 d = slotIs c (pslot o) (RV (xr c o) o) := by dsimp only [sched]; rw [kindOf_rsr o ho]
end

/-- What a barrier cell's round holds while no duty has been taken: the seven entry payloads. -/
theorem rest_bar :
    bigSep ((sched SV RV).duties (barCell c) 0 \ ∅) (fun d => (sched SV RV).payload (barCell c) 0 d)
      = iprop(barPay c 1 ∗ barPay c 2 ∗ barPay c 3 ∗ barPay c 4 ∗ barPay c 5 ∗ barPay c 6 ∗ barPay c 7) := by
  rw [Finset.sdiff_empty, duties_bar, bigSep_eq_bigSepL_of_eq [1, 2, 3, 4, 5, 6, 7] (by decide) (by decide)]
  rfl

end Tables

/-- Every cell owed in `O` is a TensorCore cell of level at least `n`. -/
def AllAbove (n : ℕ) (O : CellTallies nD τ sig Unit) : Prop := ∀ g u, 0 < O g u → g.1.2 = .tc ∧ n ≤ lv g u

theorem AllAbove_zero (n : ℕ) : AllAbove n 0 := fun g u h => absurd h (Nat.lt_irrefl 0)
theorem AllAbove_add {n : ℕ} {O₁ O₂ : CellTallies nD τ sig Unit} (h₁ : AllAbove n O₁) (h₂ : AllAbove n O₂) : AllAbove n (O₁ + O₂) := fun g u h => (Pipeline.add_pos_cases h).elim (h₁ g u) (h₂ g u)
theorem AllAbove_tally {n : ℕ} {g : GSem nD τ sig} {k : ℕ} (hg : g.1.2 = .tc) (hl : n ≤ lv g ()) : AllAbove n (tallyAt g () k) := fun g' u h => by
  obtain ⟨rfl, rfl⟩ := Pipeline.tallyAt_pos h
  exact ⟨hg, hl⟩
theorem AllAbove_mono {n n' : ℕ} {O : CellTallies nD τ sig Unit} (h : n' ≤ n) (hO : AllAbove n O) : AllAbove n' O := fun g u hp => ⟨(hO g u hp).1, Nat.le_trans h (hO g u hp).2⟩

/-- A wait is allowed while everything owed lies strictly above its level. -/
theorem mayWait_of_above (c : Dev nD) (sm : SemLoc sig) (O : CellTallies nD τ sig Unit)
    (h : AllAbove (lv ((c : Thread nD τ), sm) () + 1) O) :
    (levAts L lv : sProp 𝕄) ⊢ MayWait (c : Thread nD τ) sm () O := Pipeline.mayWait_of_levAts (by rw [L_tc]; exact Finset.mem_singleton_self _)
    fun g u hg => ⟨by rw [L, if_pos (h g u hg).1]; exact Finset.mem_singleton_self _, (h g u hg).2⟩

theorem AllAbove_tally_bar (c' : Dev nD) (k : ℕ) : AllAbove 1 (tallyAt (barCell c') () k) := AllAbove_tally rfl (by rw [lv, kindOf_bar])
theorem AllAbove_tally_recv (c' : Dev nD) (i : Fin 12) (k : ℕ) : AllAbove (2 + i.val) (tallyAt (recvCell c' i) () k) := AllAbove_tally rfl (by rw [lv, kindOf_recv])
theorem AllAbove_tally_rsr (c' : Dev nD) (o : Fin 8) (ho : o ≠ 0) (k : ℕ) : AllAbove 20 (tallyAt (rsrCell c' o) () k) := AllAbove_tally rfl (by rw [lv, kindOf_rsr o ho])
theorem AllAbove_tally_exit (c' : Dev nD) (k : ℕ) : AllAbove 30 (tallyAt (exitCell c') () k) := AllAbove_tally rfl (by rw [lv, kindOf_exit])

end Cert.KernelIdeal.Mlp

end
-- ==== Proof.Open.lean ====
import proofs.«900996_g7700000000000997_dist_mlpseq_tp1d_rep_bs_b64_d1024_h2048_v7x_i8_bf16_1_alg».proof.Proof.Sched

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (SV : Dev nD → Fin 12 → (S64x512.Idx → Elt F .bf16)) (RV : Dev nD → Fin 8 → (S8x1024.Idx → Elt F .bf16))

def kBar : Fin 40 := 0
def kExit : Fin 40 := 1
def kSend (i : Fin 12) : Fin 40 := ⟨2 + i.val, by omega⟩
def kRecv (i : Fin 12) : Fin 40 := ⟨14 + i.val, by omega⟩
def kRss (o : Fin 8) (ho : o ≠ 0) : Fin 40 := ⟨25 + o.val, by omega⟩
def kRsr (o : Fin 8) (ho : o ≠ 0) : Fin 40 := ⟨32 + o.val, by omega⟩

theorem inv_at (K : Dev nD × Fin 40 → ℕ) (ck : Dev nD × Fin 40) : records SV RV K ⊢ cellInv ER (sched SV RV) (K ck) (kcell ck) := by
  unfold records
  exact (BI.Entails.trans BI.sep_and BI.and_elimL).trans (bigSep_elim (Finset.mem_univ ck))

theorem reached_at (K : Dev nD × Fin 40 → ℕ) (ck : Dev nD × Fin 40) : records SV RV K ⊢ reached ER (kcell ck) 0 := by
  unfold records
  exact (BI.Entails.trans BI.sep_and BI.and_elimR).trans (bigSep_elim (Finset.mem_univ ck))

omit [FloatOps F] in
theorem bi_sep_eq (P Q : sProp 𝕄) : BI.sep P Q = (iprop(P ∗ Q) : sProp 𝕄) := rfl

omit [FloatOps F] in
theorem sep_assoc_eq (P Q R : sProp 𝕄) : iprop((P ∗ Q) ∗ R) = (iprop(P ∗ Q ∗ R) : sProp 𝕄) :=
  Std.Associative.assoc (op := (BI.sep : sProp 𝕄 → _ → _)) P Q R

omit [FloatOps F] in
theorem positions_open (c : Dev nD) : positions (F := F) c ⊢ iprop(atPos ER (barCell c) 0 ∅ 0 ∗ atPos ER (exitCell c) 0 ∅ 0
    ∗ atPos ER (sendCell c 0) 0 ∅ 0 ∗ atPos ER (sendCell c 1) 0 ∅ 0 ∗ atPos ER (sendCell c 2) 0 ∅ 0 ∗ atPos ER (sendCell c 3) 0 ∅ 0
    ∗ atPos ER (sendCell c 4) 0 ∅ 0 ∗ atPos ER (sendCell c 5) 0 ∅ 0 ∗ atPos ER (sendCell c 6) 0 ∅ 0 ∗ atPos ER (sendCell c 7) 0 ∅ 0
    ∗ atPos ER (sendCell c 8) 0 ∅ 0 ∗ atPos ER (sendCell c 9) 0 ∅ 0 ∗ atPos ER (sendCell c 10) 0 ∅ 0 ∗ atPos ER (sendCell c 11) 0 ∅ 0
    ∗ atPos ER (recvCell c 0) 0 ∅ 0 ∗ atPos ER (recvCell c 1) 0 ∅ 0 ∗ atPos ER (recvCell c 2) 0 ∅ 0 ∗ atPos ER (recvCell c 3) 0 ∅ 0
    ∗ atPos ER (recvCell c 4) 0 ∅ 0 ∗ atPos ER (recvCell c 5) 0 ∅ 0 ∗ atPos ER (recvCell c 6) 0 ∅ 0 ∗ atPos ER (recvCell c 7) 0 ∅ 0
    ∗ atPos ER (recvCell c 8) 0 ∅ 0 ∗ atPos ER (recvCell c 9) 0 ∅ 0 ∗ atPos ER (recvCell c 10) 0 ∅ 0 ∗ atPos ER (recvCell c 11) 0 ∅ 0
    ∗ atPos ER (rssCell c 1) 0 ∅ 0 ∗ atPos ER (rssCell c 2) 0 ∅ 0 ∗ atPos ER (rssCell c 3) 0 ∅ 0 ∗ atPos ER (rssCell c 4) 0 ∅ 0
    ∗ atPos ER (rssCell c 5) 0 ∅ 0 ∗ atPos ER (rssCell c 6) 0 ∅ 0 ∗ atPos ER (rssCell c 7) 0 ∅ 0
    ∗ atPos ER (rsrCell c 1) 0 ∅ 0 ∗ atPos ER (rsrCell c 2) 0 ∅ 0 ∗ atPos ER (rsrCell c 3) 0 ∅ 0 ∗ atPos ER (rsrCell c 4) 0 ∅ 0
    ∗ atPos ER (rsrCell c 5) 0 ∅ 0 ∗ atPos ER (rsrCell c 6) 0 ∅ 0 ∗ atPos ER (rsrCell c 7) 0 ∅ 0) := by
  unfold positions
  rw [bigSep_univ_eq_bigSepL [0, 1, 2, 3, 4, 5, 6, 7, 8, 9, 10, 11, 12, 13, 14, 15, 16, 17, 18, 19, 20, 21, 22, 23, 24, 25, 26, 27, 28, 29,
    30, 31, 32, 33, 34, 35, 36, 37, 38, 39] (by decide) (by decide)]
  exact BIBase.Entails.refl

omit [FloatOps F] in
theorem payToks_open (c : Dev nD) : payToks (F := F) c ⊢ iprop(
      dutyTok ER (barCell (xr c 1)) 0 1 ∗ dutyTok ER (exitCell (xr c 1)) 0 1 ∗ dutyTok ER (rsrCell (xr c 1) 1) 0 0 ∗ dutyTok ER (rssCell c 1) 0 0
    ∗ dutyTok ER (barCell (xr c 2)) 0 2 ∗ dutyTok ER (exitCell (xr c 2)) 0 2 ∗ dutyTok ER (rsrCell (xr c 2) 2) 0 0 ∗ dutyTok ER (rssCell c 2) 0 0
    ∗ dutyTok ER (barCell (xr c 3)) 0 3 ∗ dutyTok ER (exitCell (xr c 3)) 0 3 ∗ dutyTok ER (rsrCell (xr c 3) 3) 0 0 ∗ dutyTok ER (rssCell c 3) 0 0
    ∗ dutyTok ER (barCell (xr c 4)) 0 4 ∗ dutyTok ER (exitCell (xr c 4)) 0 4 ∗ dutyTok ER (rsrCell (xr c 4) 4) 0 0 ∗ dutyTok ER (rssCell c 4) 0 0
    ∗ dutyTok ER (barCell (xr c 5)) 0 5 ∗ dutyTok ER (exitCell (xr c 5)) 0 5 ∗ dutyTok ER (rsrCell (xr c 5) 5) 0 0 ∗ dutyTok ER (rssCell c 5) 0 0
    ∗ dutyTok ER (barCell (xr c 6)) 0 6 ∗ dutyTok ER (exitCell (xr c 6)) 0 6 ∗ dutyTok ER (rsrCell (xr c 6) 6) 0 0 ∗ dutyTok ER (rssCell c 6) 0 0
    ∗ dutyTok ER (barCell (xr c 7)) 0 7 ∗ dutyTok ER (exitCell (xr c 7)) 0 7 ∗ dutyTok ER (rsrCell (xr c 7) 7) 0 0 ∗ dutyTok ER (rssCell c 7) 0 0
    ∗ dutyTok ER (recvCell (xr c 1) 0) 0 0 ∗ dutyTok ER (sendCell c 0) 0 0
    ∗ dutyTok ER (recvCell (xr c 1) 1) 0 0 ∗ dutyTok ER (sendCell c 1) 0 0
    ∗ dutyTok ER (recvCell (xr c 3) 2) 0 0 ∗ dutyTok ER (sendCell c 2) 0 0
    ∗ dutyTok ER (recvCell (xr c 3) 3) 0 0 ∗ dutyTok ER (sendCell c 3) 0 0
    ∗ dutyTok ER (recvCell (xr c 4) 4) 0 0 ∗ dutyTok ER (sendCell c 4) 0 0
    ∗ dutyTok ER (recvCell (xr c 4) 5) 0 0 ∗ dutyTok ER (sendCell c 5) 0 0
    ∗ dutyTok ER (recvCell (xr c 1) 6) 0 0 ∗ dutyTok ER (sendCell c 6) 0 0
    ∗ dutyTok ER (recvCell (xr c 1) 7) 0 0 ∗ dutyTok ER (sendCell c 7) 0 0
    ∗ dutyTok ER (recvCell (xr c 3) 8) 0 0 ∗ dutyTok ER (sendCell c 8) 0 0
    ∗ dutyTok ER (recvCell (xr c 3) 9) 0 0 ∗ dutyTok ER (sendCell c 9) 0 0
    ∗ dutyTok ER (recvCell (xr c 4) 10) 0 0 ∗ dutyTok ER (sendCell c 10) 0 0
    ∗ dutyTok ER (recvCell (xr c 4) 11) 0 0 ∗ dutyTok ER (sendCell c 11) 0 0) := by
  unfold payToks
  rw [bigSep_eq_bigSepL_of_eq [1, 2, 3, 4, 5, 6, 7] (by decide) (by decide),
    bigSep_univ_eq_bigSepL [0, 1, 2, 3, 4, 5, 6, 7, 8, 9, 10, 11] (by decide) (by decide)]
  simp only [bigSepL_cons_cons, bigSepL_singleton, bi_sep_eq, sep_assoc_eq]
  exact BIBase.Entails.refl

omit [FloatOps F] in
theorem idleSems_open (c : Dev nD) : idleSems (F := F) c ⊢ iprop(semVal (c, .dma 2) 0
    ∗ semVal (c, .dma 3) 0 ∗ semVal (c, .dma 4) 0
    ∗ semVal (c, .dma 5) 0 ∗ semVal (c, .dma 6) 0
    ∗ semVal (c, .dma 7) 0 ∗ semVal (c, .dma 8) 0
    ∗ semVal (c, .dma 9) 0 ∗ semVal (c, .dma 34) 0
    ∗ semVal (c, .dma 42) 0) := by
  unfold idleSems
  rw [bigSep_eq_bigSepL_of_eq [2, 3, 4, 5, 6, 7, 8, 9, 34, 42] (by decide) (by decide)]
  exact BIBase.Entails.refl

omit [FloatOps F] in
theorem creds_open (c : Dev nD) : creds (F := F) c ⊢ iprop(cred (tallyAt (barCell c) () 7) ∗ cred (tallyAt (exitCell c) () 7)
    ∗ cred (tallyAt (recvCell c 0) () N1) ∗ cred (tallyAt (recvCell c 1) () N1) ∗ cred (tallyAt (recvCell c 2) () N1)
    ∗ cred (tallyAt (recvCell c 3) () N1) ∗ cred (tallyAt (recvCell c 4) () N1) ∗ cred (tallyAt (recvCell c 5) () N1)
    ∗ cred (tallyAt (recvCell c 6) () N1) ∗ cred (tallyAt (recvCell c 7) () N1) ∗ cred (tallyAt (recvCell c 8) () N1)
    ∗ cred (tallyAt (recvCell c 9) () N1) ∗ cred (tallyAt (recvCell c 10) () N1) ∗ cred (tallyAt (recvCell c 11) () N1)
    ∗ cred (tallyAt (rsrCell c 1) () N2) ∗ cred (tallyAt (rsrCell c 2) () N2) ∗ cred (tallyAt (rsrCell c 3) () N2)
    ∗ cred (tallyAt (rsrCell c 4) () N2) ∗ cred (tallyAt (rsrCell c 5) () N2) ∗ cred (tallyAt (rsrCell c 6) () N2)
    ∗ cred (tallyAt (rsrCell c 7) () N2)) := by
  unfold creds
  rw [bigSep_univ_eq_bigSepL [0, 1, 2, 3, 4, 5, 6, 7, 8, 9, 10, 11] (by decide) (by decide),
    bigSep_eq_bigSepL_of_eq [1, 2, 3, 4, 5, 6, 7] (by decide) (by decide)]
  simp only [bigSepL_cons_cons, bigSepL_singleton, bi_sep_eq, sep_assoc_eq]
  exact BIBase.Entails.refl

omit [FloatOps F] in
theorem ownZero_intro (c : Dev nD) : iprop(semVal (exitCell c) 0
    ∗ semVal (c, .dma 2) 0 ∗ semVal (c, .dma 3) 0
    ∗ semVal (c, .dma 4) 0 ∗ semVal (c, .dma 5) 0
    ∗ semVal (c, .dma 6) 0 ∗ semVal (c, .dma 7) 0
    ∗ semVal (c, .dma 8) 0 ∗ semVal (c, .dma 9) 0
    ∗ semVal (c, .dma 10) 0 ∗ semVal (c, .dma 11) 0
    ∗ semVal (c, .dma 12) 0 ∗ semVal (c, .dma 13) 0
    ∗ semVal (c, .dma 14) 0 ∗ semVal (c, .dma 15) 0
    ∗ semVal (c, .dma 16) 0 ∗ semVal (c, .dma 17) 0
    ∗ semVal (c, .dma 18) 0 ∗ semVal (c, .dma 19) 0
    ∗ semVal (c, .dma 20) 0 ∗ semVal (c, .dma 21) 0
    ∗ semVal (c, .dma 22) 0 ∗ semVal (c, .dma 23) 0
    ∗ semVal (c, .dma 24) 0 ∗ semVal (c, .dma 25) 0
    ∗ semVal (c, .dma 26) 0 ∗ semVal (c, .dma 27) 0
    ∗ semVal (c, .dma 28) 0 ∗ semVal (c, .dma 29) 0
    ∗ semVal (c, .dma 30) 0 ∗ semVal (c, .dma 31) 0
    ∗ semVal (c, .dma 32) 0 ∗ semVal (c, .dma 33) 0
    ∗ semVal (c, .dma 34) 0 ∗ semVal (c, .dma 35) 0
    ∗ semVal (c, .dma 36) 0 ∗ semVal (c, .dma 37) 0
    ∗ semVal (c, .dma 38) 0 ∗ semVal (c, .dma 39) 0
    ∗ semVal (c, .dma 40) 0 ∗ semVal (c, .dma 41) 0
    ∗ semVal (c, .dma 42) 0 ∗ semVal (c, .dma 43) 0
    ∗ semVal (c, .dma 44) 0 ∗ semVal (c, .dma 45) 0
    ∗ semVal (c, .dma 46) 0 ∗ semVal (c, .dma 47) 0
    ∗ semVal (c, .dma 48) 0 ∗ semVal (c, .dma 49) 0)
    ⊢ ownZero (F := F) c := by
  unfold ownZero
  rw [bigSep_eq_bigSepL_of_eq [2, 3, 4, 5, 6, 7, 8, 9, 10, 11, 12, 13, 14, 15, 16, 17, 18, 19, 20, 21, 22, 23, 24, 25, 26, 27, 28, 29,
    30, 31, 32, 33, 34, 35, 36, 37, 38, 39, 40, 41, 42, 43, 44, 45, 46, 47, 48, 49] (by decide) (by decide)]
  exact BIBase.Entails.refl

omit [FloatOps F] in
theorem whole_view (c : Dev nD) (b : Ref sig .tc) (f : Buf (Elt F) ((c : Thread nD τ).loc b)) :
    ((((c : Thread nD τ).loc b) ↦{fullShare} f) : sProp 𝕄)
      = ((Memref.whole b).view.loc (c : Thread nD τ) ↦[(Memref.whole b).view.set]{fullShare} f) := by
  rw [View.set_whole]

end Cert.KernelIdeal.Mlp

end
-- ==== Proof.Slots.lean ====
import proofs.«900996_g7700000000000997_dist_mlpseq_tp1d_rep_bs_b64_d1024_h2048_v7x_i8_bf16_1_alg».proof.Proof.Sched
import Idealize.ShloMosaic.Lib.Ring
import Idealize.ShloMosaic.Lib.ValueLayout
import Idealize.ShloMosaic.Lib.Pipeline.StackWindow

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

def J12 (i : Fin 12) : Finset S12x64x512.Idx := (Rect.unit (s := S12x64x512) ![i.val, 0, 0] S1x64x512.size (slot12_inb i)).set
def J8 (o : Fin 8) : Finset S8x8x1024.Idx := (Rect.unit (s := S8x8x1024) ![o.val, 0, 0] S1x8x1024.size (slot8_inb o)).set

/-- A slot is the member of the stack that its leading coordinate names. -/
theorem mem_slot {G a b : ℕ} (g : Fin G) {inb} {x : (StackWindow.stackShape G ![a, b]).Idx} :
    x ∈ (Rect.unit (s := StackWindow.stackShape G ![a, b]) ![g.val, 0, 0] ![1, a, b] inb).set ↔ (x 0).val = g.val :=
  StackWindow.IsMemberRect.mem_set_iff (d := ![a, b]) (g := g) (off := ![g.val, 0, 0]) (size := ![1, a, b])
    ⟨rfl, fun j => by fin_cases j <;> rfl, rfl, fun j => by fin_cases j <;> rfl⟩ x
theorem mem_J12 {i : Fin 12} {x : S12x64x512.Idx} : x ∈ J12 i ↔ (x 0).val = i.val := mem_slot i
theorem mem_J8 {o : Fin 8} {x : S8x8x1024.Idx} : x ∈ J8 o ↔ (x 0).val = o.val := mem_slot o

/-- A family of sets that are pairwise disjoint and cover everything. -/
abbrev Blocks {G : ℕ} {X : Type} [Fintype X] [DecidableEq X] (J : Fin G → Finset X) : Prop :=
  (∀ i i', i ≠ i' → Disjoint (J i) (J i')) ∧ Finset.univ.biUnion J = Finset.univ

/-- Sets told apart by a label that takes every value partition the whole. -/
theorem blocks_of_label {G : ℕ} {X : Type} [Fintype X] [DecidableEq X] {J : Fin G → Finset X} (ld : X → Fin G)
    (h : ∀ {i x}, x ∈ J i ↔ (ld x).val = i.val) : Blocks J :=
  ⟨fun i i' hne => Finset.disjoint_left.mpr fun x hx hx' => hne (Fin.ext ((h.mp hx).symm.trans (h.mp hx'))),
    Finset.eq_univ_iff_forall.mpr fun x => Finset.mem_biUnion.mpr ⟨ld x, Finset.mem_univ _, h.mpr rfl⟩⟩

theorem Blocks.of_eq {G : ℕ} {X : Type} [Fintype X] [DecidableEq X] {K J : Fin G → Finset X} (h : Blocks J) (e : ∀ i, K i = J i) : Blocks K :=
  (funext e : K = J) ▸ h

theorem J12_blocks : Blocks J12 := blocks_of_label (fun x => x 0) mem_J12
theorem J8_blocks : Blocks J8 := blocks_of_label (fun x => x 0) mem_J8

theorem sslot_set (i : Fin 12) : ((sslot i).view.set : Finset S12x64x512.Idx) = J12 i :=
  (View.set_reshape _ _).trans (View.set_slice_whole cc0_scratch3 _)
theorem rslot_set (i : Fin 12) : ((rslot i).view.set : Finset S12x64x512.Idx) = J12 i :=
  (View.set_reshape _ _).trans (View.set_slice_whole cc0_scratch4 _)
theorem qslot_set (o : Fin 8) : ((qslot o).view.set : Finset S8x8x1024.Idx) = J8 o :=
  (View.set_reshape _ _).trans (View.set_slice_whole cc0_scratch5 _)
theorem pslot_set (o : Fin 8) : ((pslot o).view.set : Finset S8x8x1024.Idx) = J8 o :=
  (View.set_reshape _ _).trans (View.set_slice_whole cc0_scratch6 _)

theorem sslots_blocks : Blocks (X := S12x64x512.Idx) fun i : Fin 12 => (sslot i).view.set := J12_blocks.of_eq sslot_set
theorem rslots_blocks : Blocks (X := S12x64x512.Idx) fun i : Fin 12 => (rslot i).view.set := J12_blocks.of_eq rslot_set
theorem qslots_blocks : Blocks (X := S8x8x1024.Idx) fun o : Fin 8 => (qslot o).view.set := J8_blocks.of_eq qslot_set
theorem pslots_blocks : Blocks (X := S8x8x1024.Idx) fun o : Fin 8 => (pslot o).view.set := J8_blocks.of_eq pslot_set

theorem slotAny_intro {s : Shape} {e : EltTy} (c : Dev nD) (M : Memref sig .tc .vmem s e) (f : Buf (Elt F) (M.view.loc (c : Thread nD τ))) :
    (M.view.loc (c : Thread nD τ) ↦[M.view.set]{fullShare} f : sProp 𝕄) ⊢ slotAny (F := F) c M := by
  unfold slotAny
  iintro H
  iexists f
  iexact H

/-- A buffer held whole is each part of a partition of it held, at some contents. -/
theorem give_of {ℓ : Loc nD τ sig} {G : ℕ} {I : Fin G → Finset (Idx ℓ)} (h : Blocks I) :
    iprop(∃ f : Buf (Elt F) ℓ, ℓ ↦{fullShare} f) ⊢ (bigSep Finset.univ fun i => iprop(∃ f : Buf (Elt F) ℓ, ℓ ↦[I i]{fullShare} f) : sProp 𝕄) := by
  iintro ⟨%f, H⟩
  have hi : ∀ i, (ℓ ↦[I i]{fullShare} f : sProp 𝕄) ⊢ iprop(∃ f : Buf (Elt F) ℓ, ℓ ↦[I i]{fullShare} f) := fun i => by
    iintro H; iexists f; iexact H
  have hm : (bigSep Finset.univ fun i => (ℓ ↦[I i]{fullShare} f) : sProp 𝕄) ⊢ bigSep Finset.univ fun i => iprop(∃ f : Buf (Elt F) ℓ, ℓ ↦[I i]{fullShare} f) :=
    bigSep_mono fun i _ => hi i
  iapply hm
  iapply (Entails.of_eq (Ring.pointsTo_blocks (Ix := Unit) (Name := ℕ) (U := UU) (Lvl := ℕ) I h.1 h.2 f))
  iexact H

theorem rslots_give (c : Dev nD) :
    iprop(∃ f : Buf (Elt F) ((c : Thread nD τ).loc cc0_scratch4), ((c : Thread nD τ).loc cc0_scratch4) ↦{fullShare} f)
      ⊢ (bigSep Finset.univ fun i : Fin 12 => slotAny (F := F) c (rslot i) : sProp 𝕄) := give_of (ℓ := (c : Thread nD τ).loc cc0_scratch4) rslots_blocks
theorem pslots_give (c : Dev nD) :
    iprop(∃ f : Buf (Elt F) ((c : Thread nD τ).loc cc0_scratch6), ((c : Thread nD τ).loc cc0_scratch6) ↦{fullShare} f)
      ⊢ (bigSep Finset.univ fun o : Fin 8 => slotAny (F := F) c (pslot o) : sProp 𝕄) := give_of (ℓ := (c : Thread nD τ).loc cc0_scratch6) pslots_blocks

/-- The parts of a partition of a buffer, each held at some contents, are the buffer held whole at some contents. -/
theorem take_of {ℓ : Loc nD τ sig} {G : ℕ} {I : Fin G → Finset (Idx ℓ)} (h : Blocks I) (f₀ : Buf (Elt F) ℓ) :
    (bigSep Finset.univ fun i => iprop(∃ f : Buf (Elt F) ℓ, ℓ ↦[I i]{fullShare} f) : sProp 𝕄) ⊢ iprop(∃ f : Buf (Elt F) ℓ, ℓ ↦{fullShare} f) :=
  Ring.pointsTo_blocks_join_exists (Ix := Unit) (Name := ℕ) (U := UU) (Lvl := ℕ) I h.1 h.2 f₀

theorem sslots_take (c : Dev nD) :
    (bigSep Finset.univ fun i : Fin 12 => slotAny (F := F) c (sslot i) : sProp 𝕄)
      ⊢ iprop(∃ f : Buf (Elt F) ((c : Thread nD τ).loc cc0_scratch3), ((c : Thread nD τ).loc cc0_scratch3) ↦{fullShare} f) :=
  take_of (ℓ := (c : Thread nD τ).loc cc0_scratch3) sslots_blocks fun _ => (Elt.inhabited F EltTy.bf16).default
theorem rslots_take (c : Dev nD) :
    (bigSep Finset.univ fun i : Fin 12 => slotAny (F := F) c (rslot i) : sProp 𝕄)
      ⊢ iprop(∃ f : Buf (Elt F) ((c : Thread nD τ).loc cc0_scratch4), ((c : Thread nD τ).loc cc0_scratch4) ↦{fullShare} f) :=
  take_of (ℓ := (c : Thread nD τ).loc cc0_scratch4) rslots_blocks fun _ => (Elt.inhabited F EltTy.bf16).default
theorem qslots_take (c : Dev nD) :
    (bigSep Finset.univ fun o : Fin 8 => slotAny (F := F) c (qslot o) : sProp 𝕄)
      ⊢ iprop(∃ f : Buf (Elt F) ((c : Thread nD τ).loc cc0_scratch5), ((c : Thread nD τ).loc cc0_scratch5) ↦{fullShare} f) :=
  take_of (ℓ := (c : Thread nD τ).loc cc0_scratch5) qslots_blocks fun _ => (Elt.inhabited F EltTy.bf16).default
theorem pslots_take (c : Dev nD) :
    (bigSep Finset.univ fun o : Fin 8 => slotAny (F := F) c (pslot o) : sProp 𝕄)
      ⊢ iprop(∃ f : Buf (Elt F) ((c : Thread nD τ).loc cc0_scratch6), ((c : Thread nD τ).loc cc0_scratch6) ↦{fullShare} f) :=
  take_of (ℓ := (c : Thread nD τ).loc cc0_scratch6) pslots_blocks fun _ => (Elt.inhabited F EltTy.bf16).default

section Unit1

variable {e : EltTy} {sz : Fin 3 → ℕ} {a b : ℕ} (M : Memref sig .tc .vmem ⟨3, sz⟩ e) (off : Fin 3 → ℕ)
  (inb : ∀ x, off x + (![1, a, b] : Fin 3 → ℕ) x ≤ sz x) (hq : (⟨3, ![1, a, b]⟩ : Shape).Squeezes ⟨2, ![a, b]⟩)

/-- One member of a stack of matrices, as a rectangle of the stack and as a matrix. -/
abbrev unit1 : Rect ⟨3, sz⟩ := Rect.unit (s := ⟨3, sz⟩) off ![1, a, b] inb
abbrev memberOf : Memref sig .tc .vmem ⟨2, ![a, b]⟩ e := (M.slice (unit1 off inb) fun _ => rfl).squeeze ⟨2, ![a, b]⟩ hq

/-- The matrix reads at `(x, y)` what the rectangle reads at `(0, x, y)`. -/
theorem slot_read (g : M.view.ty.Contents (Elt F)) (x : Fin a) (y : Fin b) :
    (memberOf M off inb hq).view.read (Elt F) g (ValueIdx.ix2 x y)
      = (M.access (unit1 off inb) : View sig .tc .vmem _ _).read (Elt F) g (ValueIdx.ix3 (0 : Fin 1) x y) :=
  congrArg (fun z => (M.access (unit1 off inb) : View sig .tc .vmem _ _).read (Elt F) g z) (ValueIdx.reshapeEquiv_ix2_1ab hq.numel_eq x y)

theorem load_slot (f : M.view.ty.Contents (Elt F)) :
    (M.view.readAt (Elt F) (unit1 off inb).toLoadRect f : (⟨3, ![1, a, b]⟩ : Shape).Idx → Elt F e)
      = fun j => (memberOf M off inb hq).view.read (Elt F) f (ValueIdx.ix2 (⟨(j 1).val, (j 1).isLt⟩ : Fin a) (⟨(j 2).val, (j 2).isLt⟩ : Fin b)) := by
  funext j
  obtain ⟨u, x, y, rfl⟩ : ∃ (u : Fin 1) (x : Fin a) (y : Fin b), j = ValueIdx.ix3 u x y := ⟨j 0, j 1, j 2, ValueIdx.eq_ix3 j⟩
  obtain rfl : u = 0 := Subsingleton.elim _ _
  exact (slot_read M off inb hq f x y).symm

theorem store_slot (f : M.view.ty.Contents (Elt F)) (w : (⟨3, ![1, a, b]⟩ : Shape).Idx → Elt F e) :
    (memberOf M off inb hq).view.read (Elt F) ((M.access (unit1 off inb) : View sig .tc .vmem _ _).write (Elt F) f w Finset.univ)
      = fun j => w (ValueIdx.ix3 (0 : Fin 1) (j 0) (j 1)) := by
  funext x
  obtain ⟨x0, x1, rfl⟩ : ∃ (x0 : Fin a) (x1 : Fin b), x = ValueIdx.ix2 x0 x1 := ⟨x 0, x 1, ValueIdx.eq_ix2 x⟩
  show _ = w (ValueIdx.ix3 (0 : Fin 1) x0 x1)
  rw [slot_read M off inb hq _ x0 x1, View.read_write_univ]

end Unit1

theorem store_sslot (c : Dev nD) (i : Fin 12) (f : Buf (Elt F) ((c : Thread nD τ).loc cc0_scratch3)) (w : S1x64x512.Idx → Elt F .bf16) :
    (sslot i).view.read (Elt F)
        (((Memref.whole cc0_scratch3).access (Rect.unit (s := S12x64x512) ![i.val, 0, 0] S1x64x512.size (slot12_inb i)) : View sig .tc .vmem _ _).write (Elt F) f w Finset.univ)
      = fun j => w (ValueIdx.ix3 (0 : Fin 1) (j 0) (j 1)) :=
  store_slot (Memref.whole cc0_scratch3) _ (slot12_inb i) squeezes_S1x64x512_S64x512 f w
theorem store_qslot (c : Dev nD) (o : Fin 8) (f : Buf (Elt F) ((c : Thread nD τ).loc cc0_scratch5)) (w : S1x8x1024.Idx → Elt F .bf16) :
    (qslot o).view.read (Elt F)
        (((Memref.whole cc0_scratch5).access (Rect.unit (s := S8x8x1024) ![o.val, 0, 0] S1x8x1024.size (slot8_inb o)) : View sig .tc .vmem _ _).write (Elt F) f w Finset.univ)
      = fun j => w (ValueIdx.ix3 (0 : Fin 1) (j 0) (j 1)) :=
  store_slot (Memref.whole cc0_scratch5) _ (slot8_inb o) squeezes_S1x8x1024_S8x1024 f w

end Cert.KernelIdeal.Mlp

end
-- ==== Proof.BodyCtx.lean ====
import proofs.«900996_g7700000000000997_dist_mlpseq_tp1d_rep_bs_b64_d1024_h2048_v7x_i8_bf16_1_alg».proof.Proof.Sched
import proofs.«900996_g7700000000000997_dist_mlpseq_tp1d_rep_bs_b64_d1024_h2048_v7x_i8_bf16_1_alg».proof.Proof.Vals

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (SV : Dev nD → Fin 12 → (S64x512.Idx → Elt F .bf16)) (RV : Dev nD → Fin 8 → (S8x1024.Idx → Elt F .bf16))
variable (m : (ℓ : Loc nD τ sig) → Buf (Elt F) ℓ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def owed₀ (c : Dev nD) : CellTallies nD τ sig Unit :=
  tallyAt (exitCell (xr c 7)) () 1 + tallyAt (exitCell (xr c 6)) () 1 + tallyAt (exitCell (xr c 5)) () 1 + tallyAt (exitCell (xr c 4)) () 1 + tallyAt (exitCell (xr c 3)) () 1 + tallyAt (exitCell (xr c 2)) () 1 + tallyAt (exitCell (xr c 1)) () 1 + tallyAt (rsrCell (xr c 4) 4) () N2 + tallyAt (rsrCell (xr c 3) 3) () N2 + tallyAt (rsrCell (xr c 1) 1) () N2 + tallyAt (rsrCell (xr c 2) 2) () N2 + tallyAt (rsrCell (xr c 7) 7) () N2 + tallyAt (rsrCell (xr c 5) 5) () N2 + tallyAt (rsrCell (xr c 6) 6) () N2 + tallyAt (recvCell (xr c 4) 11) () N1 + tallyAt (recvCell (xr c 4) 10) () N1 + tallyAt (recvCell (xr c 3) 9) () N1 + tallyAt (recvCell (xr c 3) 8) () N1 + tallyAt (recvCell (xr c 1) 7) () N1 + tallyAt (recvCell (xr c 1) 6) () N1 + tallyAt (recvCell (xr c 4) 5) () N1 + tallyAt (recvCell (xr c 4) 4) () N1 + tallyAt (recvCell (xr c 3) 3) () N1 + tallyAt (recvCell (xr c 3) 2) () N1 + tallyAt (recvCell (xr c 1) 1) () N1 + tallyAt (recvCell (xr c 1) 0) () N1 + tallyAt (barCell (xr c 7)) () 1 + tallyAt (barCell (xr c 6)) () 1 + tallyAt (barCell (xr c 5)) () 1 + tallyAt (barCell (xr c 4)) () 1 + tallyAt (barCell (xr c 3)) () 1 + tallyAt (barCell (xr c 2)) () 1 + tallyAt (barCell (xr c 1)) () 1

def bodyCtx (κ : GSem nD τ sig → ℕ) (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (f5 : Buf (Elt F) ((c : Thread nD τ).loc cc0_scratch5))
    (f6 : Buf (Elt F) ((c : Thread nD τ).loc cc0_scratch6)) (g1 : Buf (Elt F) ((c : Thread nD τ).loc cc0_stg1_0)) : sProp 𝕄 :=
  iprop(((Memref.whole main_arg1).view.loc (c : Thread nD τ) ↦[(Memref.whole main_arg1).view.set]{fullShare} (m ((c : Thread nD τ).loc main_arg1)))
    ∗ ((Memref.whole main_arg2).view.loc (c : Thread nD τ) ↦[(Memref.whole main_arg2).view.set]{fullShare} (m ((c : Thread nD τ).loc main_arg2)))
    ∗ ((Memref.whole main_arg3).view.loc (c : Thread nD τ) ↦[(Memref.whole main_arg3).view.set]{fullShare} (m ((c : Thread nD τ).loc main_arg3)))
    ∗ ((Memref.whole main_arg4).view.loc (c : Thread nD τ) ↦[(Memref.whole main_arg4).view.set]{fullShare} (m ((c : Thread nD τ).loc main_arg4)))
    ∗ ((Memref.whole main_arg5).view.loc (c : Thread nD τ) ↦[(Memref.whole main_arg5).view.set]{fullShare} (m ((c : Thread nD τ).loc main_arg5)))
    ∗ ((Memref.whole main_arg6).view.loc (c : Thread nD τ) ↦[(Memref.whole main_arg6).view.set]{fullShare} (m ((c : Thread nD τ).loc main_arg6)))
    ∗ ((Memref.whole cc0_scratch0).view.loc (c : Thread nD τ) ↦[(Memref.whole cc0_scratch0).view.set]{fullShare} f0)
    ∗ ((Memref.whole cc0_scratch1).view.loc (c : Thread nD τ) ↦[(Memref.whole cc0_scratch1).view.set]{fullShare} f1)
    ∗ ((Memref.whole cc0_scratch2).view.loc (c : Thread nD τ) ↦[(Memref.whole cc0_scratch2).view.set]{fullShare} f2)
    ∗ ((Memref.whole cc0_scratch3).view.loc (c : Thread nD τ) ↦[(Memref.whole cc0_scratch3).view.set]{fullShare} f3)
    ∗ ((Memref.whole cc0_scratch4).view.loc (c : Thread nD τ) ↦[(Memref.whole cc0_scratch4).view.set]{fullShare} f4)
    ∗ ((Memref.whole cc0_scratch5).view.loc (c : Thread nD τ) ↦[(Memref.whole cc0_scratch5).view.set]{fullShare} f5)
    ∗ ((Memref.whole cc0_scratch6).view.loc (c : Thread nD τ) ↦[(Memref.whole cc0_scratch6).view.set]{fullShare} f6)
    ∗ ((Memref.whole cc0_stg0_0).view.loc (c : Thread nD τ) ↦[(Memref.whole cc0_stg0_0).view.set]{fullShare} (xstg m c))
    ∗ ((Memref.whole cc0_stg1_0).view.loc (c : Thread nD τ) ↦[(Memref.whole cc0_stg1_0).view.set]{fullShare} g1)
    ∗ semVal ((c : Thread nD τ), SemLoc.dma (2 : DmaSem sig)) 0
    ∗ semVal ((c : Thread nD τ), SemLoc.dma (3 : DmaSem sig)) 0
    ∗ semVal ((c : Thread nD τ), SemLoc.dma (4 : DmaSem sig)) 0
    ∗ semVal ((c : Thread nD τ), SemLoc.dma (5 : DmaSem sig)) 0
    ∗ semVal ((c : Thread nD τ), SemLoc.dma (6 : DmaSem sig)) 0
    ∗ semVal ((c : Thread nD τ), SemLoc.dma (7 : DmaSem sig)) 0
    ∗ semVal ((c : Thread nD τ), SemLoc.dma (8 : DmaSem sig)) 0
    ∗ semVal ((c : Thread nD τ), SemLoc.dma (9 : DmaSem sig)) 0
    ∗ semVal ((c : Thread nD τ), SemLoc.dma (34 : DmaSem sig)) 0
    ∗ semVal ((c : Thread nD τ), SemLoc.dma (42 : DmaSem sig)) 0
    ∗ cellInv ER (sched SV RV) (κ (barCell c)) (barCell c)
    ∗ cellInv ER (sched SV RV) (κ (exitCell c)) (exitCell c)
    ∗ cellInv ER (sched SV RV) (κ (sendCell c 0)) (sendCell c 0)
    ∗ cellInv ER (sched SV RV) (κ (recvCell c 0)) (recvCell c 0)
    ∗ cellInv ER (sched SV RV) (κ (sendCell c 1)) (sendCell c 1)
    ∗ cellInv ER (sched SV RV) (κ (recvCell c 1)) (recvCell c 1)
    ∗ cellInv ER (sched SV RV) (κ (sendCell c 2)) (sendCell c 2)
    ∗ cellInv ER (sched SV RV) (κ (recvCell c 2)) (recvCell c 2)
    ∗ cellInv ER (sched SV RV) (κ (sendCell c 3)) (sendCell c 3)
    ∗ cellInv ER (sched SV RV) (κ (recvCell c 3)) (recvCell c 3)
    ∗ cellInv ER (sched SV RV) (κ (sendCell c 4)) (sendCell c 4)
    ∗ cellInv ER (sched SV RV) (κ (recvCell c 4)) (recvCell c 4)
    ∗ cellInv ER (sched SV RV) (κ (sendCell c 5)) (sendCell c 5)
    ∗ cellInv ER (sched SV RV) (κ (recvCell c 5)) (recvCell c 5)
    ∗ cellInv ER (sched SV RV) (κ (sendCell c 6)) (sendCell c 6)
    ∗ cellInv ER (sched SV RV) (κ (recvCell c 6)) (recvCell c 6)
    ∗ cellInv ER (sched SV RV) (κ (sendCell c 7)) (sendCell c 7)
    ∗ cellInv ER (sched SV RV) (κ (recvCell c 7)) (recvCell c 7)
    ∗ cellInv ER (sched SV RV) (κ (sendCell c 8)) (sendCell c 8)
    ∗ cellInv ER (sched SV RV) (κ (recvCell c 8)) (recvCell c 8)
    ∗ cellInv ER (sched SV RV) (κ (sendCell c 9)) (sendCell c 9)
    ∗ cellInv ER (sched SV RV) (κ (recvCell c 9)) (recvCell c 9)
    ∗ cellInv ER (sched SV RV) (κ (sendCell c 10)) (sendCell c 10)
    ∗ cellInv ER (sched SV RV) (κ (recvCell c 10)) (recvCell c 10)
    ∗ cellInv ER (sched SV RV) (κ (sendCell c 11)) (sendCell c 11)
    ∗ cellInv ER (sched SV RV) (κ (recvCell c 11)) (recvCell c 11)
    ∗ cellInv ER (sched SV RV) (κ (rssCell c 1)) (rssCell c 1)
    ∗ cellInv ER (sched SV RV) (κ (rsrCell c 1)) (rsrCell c 1)
    ∗ cellInv ER (sched SV RV) (κ (rssCell c 2)) (rssCell c 2)
    ∗ cellInv ER (sched SV RV) (κ (rsrCell c 2)) (rsrCell c 2)
    ∗ cellInv ER (sched SV RV) (κ (rssCell c 3)) (rssCell c 3)
    ∗ cellInv ER (sched SV RV) (κ (rsrCell c 3)) (rsrCell c 3)
    ∗ cellInv ER (sched SV RV) (κ (rssCell c 4)) (rssCell c 4)
    ∗ cellInv ER (sched SV RV) (κ (rsrCell c 4)) (rsrCell c 4)
    ∗ cellInv ER (sched SV RV) (κ (rssCell c 5)) (rssCell c 5)
    ∗ cellInv ER (sched SV RV) (κ (rsrCell c 5)) (rsrCell c 5)
    ∗ cellInv ER (sched SV RV) (κ (rssCell c 6)) (rssCell c 6)
    ∗ cellInv ER (sched SV RV) (κ (rsrCell c 6)) (rsrCell c 6)
    ∗ cellInv ER (sched SV RV) (κ (rssCell c 7)) (rssCell c 7)
    ∗ cellInv ER (sched SV RV) (κ (rsrCell c 7)) (rsrCell c 7)
    ∗ cellInv ER (sched SV RV) (κ (barCell (xr c 1))) (barCell (xr c 1))
    ∗ cellInv ER (sched SV RV) (κ (exitCell (xr c 1))) (exitCell (xr c 1))
    ∗ cellInv ER (sched SV RV) (κ (rsrCell (xr c 1) 1)) (rsrCell (xr c 1) 1)
    ∗ cellInv ER (sched SV RV) (κ (barCell (xr c 2))) (barCell (xr c 2))
    ∗ cellInv ER (sched SV RV) (κ (exitCell (xr c 2))) (exitCell (xr c 2))
    ∗ cellInv ER (sched SV RV) (κ (rsrCell (xr c 2) 2)) (rsrCell (xr c 2) 2)
    ∗ cellInv ER (sched SV RV) (κ (barCell (xr c 3))) (barCell (xr c 3))
    ∗ cellInv ER (sched SV RV) (κ (exitCell (xr c 3))) (exitCell (xr c 3))
    ∗ cellInv ER (sched SV RV) (κ (rsrCell (xr c 3) 3)) (rsrCell (xr c 3) 3)
    ∗ cellInv ER (sched SV RV) (κ (barCell (xr c 4))) (barCell (xr c 4))
    ∗ cellInv ER (sched SV RV) (κ (exitCell (xr c 4))) (exitCell (xr c 4))
    ∗ cellInv ER (sched SV RV) (κ (rsrCell (xr c 4) 4)) (rsrCell (xr c 4) 4)
    ∗ cellInv ER (sched SV RV) (κ (barCell (xr c 5))) (barCell (xr c 5))
    ∗ cellInv ER (sched SV RV) (κ (exitCell (xr c 5))) (exitCell (xr c 5))
    ∗ cellInv ER (sched SV RV) (κ (rsrCell (xr c 5) 5)) (rsrCell (xr c 5) 5)
    ∗ cellInv ER (sched SV RV) (κ (barCell (xr c 6))) (barCell (xr c 6))
    ∗ cellInv ER (sched SV RV) (κ (exitCell (xr c 6))) (exitCell (xr c 6))
    ∗ cellInv ER (sched SV RV) (κ (rsrCell (xr c 6) 6)) (rsrCell (xr c 6) 6)
    ∗ cellInv ER (sched SV RV) (κ (barCell (xr c 7))) (barCell (xr c 7))
    ∗ cellInv ER (sched SV RV) (κ (exitCell (xr c 7))) (exitCell (xr c 7))
    ∗ cellInv ER (sched SV RV) (κ (rsrCell (xr c 7) 7)) (rsrCell (xr c 7) 7)
    ∗ cellInv ER (sched SV RV) (κ (recvCell (xr c 1) 0)) (recvCell (xr c 1) 0)
    ∗ cellInv ER (sched SV RV) (κ (recvCell (xr c 1) 1)) (recvCell (xr c 1) 1)
    ∗ cellInv ER (sched SV RV) (κ (recvCell (xr c 3) 2)) (recvCell (xr c 3) 2)
    ∗ cellInv ER (sched SV RV) (κ (recvCell (xr c 3) 3)) (recvCell (xr c 3) 3)
    ∗ cellInv ER (sched SV RV) (κ (recvCell (xr c 4) 4)) (recvCell (xr c 4) 4)
    ∗ cellInv ER (sched SV RV) (κ (recvCell (xr c 4) 5)) (recvCell (xr c 4) 5)
    ∗ cellInv ER (sched SV RV) (κ (recvCell (xr c 1) 6)) (recvCell (xr c 1) 6)
    ∗ cellInv ER (sched SV RV) (κ (recvCell (xr c 1) 7)) (recvCell (xr c 1) 7)
    ∗ cellInv ER (sched SV RV) (κ (recvCell (xr c 3) 8)) (recvCell (xr c 3) 8)
    ∗ cellInv ER (sched SV RV) (κ (recvCell (xr c 3) 9)) (recvCell (xr c 3) 9)
    ∗ cellInv ER (sched SV RV) (κ (recvCell (xr c 4) 10)) (recvCell (xr c 4) 10)
    ∗ cellInv ER (sched SV RV) (κ (recvCell (xr c 4) 11)) (recvCell (xr c 4) 11)
    ∗ reached ER (barCell (xr c 1)) 0
    ∗ reached ER (exitCell (xr c 1)) 0
    ∗ reached ER (rsrCell (xr c 1) 1) 0
    ∗ reached ER (rssCell c 1) 0
    ∗ reached ER (barCell (xr c 2)) 0
    ∗ reached ER (exitCell (xr c 2)) 0
    ∗ reached ER (rsrCell (xr c 2) 2) 0
    ∗ reached ER (rssCell c 2) 0
    ∗ reached ER (barCell (xr c 3)) 0
    ∗ reached ER (exitCell (xr c 3)) 0
    ∗ reached ER (rsrCell (xr c 3) 3) 0
    ∗ reached ER (rssCell c 3) 0
    ∗ reached ER (barCell (xr c 4)) 0
    ∗ reached ER (exitCell (xr c 4)) 0
    ∗ reached ER (rsrCell (xr c 4) 4) 0
    ∗ reached ER (rssCell c 4) 0
    ∗ reached ER (barCell (xr c 5)) 0
    ∗ reached ER (exitCell (xr c 5)) 0
    ∗ reached ER (rsrCell (xr c 5) 5) 0
    ∗ reached ER (rssCell c 5) 0
    ∗ reached ER (barCell (xr c 6)) 0
    ∗ reached ER (exitCell (xr c 6)) 0
    ∗ reached ER (rsrCell (xr c 6) 6) 0
    ∗ reached ER (rssCell c 6) 0
    ∗ reached ER (barCell (xr c 7)) 0
    ∗ reached ER (exitCell (xr c 7)) 0
    ∗ reached ER (rsrCell (xr c 7) 7) 0
    ∗ reached ER (rssCell c 7) 0
    ∗ reached ER (recvCell (xr c 1) 0) 0
    ∗ reached ER (sendCell c 0) 0
    ∗ reached ER (recvCell (xr c 1) 1) 0
    ∗ reached ER (sendCell c 1) 0
    ∗ reached ER (recvCell (xr c 3) 2) 0
    ∗ reached ER (sendCell c 2) 0
    ∗ reached ER (recvCell (xr c 3) 3) 0
    ∗ reached ER (sendCell c 3) 0
    ∗ reached ER (recvCell (xr c 4) 4) 0
    ∗ reached ER (sendCell c 4) 0
    ∗ reached ER (recvCell (xr c 4) 5) 0
    ∗ reached ER (sendCell c 5) 0
    ∗ reached ER (recvCell (xr c 1) 6) 0
    ∗ reached ER (sendCell c 6) 0
    ∗ reached ER (recvCell (xr c 1) 7) 0
    ∗ reached ER (sendCell c 7) 0
    ∗ reached ER (recvCell (xr c 3) 8) 0
    ∗ reached ER (sendCell c 8) 0
    ∗ reached ER (recvCell (xr c 3) 9) 0
    ∗ reached ER (sendCell c 9) 0
    ∗ reached ER (recvCell (xr c 4) 10) 0
    ∗ reached ER (sendCell c 10) 0
    ∗ reached ER (recvCell (xr c 4) 11) 0
    ∗ reached ER (sendCell c 11) 0
    ∗ dutyTok ER (barCell (xr c 1)) 0 1
    ∗ dutyTok ER (exitCell (xr c 1)) 0 1
    ∗ dutyTok ER (rsrCell (xr c 1) 1) 0 0
    ∗ dutyTok ER (rssCell c 1) 0 0
    ∗ dutyTok ER (barCell (xr c 2)) 0 2
    ∗ dutyTok ER (exitCell (xr c 2)) 0 2
    ∗ dutyTok ER (rsrCell (xr c 2) 2) 0 0
    ∗ dutyTok ER (rssCell c 2) 0 0
    ∗ dutyTok ER (barCell (xr c 3)) 0 3
    ∗ dutyTok ER (exitCell (xr c 3)) 0 3
    ∗ dutyTok ER (rsrCell (xr c 3) 3) 0 0
    ∗ dutyTok ER (rssCell c 3) 0 0
    ∗ dutyTok ER (barCell (xr c 4)) 0 4
    ∗ dutyTok ER (exitCell (xr c 4)) 0 4
    ∗ dutyTok ER (rsrCell (xr c 4) 4) 0 0
    ∗ dutyTok ER (rssCell c 4) 0 0
    ∗ dutyTok ER (barCell (xr c 5)) 0 5
    ∗ dutyTok ER (exitCell (xr c 5)) 0 5
    ∗ dutyTok ER (rsrCell (xr c 5) 5) 0 0
    ∗ dutyTok ER (rssCell c 5) 0 0
    ∗ dutyTok ER (barCell (xr c 6)) 0 6
    ∗ dutyTok ER (exitCell (xr c 6)) 0 6
    ∗ dutyTok ER (rsrCell (xr c 6) 6) 0 0
    ∗ dutyTok ER (rssCell c 6) 0 0
    ∗ dutyTok ER (barCell (xr c 7)) 0 7
    ∗ dutyTok ER (exitCell (xr c 7)) 0 7
    ∗ dutyTok ER (rsrCell (xr c 7) 7) 0 0
    ∗ dutyTok ER (rssCell c 7) 0 0
    ∗ dutyTok ER (recvCell (xr c 1) 0) 0 0
    ∗ dutyTok ER (sendCell c 0) 0 0
    ∗ dutyTok ER (recvCell (xr c 1) 1) 0 0
    ∗ dutyTok ER (sendCell c 1) 0 0
    ∗ dutyTok ER (recvCell (xr c 3) 2) 0 0
    ∗ dutyTok ER (sendCell c 2) 0 0
    ∗ dutyTok ER (recvCell (xr c 3) 3) 0 0
    ∗ dutyTok ER (sendCell c 3) 0 0
    ∗ dutyTok ER (recvCell (xr c 4) 4) 0 0
    ∗ dutyTok ER (sendCell c 4) 0 0
    ∗ dutyTok ER (recvCell (xr c 4) 5) 0 0
    ∗ dutyTok ER (sendCell c 5) 0 0
    ∗ dutyTok ER (recvCell (xr c 1) 6) 0 0
    ∗ dutyTok ER (sendCell c 6) 0 0
    ∗ dutyTok ER (recvCell (xr c 1) 7) 0 0
    ∗ dutyTok ER (sendCell c 7) 0 0
    ∗ dutyTok ER (recvCell (xr c 3) 8) 0 0
    ∗ dutyTok ER (sendCell c 8) 0 0
    ∗ dutyTok ER (recvCell (xr c 3) 9) 0 0
    ∗ dutyTok ER (sendCell c 9) 0 0
    ∗ dutyTok ER (recvCell (xr c 4) 10) 0 0
    ∗ dutyTok ER (sendCell c 10) 0 0
    ∗ dutyTok ER (recvCell (xr c 4) 11) 0 0
    ∗ dutyTok ER (sendCell c 11) 0 0
    ∗ atPos ER (barCell c) 0 ∅ 0
    ∗ atPos ER (exitCell c) 0 ∅ 0
    ∗ atPos ER (sendCell c 0) 0 ∅ 0
    ∗ atPos ER (recvCell c 0) 0 ∅ 0
    ∗ atPos ER (sendCell c 1) 0 ∅ 0
    ∗ atPos ER (recvCell c 1) 0 ∅ 0
    ∗ atPos ER (sendCell c 2) 0 ∅ 0
    ∗ atPos ER (recvCell c 2) 0 ∅ 0
    ∗ atPos ER (sendCell c 3) 0 ∅ 0
    ∗ atPos ER (recvCell c 3) 0 ∅ 0
    ∗ atPos ER (sendCell c 4) 0 ∅ 0
    ∗ atPos ER (recvCell c 4) 0 ∅ 0
    ∗ atPos ER (sendCell c 5) 0 ∅ 0
    ∗ atPos ER (recvCell c 5) 0 ∅ 0
    ∗ atPos ER (sendCell c 6) 0 ∅ 0
    ∗ atPos ER (recvCell c 6) 0 ∅ 0
    ∗ atPos ER (sendCell c 7) 0 ∅ 0
    ∗ atPos ER (recvCell c 7) 0 ∅ 0
    ∗ atPos ER (sendCell c 8) 0 ∅ 0
    ∗ atPos ER (recvCell c 8) 0 ∅ 0
    ∗ atPos ER (sendCell c 9) 0 ∅ 0
    ∗ atPos ER (recvCell c 9) 0 ∅ 0
    ∗ atPos ER (sendCell c 10) 0 ∅ 0
    ∗ atPos ER (recvCell c 10) 0 ∅ 0
    ∗ atPos ER (sendCell c 11) 0 ∅ 0
    ∗ atPos ER (recvCell c 11) 0 ∅ 0
    ∗ atPos ER (rssCell c 1) 0 ∅ 0
    ∗ atPos ER (rsrCell c 1) 0 ∅ 0
    ∗ atPos ER (rssCell c 2) 0 ∅ 0
    ∗ atPos ER (rsrCell c 2) 0 ∅ 0
    ∗ atPos ER (rssCell c 3) 0 ∅ 0
    ∗ atPos ER (rsrCell c 3) 0 ∅ 0
    ∗ atPos ER (rssCell c 4) 0 ∅ 0
    ∗ atPos ER (rsrCell c 4) 0 ∅ 0
    ∗ atPos ER (rssCell c 5) 0 ∅ 0
    ∗ atPos ER (rsrCell c 5) 0 ∅ 0
    ∗ atPos ER (rssCell c 6) 0 ∅ 0
    ∗ atPos ER (rsrCell c 6) 0 ∅ 0
    ∗ atPos ER (rssCell c 7) 0 ∅ 0
    ∗ atPos ER (rsrCell c 7) 0 ∅ 0
    ∗ cred (tallyAt (barCell c) () 7)
    ∗ cred (tallyAt (exitCell c) () 7)
    ∗ cred (tallyAt (recvCell c 0) () N1)
    ∗ cred (tallyAt (recvCell c 1) () N1)
    ∗ cred (tallyAt (recvCell c 2) () N1)
    ∗ cred (tallyAt (recvCell c 3) () N1)
    ∗ cred (tallyAt (recvCell c 4) () N1)
    ∗ cred (tallyAt (recvCell c 5) () N1)
    ∗ cred (tallyAt (recvCell c 6) () N1)
    ∗ cred (tallyAt (recvCell c 7) () N1)
    ∗ cred (tallyAt (recvCell c 8) () N1)
    ∗ cred (tallyAt (recvCell c 9) () N1)
    ∗ cred (tallyAt (recvCell c 10) () N1)
    ∗ cred (tallyAt (recvCell c 11) () N1)
    ∗ cred (tallyAt (rsrCell c 1) () N2)
    ∗ cred (tallyAt (rsrCell c 2) () N2)
    ∗ cred (tallyAt (rsrCell c 3) () N2)
    ∗ cred (tallyAt (rsrCell c 4) () N2)
    ∗ cred (tallyAt (rsrCell c 5) () N2)
    ∗ cred (tallyAt (rsrCell c 6) () N2)
    ∗ cred (tallyAt (rsrCell c 7) () N2)
    ∗ owes (c : Thread nD τ) (owed₀ c) W
    ∗ levAts L lv)

def bodyPost (OV : Dev nD → (cc0_stg1_0 : Ref sig .tc).ty.Contents (Elt F)) (c : Dev nD) : sProp 𝕄 :=
  iprop(Φ₁ m c ∗ (dats SV RV m OV 0 c).owesAt () t0_0.succ ∗ stg c cc0_stg0_0 (xstg m c) ∗ stg c cc0_stg1_0 (OV c))

end Cert.KernelIdeal.Mlp

end
-- ==== Proof.Access.lean ====
import proofs.«900996_g7700000000000997_dist_mlpseq_tp1d_rep_bs_b64_d1024_h2048_v7x_i8_bf16_1_alg».proof.Proof.Slots
import proofs.«900996_g7700000000000997_dist_mlpseq_tp1d_rep_bs_b64_d1024_h2048_v7x_i8_bf16_1_alg».proof.Proof.Tables

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem biEntails_of_eq {P Q : sProp 𝕄} (e : P = Q) : P ⊣⊢ Q := ⟨Entails.of_eq e, Entails.of_eq e.symm⟩

/-- A load of one member through the stack needs the member's elements only, and continues at what the member holds. -/
theorem wp_load_slotIs {e : EltTy} {sz : Fin 3 → ℕ} {a b : ℕ} (M : Memref sig .tc .vmem ⟨3, sz⟩ e) (off : Fin 3 → ℕ)
    (inb : ∀ x, off x + (![1, a, b] : Fin 3 → ℕ) x ≤ sz x) (hq : (⟨3, ![1, a, b]⟩ : Shape).Squeezes ⟨2, ![a, b]⟩)
    (c : Dev nD) (v : (⟨2, ![a, b]⟩ : Shape).Idx → Elt F e) {hl : M.view.LoadsAt (unit1 off inb).toLoadRect}
    {α : Type} {Q : α → sProp 𝕄} {k : ((⟨3, ![1, a, b]⟩ : Shape).Idx → Elt F e) → Prog (TpuEff nD τ sig (Elt F) Λ₀ .tc) α} :
    iprop(slotIs (F := F) c (memberOf M off inb hq) v
          ∗ (slotAny (F := F) c (memberOf M off inb hq)
              -∗ wp frame (wpE (defs₀ (F := F)) 𝒱₀ (c : Thread nD τ) none) Set.univ
                  (k (fun j => v (ValueIdx.ix2 (⟨(j 1).val, (j 1).isLt⟩ : Fin a) (⟨(j 2).val, (j 2).isLt⟩ : Fin b)))) Q))
      ⊢ wp frame (wpE (defs₀ (F := F)) 𝒱₀ (c : Thread nD τ) none) Set.univ (.op (.load M (unit1 off inb).toLoadRect hl) k) Q := by
  unfold slotIs slotAny
  iintro ⟨⟨%f, %hf, H⟩, Hk⟩
  subst hf
  iapply (wp_load (defs := defs₀ (F := F)) 𝒱₀ (c : Thread nD τ) none Set.univ (m := M) (hl := hl) (k := k) (Q := Q)
    (S := (memberOf M off inb hq).view.set) (q := fullShare) (f := f) ((View.set_reshape _ _).trans (View.set_slice _ _)).ge) $$ H
  iintro H
  rw [load_slot M off inb hq f]
  iapply Hk
  iexists f
  iexact H

theorem wp_load_landed (c : Dev nD) (i : Fin 12) (v : S64x512.Idx → Elt F .bf16)
    {hl : (Memref.whole cc0_scratch4 : Memref sig .tc _ _ _).view.LoadsAt (Rect.unit (s := S12x64x512) ![i.val, 0, 0] S1x64x512.size (slot12_inb i)).toLoadRect}
    {α : Type} {Q : α → sProp 𝕄} {k : (S1x64x512.Idx → Elt F .bf16) → Prog (TpuEff nD τ sig (Elt F) Λ₀ .tc) α} :
    iprop(slotIs (F := F) c (rslot i) v
          ∗ (slotAny (F := F) c (rslot i)
              -∗ wp frame (wpE (defs₀ (F := F)) 𝒱₀ (c : Thread nD τ) none) Set.univ
                  (k (fun j => v (ValueIdx.ix2 (⟨(j 1).val, (j 1).isLt⟩ : Fin 64) (⟨(j 2).val, (j 2).isLt⟩ : Fin 512)))) Q))
      ⊢ wp frame (wpE (defs₀ (F := F)) 𝒱₀ (c : Thread nD τ) none) Set.univ
          (.op (.load (Memref.whole cc0_scratch4) (Rect.unit (s := S12x64x512) ![i.val, 0, 0] S1x64x512.size (slot12_inb i)).toLoadRect hl) k) Q :=
  wp_load_slotIs (Memref.whole cc0_scratch4) _ (slot12_inb i) squeezes_S1x64x512_S64x512 c v
theorem wp_load_landed_p (c : Dev nD) (o : Fin 8) (v : S8x1024.Idx → Elt F .bf16)
    {hl : (Memref.whole cc0_scratch6 : Memref sig .tc _ _ _).view.LoadsAt (Rect.unit (s := S8x8x1024) ![o.val, 0, 0] S1x8x1024.size (slot8_inb o)).toLoadRect}
    {α : Type} {Q : α → sProp 𝕄} {k : (S1x8x1024.Idx → Elt F .bf16) → Prog (TpuEff nD τ sig (Elt F) Λ₀ .tc) α} :
    iprop(slotIs (F := F) c (pslot o) v
          ∗ (slotAny (F := F) c (pslot o)
              -∗ wp frame (wpE (defs₀ (F := F)) 𝒱₀ (c : Thread nD τ) none) Set.univ
                  (k (fun j => v (ValueIdx.ix2 (⟨(j 1).val, (j 1).isLt⟩ : Fin 8) (⟨(j 2).val, (j 2).isLt⟩ : Fin 1024)))) Q))
      ⊢ wp frame (wpE (defs₀ (F := F)) 𝒱₀ (c : Thread nD τ) none) Set.univ
          (.op (.load (Memref.whole cc0_scratch6) (Rect.unit (s := S8x8x1024) ![o.val, 0, 0] S1x8x1024.size (slot8_inb o)).toLoadRect hl) k) Q :=
  wp_load_slotIs (Memref.whole cc0_scratch6) _ (slot8_inb o) squeezes_S1x8x1024_S8x1024 c v

theorem carve_sslot (c : Dev nD) (i : Fin 12) (S : Finset S12x64x512.Idx) (hS : (sslot i).view.set ⊆ S)
    (f : Buf (Elt F) ((c : Thread nD τ).loc cc0_scratch3)) :
    ((Memref.whole cc0_scratch3).view.loc (c : Thread nD τ) ↦[S]{fullShare} f : sProp 𝕄)
      ⊣⊢ iprop(((sslot i).view.loc (c : Thread nD τ) ↦[(sslot i).view.set]{fullShare} f)
          ∗ ((Memref.whole cc0_scratch3).view.loc (c : Thread nD τ) ↦[S \ (sslot i).view.set]{fullShare} f)) :=
  pointsTo_split_subset hS
theorem carve_qslot (c : Dev nD) (o : Fin 8) (S : Finset S8x8x1024.Idx) (hS : (qslot o).view.set ⊆ S)
    (f : Buf (Elt F) ((c : Thread nD τ).loc cc0_scratch5)) :
    ((Memref.whole cc0_scratch5).view.loc (c : Thread nD τ) ↦[S]{fullShare} f : sProp 𝕄)
      ⊣⊢ iprop(((qslot o).view.loc (c : Thread nD τ) ↦[(qslot o).view.set]{fullShare} f)
          ∗ ((Memref.whole cc0_scratch5).view.loc (c : Thread nD τ) ↦[S \ (qslot o).view.set]{fullShare} f)) :=
  pointsTo_split_subset hS

/-- A part of a partition survives the removal, from the whole, of any other parts. -/
theorem sub_rest {G : ℕ} {X : Type} [Fintype X] [DecidableEq X] {K : Fin G → Finset X} (hK : Blocks K) (i : Fin G) (l : List (Fin G)) (h : i ∉ l)
    {T : Finset X} (hT : T = Finset.univ) : K i ⊆ l.foldl (fun S j => S \ K j) T := by
  have key : ∀ (l : List (Fin G)) (T : Finset X), i ∉ l → K i ⊆ T → K i ⊆ l.foldl (fun S j => S \ K j) T := by
    intro l
    induction l with
    | nil => exact fun T _ hT => hT
    | cons j l ih =>
      exact fun T hi hT => ih _ (fun hm => hi (List.mem_cons_of_mem _ hm))
        (Finset.subset_sdiff.mpr ⟨hT, hK.1 i j fun e => hi (List.mem_cons.mpr (Or.inl e))⟩)
  exact key l T h (hT ▸ Finset.subset_univ _)

theorem sslot_sub_rest (i : Fin 12) (l : List (Fin 12)) (h : i ∉ l) :
    ((sslot i).view.set : Finset S12x64x512.Idx)
      ⊆ l.foldl (fun (S : Finset S12x64x512.Idx) (j : Fin 12) => S \ (sslot j).view.set) (Memref.whole cc0_scratch3 : Memref sig .tc _ _ _).view.set :=
  sub_rest sslots_blocks i l h (View.set_whole cc0_scratch3)
theorem qslot_sub_rest (o : Fin 8) (l : List (Fin 8)) (h : o ∉ l) :
    ((qslot o).view.set : Finset S8x8x1024.Idx)
      ⊆ l.foldl (fun (S : Finset S8x8x1024.Idx) (j : Fin 8) => S \ (qslot j).view.set) (Memref.whole cc0_scratch5 : Memref sig .tc _ _ _).view.set :=
  sub_rest qslots_blocks o l h (View.set_whole cc0_scratch5)

theorem slotsOf_2 : slotsOf 2 = ∅ := by decide
theorem slotsOf_5 : slotsOf 5 = ∅ := by decide
theorem slotsOf_6 : slotsOf 6 = ∅ := by decide
theorem slotsOf_7 : slotsOf 7 = ∅ := by decide

theorem barPay_1 (c : Dev nD) :
    (barPay (F := F) c 1 : sProp 𝕄) ⊣⊢ iprop(slotAny (F := F) (xr c 1) (pslot 1) ∗ slotAny (F := F) (xr c 1) (rslot 0) ∗ slotAny (F := F) (xr c 1) (rslot 1)
        ∗ slotAny (F := F) (xr c 1) (rslot 6) ∗ slotAny (F := F) (xr c 1) (rslot 7)) :=
  biEntails_of_eq (by unfold barPay; rw [bigSep_eq_bigSepL_of_eq (S := slotsOf 1) [0, 1, 6, 7] (by decide) (by decide)]; rfl)
theorem barPay_3 (c : Dev nD) :
    (barPay (F := F) c 3 : sProp 𝕄) ⊣⊢ iprop(slotAny (F := F) (xr c 3) (pslot 3) ∗ slotAny (F := F) (xr c 3) (rslot 2) ∗ slotAny (F := F) (xr c 3) (rslot 3)
        ∗ slotAny (F := F) (xr c 3) (rslot 8) ∗ slotAny (F := F) (xr c 3) (rslot 9)) :=
  biEntails_of_eq (by unfold barPay; rw [bigSep_eq_bigSepL_of_eq (S := slotsOf 3) [2, 3, 8, 9] (by decide) (by decide)]; rfl)
theorem barPay_4 (c : Dev nD) :
    (barPay (F := F) c 4 : sProp 𝕄) ⊣⊢ iprop(slotAny (F := F) (xr c 4) (pslot 4) ∗ slotAny (F := F) (xr c 4) (rslot 4) ∗ slotAny (F := F) (xr c 4) (rslot 5)
        ∗ slotAny (F := F) (xr c 4) (rslot 10) ∗ slotAny (F := F) (xr c 4) (rslot 11)) :=
  biEntails_of_eq (by unfold barPay; rw [bigSep_eq_bigSepL_of_eq (S := slotsOf 4) [4, 5, 10, 11] (by decide) (by decide)]; rfl)
theorem barPay_o (c : Dev nD) (o : Fin 8) (ho : slotsOf o = ∅) :
    (barPay (F := F) c o : sProp 𝕄) ⊣⊢ slotAny (F := F) (xr c o) (pslot o) := by
  unfold barPay
  rw [ho, bigSep_empty]
  exact sep_emp

theorem rslots_chain (c : Dev nD) :
    (bigSep Finset.univ fun i : Fin 12 => slotAny (F := F) c (rslot i) : sProp 𝕄)
      = iprop(slotAny (F := F) c (rslot 0) ∗ slotAny (F := F) c (rslot 1) ∗ slotAny (F := F) c (rslot 2) ∗ slotAny (F := F) c (rslot 3)
          ∗ slotAny (F := F) c (rslot 4) ∗ slotAny (F := F) c (rslot 5) ∗ slotAny (F := F) c (rslot 6) ∗ slotAny (F := F) c (rslot 7)
          ∗ slotAny (F := F) c (rslot 8) ∗ slotAny (F := F) c (rslot 9) ∗ slotAny (F := F) c (rslot 10) ∗ slotAny (F := F) c (rslot 11)) :=
  bigSep_univ_eq_bigSepL [0, 1, 2, 3, 4, 5, 6, 7, 8, 9, 10, 11] (by decide) (by decide) _
theorem pslots_chain (c : Dev nD) :
    (bigSep Finset.univ fun o : Fin 8 => slotAny (F := F) c (pslot o) : sProp 𝕄)
      = iprop(slotAny (F := F) c (pslot 0) ∗ slotAny (F := F) c (pslot 1) ∗ slotAny (F := F) c (pslot 2) ∗ slotAny (F := F) c (pslot 3)
          ∗ slotAny (F := F) c (pslot 4) ∗ slotAny (F := F) c (pslot 5) ∗ slotAny (F := F) c (pslot 6) ∗ slotAny (F := F) c (pslot 7)) :=
  bigSep_univ_eq_bigSepL [0, 1, 2, 3, 4, 5, 6, 7] (by decide) (by decide) _

/-- The two buffers held whole are the seven payloads and the one slot no payload holds. -/
theorem barPays_intro (c : Dev nD) :
    iprop((∃ f : Buf (Elt F) ((c : Thread nD τ).loc cc0_scratch4), ((c : Thread nD τ).loc cc0_scratch4) ↦{fullShare} f)
        ∗ (∃ f : Buf (Elt F) ((c : Thread nD τ).loc cc0_scratch6), ((c : Thread nD τ).loc cc0_scratch6) ↦{fullShare} f))
      ⊢ (iprop(barPay (F := F) (xr c 1) 1 ∗ barPay (F := F) (xr c 2) 2 ∗ barPay (F := F) (xr c 3) 3 ∗ barPay (F := F) (xr c 4) 4
          ∗ barPay (F := F) (xr c 5) 5 ∗ barPay (F := F) (xr c 6) 6 ∗ barPay (F := F) (xr c 7) 7 ∗ slotAny (F := F) c (pslot 0)) : sProp 𝕄) := by
  refine .trans ?_ (BIClass.sep_mono (barPay_1 _).2 <| BIClass.sep_mono (barPay_o _ 2 slotsOf_2).2 <| BIClass.sep_mono (barPay_3 _).2 <| BIClass.sep_mono (barPay_4 _).2 <|
    BIClass.sep_mono (barPay_o _ 5 slotsOf_5).2 <| BIClass.sep_mono (barPay_o _ 6 slotsOf_6).2 <| BIClass.sep_mono (barPay_o _ 7 slotsOf_7).2 .rfl)
  rw [xr_xr c 1, xr_xr c 2, xr_xr c 3, xr_xr c 4, xr_xr c 5, xr_xr c 6, xr_xr c 7]
  iintro ⟨Hr, Hp⟩
  ihave Hr := (rslots_give (F := F) c) $$ Hr
  ihave Hp := (pslots_give (F := F) c) $$ Hp
  ihave Hr := (Entails.of_eq (rslots_chain (F := F) c)) $$ Hr
  ihave Hp := (Entails.of_eq (pslots_chain (F := F) c)) $$ Hp
  icases Hr with ⟨A0, A1, A2, A3, A4, A5, A6, A7, A8, A9, A10, A11⟩
  icases Hp with ⟨B0, B1, B2, B3, B4, B5, B6, B7⟩
  iframe

end Cert.KernelIdeal.Mlp

end
-- ==== Proof.Sends.lean ====
import proofs.«900996_g7700000000000997_dist_mlpseq_tp1d_rep_bs_b64_d1024_h2048_v7x_i8_bf16_1_alg».proof.Proof.Tables

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (SV : Dev nD → Fin 12 → (S64x512.Idx → Elt F .bf16)) (RV : Dev nD → Fin 8 → (S8x1024.Idx → Elt F .bf16))

/-- A slot's elements at given contents are the slot at some contents. -/
theorem slotAny_of_pointsTo {s : Shape} {e : EltTy} (c : Dev nD) (M : Memref sig .tc .vmem s e) (f : Buf (Elt F) (M.view.loc (c : Thread nD τ))) :
    (M.view.loc (c : Thread nD τ) ↦[M.view.set]{fullShare} f : sProp 𝕄) ⊢ slotAny c M := by
  unfold slotAny; iintro H; iexists f; iexact H

/-- A slot's elements just written whole with `v` are the slot reading `v`. -/
theorem slotIs_of_written {s : Shape} {e : EltTy} (c : Dev nD) (M : Memref sig .tc .vmem s e) (f : Buf (Elt F) (M.view.loc (c : Thread nD τ))) (v : s.Idx → Elt F e) :
    (M.view.loc (c : Thread nD τ) ↦[M.view.set]{fullShare} (M.view.write (Elt F) f v Finset.univ) : sProp 𝕄) ⊢ slotIs c M v := by
  unfold slotIs; iintro H; iexists (M.view.write (Elt F) f v Finset.univ); isplitl []
  · ipureintro; exact View.read_write_univ _ _
  · iexact H

/-- A transfer of slot `src` of `c` onto slot `dst` of `p`: it pays the duty of `p`'s landing cell, whose payload is `dst` reading what `src` reads, and is owed the credit of `c`'s own cell, whose payload is `src` at any contents. -/
theorem wp_send {s : Shape} {e : EltTy} (src dst : Memref sig .tc .vmem s e) (v : s.Idx → Elt F e) {sS rS : DmaSem sig} {N : ℕ} (c p : Dev nD)
    (hd₁ : (sched SV RV).duties ((c : Thread nD τ), .dma sS) 0 = {0}) (hd₂ : (sched SV RV).duties ((p : Thread nD τ), .dma rS) 0 = {0})
    (hk₁ : (sched SV RV).amount ((c : Thread nD τ), .dma sS) 0 0 = N) (hk₂ : (sched SV RV).amount ((p : Thread nD τ), .dma rS) 0 0 = N)
    (hp₁ : (sched SV RV).payload ((c : Thread nD τ), .dma sS) 0 0 = slotAny c src) (hp₂ : (sched SV RV).payload ((p : Thread nD τ), .dma rS) 0 0 = slotIs p dst v)
    (hN : dst.view.amount (.dma rS) = N) (n : Dev nD) (hn : n = p) {κ₁ κ₂ : ℕ}
    {hsc : (dst : Memref sig (Dev.tc n : Thread nD τ).2.kind .vmem s e).view.ref.isScScratch = false} {hsrc : src.view.WordExact} {hdst : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α}
    (fs : Buf (Elt F) (src.view.loc (c : Thread nD τ))) (fd : Buf (Elt F) (dst.view.loc (p : Thread nD τ)))
    (hv : src.view.read (Elt F) fs = v) (O : CellTallies nD τ sig Unit) (W : Waits sig Unit) :
    iprop(cellInv ER (sched SV RV) κ₁ ((c : Thread nD τ), .dma sS) ∗ cellInv ER (sched SV RV) κ₂ ((p : Thread nD τ), .dma rS)
        ∗ (src.view.loc (c : Thread nD τ) ↦[src.view.set]{fullShare} fs) ∗ (dst.view.loc (p : Thread nD τ) ↦[dst.view.set]{fullShare} fd)
        ∗ owes (c : Thread nD τ) (O + tallyAt ((p : Thread nD τ), .dma rS) () N) W
        ∗ dutyTok ER ((c : Thread nD τ), .dma sS) 0 0 ∗ reached ER ((c : Thread nD τ), .dma sS) 0
        ∗ dutyTok ER ((p : Thread nD τ), .dma rS) 0 0 ∗ reached ER ((p : Thread nD τ), .dma rS) 0)
      ⊢ iprop(((cred (tallyAt ((c : Thread nD τ), .dma sS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  subst hn hv
  exact Rounds.wp_send_pointsTo 𝒱₀ ER (sched SV RV) (c : Thread nD τ) none (κ₁ := κ₁) (κ₂ := κ₂) (r₁ := 0) (r₂ := 0) (d₁ := 0) (d₂ := 0) (fd := fd)
    (hd₁ ▸ Finset.mem_singleton_self _) (hd₂ ▸ Finset.mem_singleton_self _) () () N hN hk₁ hk₂ O rfl (W := W)
    (hp₁ ▸ slotAny_of_pointsTo c src fs) (hp₂ ▸ slotIs_of_written n dst fd _)

/-- The exchange of slot `i`, with the partner `c ⊕ mask i`; `c ⊕ m ⊕ m = c` makes the value the partner's table names the sender's own. -/
def wp_send_x (c : Dev nD) (i : Fin 12) :=
  wp_send SV RV (sslot i) (rslot i) (SV c i) c (xr c (maskOf i)) (duties_send SV RV c i) (duties_recv SV RV _ i) (amount_send SV RV c i 0) (amount_recv SV RV _ i 0)
    (payload_send SV RV c i 0) (by rw [payload_recv, xr_xr]) rfl

/-- The reduce-scatter transfer of slot `o`, with the partner `c ⊕ o`. -/
def wp_send_q (c : Dev nD) (o : Fin 8) (ho : o ≠ 0) :=
  wp_send SV RV (qslot o) (pslot o) (RV c o) c (xr c o) (duties_rss SV RV c o ho) (duties_rsr SV RV _ o ho) (amount_rss SV RV c o ho 0) (amount_rsr SV RV _ o ho 0)
    (payload_rss SV RV c o ho 0) (by rw [payload_rsr SV RV _ o ho, xr_xr]) rfl

end Cert.KernelIdeal.Mlp

end
-- ==== Proof.Ledger.lean ====
import proofs.«900996_g7700000000000997_dist_mlpseq_tp1d_rep_bs_b64_d1024_h2048_v7x_i8_bf16_1_alg».proof.Proof.Tables

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem AllAbove_bar' (n k : ℕ) (c' : Dev nD) (h : n ≤ 1) : AllAbove n (tallyAt (barCell c') () k) := AllAbove_mono h (AllAbove_tally_bar c' k)
theorem AllAbove_recv' (n k : ℕ) (c' : Dev nD) (i : Fin 12) (h : n ≤ 2 + i.val) : AllAbove n (tallyAt (recvCell c' i) () k) := AllAbove_mono h (AllAbove_tally_recv c' i k)
theorem AllAbove_rsr' (n k : ℕ) (c' : Dev nD) (o : Fin 8) (ho : o ≠ 0) (h : n ≤ 20) : AllAbove n (tallyAt (rsrCell c' o) () k) := AllAbove_mono h (AllAbove_tally_rsr c' o ho k)
theorem AllAbove_exit' (n k : ℕ) (c' : Dev nD) (h : n ≤ 30) : AllAbove n (tallyAt (exitCell c') () k) := AllAbove_mono h (AllAbove_tally_exit c' k)

theorem AllAbove_cell' (n k : ℕ) (g : GSem nD τ sig) (hg : g.1.2 = .tc) (h : Nat.ble n (lv g ()) = true) : AllAbove n (tallyAt g () k) := AllAbove_tally hg (Nat.le_of_ble_eq_true h)

/-- The level of a cell depends on its semaphore only. -/
def lvS (sm : SemLoc sig) : ℕ :=
  match kindOf sm with
  | .bar => 1 | .recv i => 2 + i.val | .rsr _ => 20 | .exit => 30 | _ => 0

theorem lv_pair (t : Thread nD τ) (sm : SemLoc sig) (u : Unit) : lv (t, sm) u = lvS sm := rfl

macro "above_norm" : tactic => `(tactic| (try (simp only [lv_pair]); try (conv => arg 1; whnf)))

macro "above_tac" : tactic => `(tactic| (
  above_norm
  repeat' (first
    | with_reducible exact AllAbove_zero _
    | with_reducible apply AllAbove_add
    | with_reducible exact AllAbove_bar' _ _ _ (by decide)
    | with_reducible exact AllAbove_recv' _ _ _ _ (by decide)
    | with_reducible exact AllAbove_rsr' _ _ _ _ (by decide) (by decide)
    | with_reducible exact AllAbove_exit' _ _ _ (by decide)
    | exact AllAbove_cell' _ _ _ rfl rfl)))

end Cert.KernelIdeal.Mlp

end
-- ==== Proof.Close.lean ====
import proofs.«900996_g7700000000000997_dist_mlpseq_tp1d_rep_bs_b64_d1024_h2048_v7x_i8_bf16_1_alg».proof.Proof.BodyCtx
import proofs.«900996_g7700000000000997_dist_mlpseq_tp1d_rep_bs_b64_d1024_h2048_v7x_i8_bf16_1_alg».proof.Proof.Open
import proofs.«900996_g7700000000000997_dist_mlpseq_tp1d_rep_bs_b64_d1024_h2048_v7x_i8_bf16_1_alg».proof.Proof.Access
import proofs.«900996_g7700000000000997_dist_mlpseq_tp1d_rep_bs_b64_d1024_h2048_v7x_i8_bf16_1_alg».proof.Proof.Tables

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (SV : Dev nD → Fin 12 → (S64x512.Idx → Elt F .bf16)) (RV : Dev nD → Fin 8 → (S8x1024.Idx → Elt F .bf16))
variable (m : (ℓ : Loc nD τ sig) → Buf (Elt F) ℓ)
variable (OV : Dev nD → (cc0_stg1_0 : Ref sig .tc).ty.Contents (Elt F))

def bodyEnd (κ : GSem nD τ sig → ℕ) (c : Dev nD) (W' : Waits sig Unit)
    (e0 : Buf (Elt F) ((c : Thread nD τ).loc cc0_scratch0)) (e1 : Buf (Elt F) ((c : Thread nD τ).loc cc0_scratch1))
    (e2 : Buf (Elt F) ((c : Thread nD τ).loc cc0_scratch2)) (e3 : Buf (Elt F) ((c : Thread nD τ).loc cc0_scratch3))
    (e5 : Buf (Elt F) ((c : Thread nD τ).loc cc0_scratch5)) : sProp 𝕄 :=
  iprop(((Memref.whole main_arg1).view.loc (c : Thread nD τ) ↦[(Memref.whole main_arg1).view.set]{fullShare} (m ((c : Thread nD τ).loc main_arg1)))
    ∗ ((Memref.whole main_arg2).view.loc (c : Thread nD τ) ↦[(Memref.whole main_arg2).view.set]{fullShare} (m ((c : Thread nD τ).loc main_arg2)))
    ∗ ((Memref.whole main_arg3).view.loc (c : Thread nD τ) ↦[(Memref.whole main_arg3).view.set]{fullShare} (m ((c : Thread nD τ).loc main_arg3)))
    ∗ ((Memref.whole main_arg4).view.loc (c : Thread nD τ) ↦[(Memref.whole main_arg4).view.set]{fullShare} (m ((c : Thread nD τ).loc main_arg4)))
    ∗ ((Memref.whole main_arg5).view.loc (c : Thread nD τ) ↦[(Memref.whole main_arg5).view.set]{fullShare} (m ((c : Thread nD τ).loc main_arg5)))
    ∗ ((Memref.whole main_arg6).view.loc (c : Thread nD τ) ↦[(Memref.whole main_arg6).view.set]{fullShare} (m ((c : Thread nD τ).loc main_arg6)))
    ∗ ((Memref.whole cc0_scratch0).view.loc (c : Thread nD τ) ↦[(Memref.whole cc0_scratch0).view.set]{fullShare} e0)
    ∗ ((Memref.whole cc0_scratch1).view.loc (c : Thread nD τ) ↦[(Memref.whole cc0_scratch1).view.set]{fullShare} e1)
    ∗ ((Memref.whole cc0_scratch2).view.loc (c : Thread nD τ) ↦[(Memref.whole cc0_scratch2).view.set]{fullShare} e2)
    ∗ ((Memref.whole cc0_scratch3).view.loc (c : Thread nD τ) ↦[((((((((((((Memref.whole cc0_scratch3).view.set
          \ (sslot 0).view.set) \ (sslot 1).view.set) \ (sslot 2).view.set) \ (sslot 3).view.set) \ (sslot 4).view.set) \ (sslot 5).view.set)
          \ (sslot 6).view.set) \ (sslot 7).view.set) \ (sslot 8).view.set) \ (sslot 9).view.set) \ (sslot 10).view.set) \ (sslot 11).view.set]{fullShare} e3)
    ∗ slotAny c (sslot 0) ∗ slotAny c (sslot 1) ∗ slotAny c (sslot 2) ∗ slotAny c (sslot 3) ∗ slotAny c (sslot 4) ∗ slotAny c (sslot 5)
    ∗ slotAny c (sslot 6) ∗ slotAny c (sslot 7) ∗ slotAny c (sslot 8) ∗ slotAny c (sslot 9) ∗ slotAny c (sslot 10) ∗ slotAny c (sslot 11)
    ∗ slotAny c (rslot 0) ∗ slotAny c (rslot 1) ∗ slotAny c (rslot 2) ∗ slotAny c (rslot 3) ∗ slotAny c (rslot 4) ∗ slotAny c (rslot 5)
    ∗ slotAny c (rslot 6) ∗ slotAny c (rslot 7) ∗ slotAny c (rslot 8) ∗ slotAny c (rslot 9) ∗ slotAny c (rslot 10) ∗ slotAny c (rslot 11)
    ∗ ((Memref.whole cc0_scratch5).view.loc (c : Thread nD τ) ↦[(((((((Memref.whole cc0_scratch5).view.set
          \ (qslot 6).view.set) \ (qslot 5).view.set) \ (qslot 7).view.set) \ (qslot 2).view.set) \ (qslot 1).view.set) \ (qslot 3).view.set)
          \ (qslot 4).view.set]{fullShare} e5)
    ∗ slotAny c (qslot 1) ∗ slotAny c (qslot 2) ∗ slotAny c (qslot 3) ∗ slotAny c (qslot 4) ∗ slotAny c (qslot 5) ∗ slotAny c (qslot 6)
    ∗ slotAny c (qslot 7)
    ∗ slotAny c (pslot 0) ∗ slotAny c (pslot 1) ∗ slotAny c (pslot 2) ∗ slotAny c (pslot 3) ∗ slotAny c (pslot 4) ∗ slotAny c (pslot 5)
    ∗ slotAny c (pslot 6) ∗ slotAny c (pslot 7)
    ∗ ((Memref.whole cc0_stg0_0).view.loc (c : Thread nD τ) ↦[(Memref.whole cc0_stg0_0).view.set]{fullShare} (xstg m c))
    ∗ ((Memref.whole cc0_stg1_0).view.loc (c : Thread nD τ) ↦[(Memref.whole cc0_stg1_0).view.set]{fullShare} (OV c))
    ∗ semVal ((c : Thread nD τ), SemLoc.dma (2 : DmaSem sig)) 0
    ∗ semVal ((c : Thread nD τ), SemLoc.dma (3 : DmaSem sig)) 0
    ∗ semVal ((c : Thread nD τ), SemLoc.dma (4 : DmaSem sig)) 0
    ∗ semVal ((c : Thread nD τ), SemLoc.dma (5 : DmaSem sig)) 0
    ∗ semVal ((c : Thread nD τ), SemLoc.dma (6 : DmaSem sig)) 0
    ∗ semVal ((c : Thread nD τ), SemLoc.dma (7 : DmaSem sig)) 0
    ∗ semVal ((c : Thread nD τ), SemLoc.dma (8 : DmaSem sig)) 0
    ∗ semVal ((c : Thread nD τ), SemLoc.dma (9 : DmaSem sig)) 0
    ∗ semVal ((c : Thread nD τ), SemLoc.dma (34 : DmaSem sig)) 0
    ∗ semVal ((c : Thread nD τ), SemLoc.dma (42 : DmaSem sig)) 0
    ∗ atPos ER (exitCell c) 1 ∅ 0
    ∗ atPos ER (sendCell c 0) 1 ∅ 0 ∗ atPos ER (sendCell c 1) 1 ∅ 0 ∗ atPos ER (sendCell c 2) 1 ∅ 0 ∗ atPos ER (sendCell c 3) 1 ∅ 0
    ∗ atPos ER (sendCell c 4) 1 ∅ 0 ∗ atPos ER (sendCell c 5) 1 ∅ 0 ∗ atPos ER (sendCell c 6) 1 ∅ 0 ∗ atPos ER (sendCell c 7) 1 ∅ 0
    ∗ atPos ER (sendCell c 8) 1 ∅ 0 ∗ atPos ER (sendCell c 9) 1 ∅ 0 ∗ atPos ER (sendCell c 10) 1 ∅ 0 ∗ atPos ER (sendCell c 11) 1 ∅ 0
    ∗ atPos ER (recvCell c 0) 1 ∅ 0 ∗ atPos ER (recvCell c 1) 1 ∅ 0 ∗ atPos ER (recvCell c 2) 1 ∅ 0 ∗ atPos ER (recvCell c 3) 1 ∅ 0
    ∗ atPos ER (recvCell c 4) 1 ∅ 0 ∗ atPos ER (recvCell c 5) 1 ∅ 0 ∗ atPos ER (recvCell c 6) 1 ∅ 0 ∗ atPos ER (recvCell c 7) 1 ∅ 0
    ∗ atPos ER (recvCell c 8) 1 ∅ 0 ∗ atPos ER (recvCell c 9) 1 ∅ 0 ∗ atPos ER (recvCell c 10) 1 ∅ 0 ∗ atPos ER (recvCell c 11) 1 ∅ 0
    ∗ atPos ER (rssCell c 1) 1 ∅ 0 ∗ atPos ER (rssCell c 2) 1 ∅ 0 ∗ atPos ER (rssCell c 3) 1 ∅ 0 ∗ atPos ER (rssCell c 4) 1 ∅ 0
    ∗ atPos ER (rssCell c 5) 1 ∅ 0 ∗ atPos ER (rssCell c 6) 1 ∅ 0 ∗ atPos ER (rssCell c 7) 1 ∅ 0
    ∗ atPos ER (rsrCell c 1) 1 ∅ 0 ∗ atPos ER (rsrCell c 2) 1 ∅ 0 ∗ atPos ER (rsrCell c 3) 1 ∅ 0 ∗ atPos ER (rsrCell c 4) 1 ∅ 0
    ∗ atPos ER (rsrCell c 5) 1 ∅ 0 ∗ atPos ER (rsrCell c 6) 1 ∅ 0 ∗ atPos ER (rsrCell c 7) 1 ∅ 0
    ∗ owes (c : Thread nD τ) 0 W'
    ∗ cellInv ER (sched SV RV) (κ (exitCell c)) (exitCell c)
    ∗ cellInv ER (sched SV RV) (κ (sendCell c 0)) (sendCell c 0) ∗ cellInv ER (sched SV RV) (κ (sendCell c 1)) (sendCell c 1)
    ∗ cellInv ER (sched SV RV) (κ (sendCell c 2)) (sendCell c 2) ∗ cellInv ER (sched SV RV) (κ (sendCell c 3)) (sendCell c 3)
    ∗ cellInv ER (sched SV RV) (κ (sendCell c 4)) (sendCell c 4) ∗ cellInv ER (sched SV RV) (κ (sendCell c 5)) (sendCell c 5)
    ∗ cellInv ER (sched SV RV) (κ (sendCell c 6)) (sendCell c 6) ∗ cellInv ER (sched SV RV) (κ (sendCell c 7)) (sendCell c 7)
    ∗ cellInv ER (sched SV RV) (κ (sendCell c 8)) (sendCell c 8) ∗ cellInv ER (sched SV RV) (κ (sendCell c 9)) (sendCell c 9)
    ∗ cellInv ER (sched SV RV) (κ (sendCell c 10)) (sendCell c 10) ∗ cellInv ER (sched SV RV) (κ (sendCell c 11)) (sendCell c 11)
    ∗ cellInv ER (sched SV RV) (κ (recvCell c 0)) (recvCell c 0) ∗ cellInv ER (sched SV RV) (κ (recvCell c 1)) (recvCell c 1)
    ∗ cellInv ER (sched SV RV) (κ (recvCell c 2)) (recvCell c 2) ∗ cellInv ER (sched SV RV) (κ (recvCell c 3)) (recvCell c 3)
    ∗ cellInv ER (sched SV RV) (κ (recvCell c 4)) (recvCell c 4) ∗ cellInv ER (sched SV RV) (κ (recvCell c 5)) (recvCell c 5)
    ∗ cellInv ER (sched SV RV) (κ (recvCell c 6)) (recvCell c 6) ∗ cellInv ER (sched SV RV) (κ (recvCell c 7)) (recvCell c 7)
    ∗ cellInv ER (sched SV RV) (κ (recvCell c 8)) (recvCell c 8) ∗ cellInv ER (sched SV RV) (κ (recvCell c 9)) (recvCell c 9)
    ∗ cellInv ER (sched SV RV) (κ (recvCell c 10)) (recvCell c 10) ∗ cellInv ER (sched SV RV) (κ (recvCell c 11)) (recvCell c 11)
    ∗ cellInv ER (sched SV RV) (κ (rssCell c 1)) (rssCell c 1) ∗ cellInv ER (sched SV RV) (κ (rssCell c 2)) (rssCell c 2)
    ∗ cellInv ER (sched SV RV) (κ (rssCell c 3)) (rssCell c 3) ∗ cellInv ER (sched SV RV) (κ (rssCell c 4)) (rssCell c 4)
    ∗ cellInv ER (sched SV RV) (κ (rssCell c 5)) (rssCell c 5) ∗ cellInv ER (sched SV RV) (κ (rssCell c 6)) (rssCell c 6)
    ∗ cellInv ER (sched SV RV) (κ (rssCell c 7)) (rssCell c 7)
    ∗ cellInv ER (sched SV RV) (κ (rsrCell c 1)) (rsrCell c 1) ∗ cellInv ER (sched SV RV) (κ (rsrCell c 2)) (rsrCell c 2)
    ∗ cellInv ER (sched SV RV) (κ (rsrCell c 3)) (rsrCell c 3) ∗ cellInv ER (sched SV RV) (κ (rsrCell c 4)) (rsrCell c 4)
    ∗ cellInv ER (sched SV RV) (κ (rsrCell c 5)) (rsrCell c 5) ∗ cellInv ER (sched SV RV) (κ (rsrCell c 6)) (rsrCell c 6)
    ∗ cellInv ER (sched SV RV) (κ (rsrCell c 7)) (rsrCell c 7))

theorem sslots_chain (c : Dev nD) :
    (bigSep Finset.univ fun i : Fin 12 => slotAny (F := F) c (sslot i) : sProp 𝕄)
      = iprop(slotAny (F := F) c (sslot 0) ∗ slotAny (F := F) c (sslot 1) ∗ slotAny (F := F) c (sslot 2) ∗ slotAny (F := F) c (sslot 3)
          ∗ slotAny (F := F) c (sslot 4) ∗ slotAny (F := F) c (sslot 5) ∗ slotAny (F := F) c (sslot 6) ∗ slotAny (F := F) c (sslot 7)
          ∗ slotAny (F := F) c (sslot 8) ∗ slotAny (F := F) c (sslot 9) ∗ slotAny (F := F) c (sslot 10) ∗ slotAny (F := F) c (sslot 11)) :=
  bigSep_univ_eq_bigSepL [0, 1, 2, 3, 4, 5, 6, 7, 8, 9, 10, 11] (by decide) (by decide) _

theorem qslots_chain (c : Dev nD) :
    (bigSep Finset.univ fun o : Fin 8 => slotAny (F := F) c (qslot o) : sProp 𝕄)
      = iprop(slotAny (F := F) c (qslot 0) ∗ slotAny (F := F) c (qslot 1) ∗ slotAny (F := F) c (qslot 2) ∗ slotAny (F := F) c (qslot 3)
          ∗ slotAny (F := F) c (qslot 4) ∗ slotAny (F := F) c (qslot 5) ∗ slotAny (F := F) c (qslot 6) ∗ slotAny (F := F) c (qslot 7)) :=
  bigSep_univ_eq_bigSepL [0, 1, 2, 3, 4, 5, 6, 7] (by decide) (by decide) _

theorem J8_rest : (((((((Finset.univ : Finset S8x8x1024.Idx) \ J8 6) \ J8 5) \ J8 7) \ J8 2) \ J8 1) \ J8 3) \ J8 4 = J8 0 := by
  ext x
  have e0 : ((0 : Fin 8) : ℕ) = 0 := rfl
  have e1 : ((1 : Fin 8) : ℕ) = 1 := rfl
  have e2 : ((2 : Fin 8) : ℕ) = 2 := rfl
  have e3 : ((3 : Fin 8) : ℕ) = 3 := rfl
  have e4 : ((4 : Fin 8) : ℕ) = 4 := rfl
  have e5 : ((5 : Fin 8) : ℕ) = 5 := rfl
  have e6 : ((6 : Fin 8) : ℕ) = 6 := rfl
  have e7 : ((7 : Fin 8) : ℕ) = 7 := rfl
  simp only [Finset.mem_sdiff, Finset.mem_univ, true_and, mem_J8, e0, e1, e2, e3, e4, e5, e6, e7]
  have h8 : (x 0).val < 8 := (x 0).isLt
  omega

theorem qrest_set :
    ((((((((Memref.whole cc0_scratch5 : Memref sig .tc _ _ _).view.set : Finset S8x8x1024.Idx)
      \ (qslot 6).view.set) \ (qslot 5).view.set) \ (qslot 7).view.set) \ (qslot 2).view.set) \ (qslot 1).view.set) \ (qslot 3).view.set)
      \ (qslot 4).view.set = (qslot 0).view.set := by
  have eW : ((Memref.whole cc0_scratch5 : Memref sig .tc _ _ _).view.set : Finset S8x8x1024.Idx) = Finset.univ := View.set_whole cc0_scratch5
  rw [eW, qslot_set, qslot_set, qslot_set, qslot_set, qslot_set, qslot_set, qslot_set, qslot_set]
  exact J8_rest

theorem qrest (c : Dev nD) (e5 : Buf (Elt F) ((c : Thread nD τ).loc cc0_scratch5)) :
    ((Memref.whole cc0_scratch5).view.loc (c : Thread nD τ) ↦[(((((((Memref.whole cc0_scratch5).view.set
          \ (qslot 6).view.set) \ (qslot 5).view.set) \ (qslot 7).view.set) \ (qslot 2).view.set) \ (qslot 1).view.set) \ (qslot 3).view.set)
          \ (qslot 4).view.set]{fullShare} e5 : sProp 𝕄) ⊢ slotAny (F := F) c (qslot 0) :=
  (Entails.of_eq (congrArg (fun S : Finset S8x8x1024.Idx => ((Memref.whole cc0_scratch5).view.loc (c : Thread nD τ) ↦[S]{fullShare} e5 : sProp 𝕄)) qrest_set)).trans
    (slotAny_intro (F := F) c (qslot 0) e5)

theorem close_cell (κ : GSem nD τ sig → ℕ) (g : GSem nD τ sig) :
    cellInv ER (sched SV RV) (κ g) g ⊢ iprop(atPos ER g 1 ∅ 0 -∗ |={Set.univ}=> semVal g 0) := by
  iintro HI Hat
  iapply (Rounds.cell_close ER (sched SV RV) (Set.mem_univ (κ g)) (fun h => h) (R := 1) (duties_later SV RV g))
  isplitl [HI]
  · iexact HI
  iexact Hat

section CloseAll
set_option hygiene false

local macro "give " h:ident : tactic => `(tactic| (isplitl [$h]; · iexact $h))

local macro "unbuf " h:ident b:term:max : tactic => `(tactic| (isplitl [$h]; · (iapply (Entails.of_eq (whole_view c $b _).symm); iexact $h)))

local macro "unbufx " h:ident b:term:max e:term:max : tactic =>
  `(tactic| (isplitl [$h]; · (iexists $e; iapply (Entails.of_eq (whole_view c $b _).symm); iexact $h)))

local macro "close " hat:ident hi:ident g:term:max " as " hz:ident : tactic =>
  `(tactic| (imod (close_cell SV RV κ $g) $$ $hi:ident $hat:ident with $hz:ident))

set_option maxRecDepth 100000 in
set_option maxHeartbeats 4000000 in
/-- At the return every cell's round is complete, so each cell closes at zero and the buffers are whole again. -/
theorem body_close (κ : GSem nD τ sig → ℕ) (c : Dev nD) (W' : Waits sig Unit)
    (e0 : Buf (Elt F) ((c : Thread nD τ).loc cc0_scratch0)) (e1 : Buf (Elt F) ((c : Thread nD τ).loc cc0_scratch1))
    (e2 : Buf (Elt F) ((c : Thread nD τ).loc cc0_scratch2)) (e3 : Buf (Elt F) ((c : Thread nD τ).loc cc0_scratch3))
    (e5 : Buf (Elt F) ((c : Thread nD τ).loc cc0_scratch5)) :
    bodyEnd SV RV m OV κ c W' e0 e1 e2 e3 e5 ⊢ |={Set.univ}=> bodyPost SV RV m OV c := by
  unfold bodyEnd
  iintro ⟨Hw1, Hw2, Hw3, Hw4, Hw5, Hw6, Hs0, Hs1, Hs2, H3rest,
    A0, A1, A2, A3, A4, A5, A6, A7, A8, A9, A10, A11, B0, B1, B2, B3, B4, B5, B6, B7, B8, B9, B10, B11,
    H5rest, Q1, Q2, Q3, Q4, Q5, Q6, Q7, P0, P1, P2, P3, P4, P5, P6, P7, Hx, Hout,
    Hq2, Hq3, Hq4, Hq5, Hq6, Hq7, Hq8, Hq9, Hq34, Hq42,
    HpE, HpS0, HpS1, HpS2, HpS3, HpS4, HpS5, HpS6, HpS7, HpS8, HpS9, HpS10, HpS11,
    HpV0, HpV1, HpV2, HpV3, HpV4, HpV5, HpV6, HpV7, HpV8, HpV9, HpV10, HpV11,
    HpQ1, HpQ2, HpQ3, HpQ4, HpQ5, HpQ6, HpQ7, HpP1, HpP2, HpP3, HpP4, HpP5, HpP6, HpP7,
    HO,
    #IE, #IS0, #IS1, #IS2, #IS3, #IS4, #IS5, #IS6, #IS7, #IS8, #IS9, #IS10, #IS11,
    #IV0, #IV1, #IV2, #IV3, #IV4, #IV5, #IV6, #IV7, #IV8, #IV9, #IV10, #IV11,
    #IQ1, #IQ2, #IQ3, #IQ4, #IQ5, #IQ6, #IQ7, #IP1, #IP2, #IP3, #IP4, #IP5, #IP6, #IP7⟩

  close HpE IE (exitCell c) as ZE
  close HpS0 IS0 (sendCell c 0) as ZS0
  close HpS1 IS1 (sendCell c 1) as ZS1
  close HpS2 IS2 (sendCell c 2) as ZS2
  close HpS3 IS3 (sendCell c 3) as ZS3
  close HpS4 IS4 (sendCell c 4) as ZS4
  close HpS5 IS5 (sendCell c 5) as ZS5
  close HpS6 IS6 (sendCell c 6) as ZS6
  close HpS7 IS7 (sendCell c 7) as ZS7
  close HpS8 IS8 (sendCell c 8) as ZS8
  close HpS9 IS9 (sendCell c 9) as ZS9
  close HpS10 IS10 (sendCell c 10) as ZS10
  close HpS11 IS11 (sendCell c 11) as ZS11
  close HpV0 IV0 (recvCell c 0) as ZV0
  close HpV1 IV1 (recvCell c 1) as ZV1
  close HpV2 IV2 (recvCell c 2) as ZV2
  close HpV3 IV3 (recvCell c 3) as ZV3
  close HpV4 IV4 (recvCell c 4) as ZV4
  close HpV5 IV5 (recvCell c 5) as ZV5
  close HpV6 IV6 (recvCell c 6) as ZV6
  close HpV7 IV7 (recvCell c 7) as ZV7
  close HpV8 IV8 (recvCell c 8) as ZV8
  close HpV9 IV9 (recvCell c 9) as ZV9
  close HpV10 IV10 (recvCell c 10) as ZV10
  close HpV11 IV11 (recvCell c 11) as ZV11
  close HpQ1 IQ1 (rssCell c 1) as ZQ1
  close HpQ2 IQ2 (rssCell c 2) as ZQ2
  close HpQ3 IQ3 (rssCell c 3) as ZQ3
  close HpQ4 IQ4 (rssCell c 4) as ZQ4
  close HpQ5 IQ5 (rssCell c 5) as ZQ5
  close HpQ6 IQ6 (rssCell c 6) as ZQ6
  close HpQ7 IQ7 (rssCell c 7) as ZQ7
  close HpP1 IP1 (rsrCell c 1) as ZP1
  close HpP2 IP2 (rsrCell c 2) as ZP2
  close HpP3 IP3 (rsrCell c 3) as ZP3
  close HpP4 IP4 (rsrCell c 4) as ZP4
  close HpP5 IP5 (rsrCell c 5) as ZP5
  close HpP6 IP6 (rsrCell c 6) as ZP6
  close HpP7 IP7 (rsrCell c 7) as ZP7
  imodintro

  iclear H3rest

  ihave Q0 := (qrest (F := F) c e5) $$ H5rest
  unfold bodyPost Φ₁
  isplitr [HO Hx Hout]
  ·
    isplitl [Hw1 Hw2 Hw3 Hw4 Hw5 Hw6]
    · unfold weights
      unbuf Hw1 main_arg1; unbuf Hw2 main_arg2; unbuf Hw3 main_arg3; unbuf Hw4 main_arg4; unbuf Hw5 main_arg5
      iapply (Entails.of_eq (whole_view c main_arg6 _).symm); iexact Hw6
    isplitl [Hs0 Hs1 Hs2 A0 A1 A2 A3 A4 A5 A6 A7 A8 A9 A10 A11 B0 B1 B2 B3 B4 B5 B6 B7 B8 B9 B10 B11 Q0 Q1 Q2 Q3 Q4 Q5 Q6 Q7 P0 P1 P2 P3 P4 P5 P6 P7]
    · unfold scratch
      unbufx Hs0 cc0_scratch0 e0; unbufx Hs1 cc0_scratch1 e1; unbufx Hs2 cc0_scratch2 e2
      isplitl [A0 A1 A2 A3 A4 A5 A6 A7 A8 A9 A10 A11]
      · iapply (sslots_take (F := F) c)
        iapply (Entails.of_eq (sslots_chain (F := F) c).symm)
        iframe
      isplitl [B0 B1 B2 B3 B4 B5 B6 B7 B8 B9 B10 B11]
      · iapply (rslots_take (F := F) c)
        iapply (Entails.of_eq (rslots_chain (F := F) c).symm)
        iframe
      isplitl [Q0 Q1 Q2 Q3 Q4 Q5 Q6 Q7]
      · iapply (qslots_take (F := F) c)
        iapply (Entails.of_eq (qslots_chain (F := F) c).symm)
        iframe
      iapply (pslots_take (F := F) c)
      iapply (Entails.of_eq (pslots_chain (F := F) c).symm)
      iframe

    iapply (ownZero_intro (F := F) c)
    give ZE
    give Hq2; give Hq3; give Hq4; give Hq5; give Hq6; give Hq7; give Hq8; give Hq9
    give ZS0; give ZS1; give ZS2; give ZS3; give ZS4; give ZS5; give ZS6; give ZS7; give ZS8; give ZS9; give ZS10; give ZS11
    give ZV0; give ZV1; give ZV2; give ZV3; give ZV4; give ZV5; give ZV6; give ZV7; give ZV8; give ZV9; give ZV10; give ZV11
    give Hq34
    give ZQ1; give ZQ2; give ZQ3; give ZQ4; give ZQ5; give ZQ6; give ZQ7
    give Hq42
    give ZP1; give ZP2; give ZP3; give ZP4; give ZP5; give ZP6
    iexact ZP7

  isplitl [HO]
  · unfold Dat.owesAt Pipeline.owesWithin
    rw [show (dats SV RV m OV 0 c).owed t0_0.succ = 0 from rfl]
    iexists W'
    isplitr; · ipureintro; exact fun _ _ => Or.inl trivial
    iexact HO

  isplitl [Hx]
  · iexists _; isplitr; · (ipureintro; rfl)
    iapply (Entails.of_eq (whole_view c cc0_stg0_0 _).symm); iexact Hx
  iexists _; isplitr; · (ipureintro; rfl)
  iapply (Entails.of_eq (whole_view c cc0_stg1_0 _).symm); iexact Hout

end CloseAll

end Cert.KernelIdeal.Mlp

end
-- ==== Proof.Oblig.lean ====
import proofs.«900996_g7700000000000997_dist_mlpseq_tp1d_rep_bs_b64_d1024_h2048_v7x_i8_bf16_1_alg».proof.Proof.BodyCtx
import proofs.«900996_g7700000000000997_dist_mlpseq_tp1d_rep_bs_b64_d1024_h2048_v7x_i8_bf16_1_alg».proof.Proof.Open
import proofs.«900996_g7700000000000997_dist_mlpseq_tp1d_rep_bs_b64_d1024_h2048_v7x_i8_bf16_1_alg».proof.Proof.Glob

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (SV : Dev nD → Fin 12 → (S64x512.Idx → Elt F .bf16)) (RV : Dev nD → Fin 8 → (S8x1024.Idx → Elt F .bf16))
variable (m : (ℓ : Loc nD τ sig) → Buf (Elt F) ℓ)
variable (OV : Dev nD → (cc0_stg1_0 : Ref sig .tc).ty.Contents (Elt F))

def SoundBody : Prop :=
  ∀ (κ : GSem nD τ sig → ℕ) (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (f5 : Buf (Elt F) ((c : Thread nD τ).loc cc0_scratch5))
    (f6 : Buf (Elt F) ((c : Thread nD τ).loc cc0_scratch6)) (g1 : Buf (Elt F) ((c : Thread nD τ).loc cc0_stg1_0))
    (Kt : PUnit → sProp 𝕄),
    iprop(bodyCtx SV RV m κ c W f0 f1 f2 f3 f4 f5 f6 g1 ∗ (bodyPost SV RV m OV c -∗ Kt ⟨⟩))
      ⊢ wp frame (wpE (defs₀ (F := F)) 𝒱₀ (c : Thread nD τ) none) Set.univ (Gen.bodyAt0 (F := F) t0_0) Kt

def κOf (K : Dev nD × Fin 40 → ℕ) (g : GSem nD τ sig) : ℕ :=
  if h : ∃ ck, kcell ck = g then K (Classical.choose h) else 0

theorem κOf_kcell (K : Dev nD × Fin 40 → ℕ) (ck : Dev nD × Fin 40) : κOf K (kcell ck) = K ck := by
  have h : ∃ ck', kcell ck' = kcell ck := ⟨ck, rfl⟩
  unfold κOf; rw [dif_pos h]
  exact congrArg K (kcell_injective (Classical.choose_spec h))

theorem inv_κ (K : Dev nD × Fin 40 → ℕ) (ck : Dev nD × Fin 40) :
    records SV RV K ⊢ cellInv ER (sched SV RV) (κOf K (kcell ck)) (kcell ck) := by
  rw [κOf_kcell]; exact inv_at SV RV K ck

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owed₀_eq (c : Dev nD) : O₀ c = owed₀ c := rfl

set_option maxRecDepth 4000 in

def bodyPre' (c : Dev nD) : sProp 𝕄 :=
  iprop(Φ₀ SV RV m c ∗ (dats SV RV m OV 0 c).owesAt () t0_0.castSucc
    ∗ (∃ d, stg c cc0_stg0_0 ((dats SV RV m OV 0 c).before (0 : Fin 2) t0_0 d))
    ∗ (∃ d, stg c cc0_stg1_0 ((dats SV RV m OV 0 c).before (1 : Fin 2) t0_0 d)))

section HandOver
set_option hygiene false

local macro "give " h:ident : tactic => `(tactic| (isplitl [$h]; · iexact $h))

local macro "buf " h:ident b:term:max : tactic => `(tactic| (isplitl [$h]; · (iapply (Entails.of_eq (whole_view c $b _)); iexact $h)))

local macro "inv " ck:term:max : tactic => `(tactic| (isplitr; · (iapply (inv_κ SV RV K $ck); iexact HR)))

local macro "rch " ck:term:max : tactic => `(tactic| (isplitr; · (iapply (reached_at SV RV K $ck); iexact HR)))

set_option maxRecDepth 100000 in
set_option maxHeartbeats 4000000 in

/-- The body lemma's start context is the pipeline's, opened cell by cell. -/
theorem body_obligation_of (h : SoundBody SV RV m OV) (c : Dev nD) : BodyObligation (dats SV RV m OV 0 c) (defs₀ (F := F)) 𝒱₀ () Set.univ := fun t => by
  rw [Gen.fin_N0 t]
  rw [Gen.bigSep_W0, Gen.bigSep_W0]
  simp only [owns_whole_eq]
  show bodyPre' SV RV m OV c ⊢ wp frame (wpE (defs₀ (F := F)) 𝒱₀ (c : Thread nD τ) none) Set.univ (Gen.bodyAt0 (F := F) t0_0) (fun _ => bodyPost SV RV m OV c)
  unfold bodyPre' Φ₀ start scratch weights
  iintro ⟨⟨⟨⟨%K, Hg⟩, Hcr, Hlev, Hw1, Hw2, Hw3, Hw4, Hw5, Hw6⟩, ⟨%f0, Hs0⟩, ⟨%f1, Hs1⟩, ⟨%f2, Hs2⟩, ⟨%f3, Hs3⟩, ⟨%f4, Hs4⟩, ⟨%f5, Hs5⟩, ⟨%f6, Hs6⟩⟩,
    Ho, ⟨%d0, %g0, %hg0, Hx⟩, ⟨%d1, %g1, %hg1, Hout⟩⟩

  have hx : g0 = xstg m c := by rw [hg0]; unfold Dat.before; rw [if_pos (Gen.fetch0_0 t0_0)]; rfl
  subst hx

  unfold Dat.owesAt Pipeline.owesWithin
  icases Ho with ⟨%W, %hW, HO⟩
  rw [show (dats SV RV m OV 0 c).owed t0_0.castSucc = O₀ c from rfl, owed₀_eq]

  unfold ghost
  icases Hg with ⟨#HR, Hpos, Htok, Hidle⟩
  ihave Hpos := (positions_open (F := F) c) $$ Hpos
  icases Hpos with ⟨HpB, HpE, HpS0, HpS1, HpS2, HpS3, HpS4, HpS5, HpS6, HpS7, HpS8, HpS9, HpS10, HpS11,
    HpV0, HpV1, HpV2, HpV3, HpV4, HpV5, HpV6, HpV7, HpV8, HpV9, HpV10, HpV11,
    HpQ1, HpQ2, HpQ3, HpQ4, HpQ5, HpQ6, HpQ7, HpP1, HpP2, HpP3, HpP4, HpP5, HpP6, HpP7⟩
  ihave Htok := (payToks_open (F := F) c) $$ Htok
  icases Htok with ⟨HtB1, HtE1, HtR1, HtS1, HtB2, HtE2, HtR2, HtS2, HtB3, HtE3, HtR3, HtS3, HtB4, HtE4, HtR4, HtS4,
    HtB5, HtE5, HtR5, HtS5, HtB6, HtE6, HtR6, HtS6, HtB7, HtE7, HtR7, HtS7,
    HtV0, HtX0, HtV1, HtX1, HtV2, HtX2, HtV3, HtX3, HtV4, HtX4, HtV5, HtX5,
    HtV6, HtX6, HtV7, HtX7, HtV8, HtX8, HtV9, HtX9, HtV10, HtX10, HtV11, HtX11⟩
  ihave Hidle := (idleSems_open (F := F) c) $$ Hidle
  icases Hidle with ⟨Hq2, Hq3, Hq4, Hq5, Hq6, Hq7, Hq8, Hq9, Hq34, Hq42⟩
  ihave Hcr := (creds_open (F := F) c) $$ Hcr
  icases Hcr with ⟨HcB, HcE, HcV0, HcV1, HcV2, HcV3, HcV4, HcV5, HcV6, HcV7, HcV8, HcV9, HcV10, HcV11,
    HcP1, HcP2, HcP3, HcP4, HcP5, HcP6, HcP7⟩

  iapply (h (κOf K) c W f0 f1 f2 f3 f4 f5 f6 g1 fun _ => bodyPost SV RV m OV c)
  isplitr []
  · unfold bodyCtx

    buf Hw1 main_arg1; buf Hw2 main_arg2; buf Hw3 main_arg3; buf Hw4 main_arg4; buf Hw5 main_arg5; buf Hw6 main_arg6
    buf Hs0 cc0_scratch0; buf Hs1 cc0_scratch1; buf Hs2 cc0_scratch2; buf Hs3 cc0_scratch3; buf Hs4 cc0_scratch4
    buf Hs5 cc0_scratch5; buf Hs6 cc0_scratch6
    buf Hx cc0_stg0_0; buf Hout cc0_stg1_0

    give Hq2; give Hq3; give Hq4; give Hq5; give Hq6; give Hq7; give Hq8; give Hq9; give Hq34; give Hq42

    inv (c, kBar); inv (c, kExit)
    inv (c, kSend 0); inv (c, kRecv 0); inv (c, kSend 1); inv (c, kRecv 1); inv (c, kSend 2); inv (c, kRecv 2)
    inv (c, kSend 3); inv (c, kRecv 3); inv (c, kSend 4); inv (c, kRecv 4); inv (c, kSend 5); inv (c, kRecv 5)
    inv (c, kSend 6); inv (c, kRecv 6); inv (c, kSend 7); inv (c, kRecv 7); inv (c, kSend 8); inv (c, kRecv 8)
    inv (c, kSend 9); inv (c, kRecv 9); inv (c, kSend 10); inv (c, kRecv 10); inv (c, kSend 11); inv (c, kRecv 11)
    inv (c, kRss 1 (by decide)); inv (c, kRsr 1 (by decide)); inv (c, kRss 2 (by decide)); inv (c, kRsr 2 (by decide))
    inv (c, kRss 3 (by decide)); inv (c, kRsr 3 (by decide)); inv (c, kRss 4 (by decide)); inv (c, kRsr 4 (by decide))
    inv (c, kRss 5 (by decide)); inv (c, kRsr 5 (by decide)); inv (c, kRss 6 (by decide)); inv (c, kRsr 6 (by decide))
    inv (c, kRss 7 (by decide)); inv (c, kRsr 7 (by decide))

    inv (xr c 1, kBar); inv (xr c 1, kExit); inv (xr c 1, kRsr 1 (by decide))
    inv (xr c 2, kBar); inv (xr c 2, kExit); inv (xr c 2, kRsr 2 (by decide))
    inv (xr c 3, kBar); inv (xr c 3, kExit); inv (xr c 3, kRsr 3 (by decide))
    inv (xr c 4, kBar); inv (xr c 4, kExit); inv (xr c 4, kRsr 4 (by decide))
    inv (xr c 5, kBar); inv (xr c 5, kExit); inv (xr c 5, kRsr 5 (by decide))
    inv (xr c 6, kBar); inv (xr c 6, kExit); inv (xr c 6, kRsr 6 (by decide))
    inv (xr c 7, kBar); inv (xr c 7, kExit); inv (xr c 7, kRsr 7 (by decide))
    inv (xr c 1, kRecv 0); inv (xr c 1, kRecv 1); inv (xr c 3, kRecv 2); inv (xr c 3, kRecv 3)
    inv (xr c 4, kRecv 4); inv (xr c 4, kRecv 5); inv (xr c 1, kRecv 6); inv (xr c 1, kRecv 7)
    inv (xr c 3, kRecv 8); inv (xr c 3, kRecv 9); inv (xr c 4, kRecv 10); inv (xr c 4, kRecv 11)

    rch (xr c 1, kBar); rch (xr c 1, kExit); rch (xr c 1, kRsr 1 (by decide)); rch (c, kRss 1 (by decide))
    rch (xr c 2, kBar); rch (xr c 2, kExit); rch (xr c 2, kRsr 2 (by decide)); rch (c, kRss 2 (by decide))
    rch (xr c 3, kBar); rch (xr c 3, kExit); rch (xr c 3, kRsr 3 (by decide)); rch (c, kRss 3 (by decide))
    rch (xr c 4, kBar); rch (xr c 4, kExit); rch (xr c 4, kRsr 4 (by decide)); rch (c, kRss 4 (by decide))
    rch (xr c 5, kBar); rch (xr c 5, kExit); rch (xr c 5, kRsr 5 (by decide)); rch (c, kRss 5 (by decide))
    rch (xr c 6, kBar); rch (xr c 6, kExit); rch (xr c 6, kRsr 6 (by decide)); rch (c, kRss 6 (by decide))
    rch (xr c 7, kBar); rch (xr c 7, kExit); rch (xr c 7, kRsr 7 (by decide)); rch (c, kRss 7 (by decide))
    rch (xr c 1, kRecv 0); rch (c, kSend 0); rch (xr c 1, kRecv 1); rch (c, kSend 1)
    rch (xr c 3, kRecv 2); rch (c, kSend 2); rch (xr c 3, kRecv 3); rch (c, kSend 3)
    rch (xr c 4, kRecv 4); rch (c, kSend 4); rch (xr c 4, kRecv 5); rch (c, kSend 5)
    rch (xr c 1, kRecv 6); rch (c, kSend 6); rch (xr c 1, kRecv 7); rch (c, kSend 7)
    rch (xr c 3, kRecv 8); rch (c, kSend 8); rch (xr c 3, kRecv 9); rch (c, kSend 9)
    rch (xr c 4, kRecv 10); rch (c, kSend 10); rch (xr c 4, kRecv 11); rch (c, kSend 11)

    iframe
  · iintro H; iexact H

end HandOver

end Cert.KernelIdeal.Mlp

end
-- ==== Proof.ReadsW.lean ====
import proofs.«900996_g7700000000000997_dist_mlpseq_tp1d_rep_bs_b64_d1024_h2048_v7x_i8_bf16_1_alg».proof.Proof.Vals
import proofs.«900996_g7700000000000997_dist_mlpseq_tp1d_rep_bs_b64_d1024_h2048_v7x_i8_bf16_1_alg».proof.Proof.Slots
import Idealize.ShloMosaic.Lib.ValueLayout

noncomputable section

namespace Cert.KernelIdeal.Mlp

open Cert.KernelIdeal Cert.KernelIdeal.Gen

open Idealize.ShloMosaic
open Idealize.ShloMosaic.TcCoe

variable {F : FTy → Type} [FloatOps F]

section General
variable {sig' : RefSig} {κ : Kind} {Val : EltTy → Type} {sp : Space} {s s' : Shape} {e : EltTy} {n0 n1 n2 m1 m2 : ℕ}

theorem read_reshape (v : View sig' κ sp s e) (h : s'.numel = s.numel) (g : v.ty.Contents Val) (x : s'.Idx) :
    (v.reshape s' h).read Val g x = v.read Val g (Shape.reshapeEquiv h x) := rfl

/-- A view written whole through a reshape of it reads the payload re-indexed, whatever it held. -/
theorem read_write_reshape (v : View sig' κ sp s e) (h : s'.numel = s.numel) (g : v.ty.Contents Val) (P : s'.Idx → Val e) :
    v.read Val ((v.reshape s' h).write Val g P Finset.univ) = fun j => P ((Shape.reshapeEquiv h).symm j) := by
  funext j
  rw [← congrFun (View.read_write_univ (v := v.reshape s' h) g P), read_reshape, Equiv.apply_symm_apply]

/-- A write through a reshape of one rectangle of a view is not seen through a rectangle that shares no index with it. -/
theorem read_slice_write_reshape_of_disjoint (v : View sig' κ sp s e) (r r' : Rect s) (h : s'.numel = r'.shape.numel)
    (hd : Disjoint r.set r'.set) (g : v.ty.Contents Val) (P : s'.Idx → Val e) :
    (v.slice r).read Val (((v.slice r').reshape s' h).write Val g P Finset.univ) = (v.slice r).read Val g := by
  refine View.read_congr fun i hi => View.write_of_not_mem _ _ _ fun hm => ?_
  rw [View.setOn_univ, View.set_reshape, View.set_slice] at hm
  rw [View.set_slice] at hi
  exact Finset.disjoint_left.mp ((Finset.disjoint_map _).mpr hd) hi hm

/-- A slab of a rank-3 view written whole through the squeeze of its slice, then loaded at that rectangle, returns the payload with a leading unit coordinate. -/
theorem readAt_write_lead1 (v : View sig' κ sp ⟨3, ![n0, n1, n2]⟩ e) (off : Fin 3 → ℕ)
    (p : ∀ a, off a + (![1, m1, m2] : Fin 3 → ℕ) a ≤ (⟨3, ![n0, n1, n2]⟩ : Shape).size a)
    (h : (⟨2, ![m1, m2]⟩ : Shape).numel = (Rect.unit (s := ⟨3, ![n0, n1, n2]⟩) off ![1, m1, m2] p).shape.numel)
    (g : v.ty.Contents Val) (P : (⟨2, ![m1, m2]⟩ : Shape).Idx → Val e) :
    v.readAt Val (Rect.unit (s := ⟨3, ![n0, n1, n2]⟩) off ![1, m1, m2] p).toLoadRect
        (((v.slice (Rect.unit (s := ⟨3, ![n0, n1, n2]⟩) off ![1, m1, m2] p)).reshape ⟨2, ![m1, m2]⟩ h).write Val g P Finset.univ)
      = fun j => P (ValueIdx.ix2 (⟨(j 1).val, c3_1 j⟩ : Fin m1) (⟨(j 2).val, c3_2 j⟩ : Fin m2)) := by
  rw [View.readAt_rect, read_write_reshape (v.slice (Rect.unit off ![1, m1, m2] p)) h g P]
  funext j
  obtain ⟨u, a, b, rfl⟩ : ∃ (u : Fin 1) (a : Fin m1) (b : Fin m2), j = ValueIdx.ix3 u a b := ⟨j 0, j 1, j 2, ValueIdx.eq_ix3 j⟩
  obtain rfl : u = 0 := Subsingleton.elim _ _
  exact congrArg P ((Equiv.symm_apply_eq _).mpr (ValueIdx.reshapeEquiv_ix2_1ab h a b).symm)

end General

variable (m : (ℓ : Loc nD τ sig) → Buf (Elt F) ℓ) (c : Dev nD)

/-- What a load of the rectangle at `off` of the buffer `b` reads off the contents `g`. -/
abbrev load (b : Ref sig .tc) (off sz : Fin b.ty.shape.rank → ℕ) (p : ∀ a, off a + sz a ≤ b.ty.shape.size a) (g : b.ty.Contents (Elt F)) :=
  View.readAt (Elt F) (Memref.whole b).view (Rect.unit off sz p).toLoadRect g

/-- The view a transfer into the buffer `b` fills: the squeeze of the slice of `b` at a rectangle. -/
abbrev slab (b : Ref sig .tc) (off sz : Fin b.ty.shape.rank → ℕ) (s' : Shape) (p : ∀ a, off a + sz a ≤ b.ty.shape.size a)
    (hs : ∀ a, (Rect.unit off sz p).stride a = 1) (q : (Rect.unit off sz p).shape.Squeezes s') :=
  (((Memref.whole b).slice (Rect.unit off sz p) hs).squeeze s' q).view

/-- What a transfer out of the rectangle at `off` of the argument `a` carries. -/
abbrev part (a : Ref sig .tc) (off sz : Fin a.ty.shape.rank → ℕ) (p : ∀ i, off i + sz i ≤ a.ty.shape.size i)
    (hs : ∀ i, (Rect.unit off sz p).stride i = 1) :=
  (ReadAs.same : ReadAs (Elt F) _ _ _ _).apply (View.read (Elt F) ((Memref.whole a).slice (Rect.unit off sz p) hs).view (m ((c : Thread nD τ).loc a)))

/-- It is the argument at the rectangle's offset plus the index. -/
theorem part_apply (a : Ref sig .tc) (off sz p hs x) (i : a.ty.shape.Idx) (h : ∀ d, (i d).val = off d + (x d).val) :
    part m c a off sz p hs x = m ((c : Thread nD τ).loc a) i :=
  congrArg (m ((c : Thread nD τ).loc a)) (funext fun d => Fin.ext ((congrArg (off d + ·) (Nat.one_mul _)).trans (h d).symm))

theorem read_x : ∀ h, load cc0_stg0_0 ![0, 0] S64x1024.size h (xstg m c) = aX m c := fun h =>
  (Memref.readAt_unit_zero (Elt F) cc0_stg0_0 (funext (Fin.forall_fin_two.mpr ⟨rfl, rfl⟩)) h _).trans <| funext fun x =>
    congrArg (aX m c) (funext fun d => Fin.ext (Pipeline.Window.rect_emb_val_of_index_zero win0_0 (0 : Fin 1) d rfl x))

/-- What a transfer of the whole argument `a` carries. -/
abbrev all (a : Ref sig .tc) :=
  (ReadAs.same : ReadAs (Elt F) _ _ _ _).apply (View.read (Elt F) (Memref.whole a).view (m ((c : Thread nD τ).loc a)))

variable (f0 g0 : Buf (Elt F) ((c : Thread nD τ).loc cc0_scratch0)) (f1 g1 : Buf (Elt F) ((c : Thread nD τ).loc cc0_scratch1))

/-- The first half of slab 0 is read after the second half is filled: the two halves share no index. -/
theorem read_v53 : ∀ pA sA qA pB sB qB dpA dsA P₁,
    load cc0_scratch0 ![0, 0, 0] S1x1024x1024.size pA
        (View.write (Elt F) (slab cc0_scratch0 ![0, 0, 1024] S1x1024x1024.size S1024x1024 pB sB qB)
          (View.write (Elt F) (slab cc0_scratch0 ![0, 0, 0] S1x1024x1024.size S1024x1024 pA sA qA) f0
            (part m c main_arg1 ![0, 0] S1024x1024.size dpA dsA) Finset.univ) P₁ Finset.univ)
      = colsHalf (aWi0 m c) 0 (by omega) := fun pA sA qA pB sB qB dpA dsA P₁ =>
  (read_slice_write_reshape_of_disjoint (View.whole cc0_scratch0) (Rect.unit ![0, 0, 0] S1x1024x1024.size pA) (Rect.unit ![0, 0, 1024] S1x1024x1024.size pB)
    qB.numel_eq (Rect.unit_disjoint 2 (Or.inl (by decide))) _ P₁).trans <|
    (readAt_write_lead1 (Val := Elt F) (View.whole cc0_scratch0) ![0, 0, 0] pA qA.numel_eq f0 _).trans <| funext fun j =>
      part_apply m c _ _ _ _ _ _ _ (Fin.forall_fin_two.mpr ⟨(Nat.zero_add _).symm, rfl⟩)

include f0 in
theorem read_v65 : ∀ pB sB qB dpB dsB,
    load cc0_scratch0 ![0, 0, 1024] S1x1024x1024.size pB
        (View.write (Elt F) (slab cc0_scratch0 ![0, 0, 1024] S1x1024x1024.size S1024x1024 pB sB qB) g0
          (part m c main_arg1 ![0, 1024] S1024x1024.size dpB dsB) Finset.univ)
      = colsHalf (aWi0 m c) 1024 (by omega) := fun pB sB qB dpB dsB =>
  (readAt_write_lead1 (Val := Elt F) (View.whole cc0_scratch0) ![0, 0, 1024] pB qB.numel_eq g0 _).trans <| funext fun j =>
    part_apply m c _ _ _ _ _ _ _ (Fin.forall_fin_two.mpr ⟨(Nat.zero_add _).symm, rfl⟩)

theorem read_v77 : ∀ pA sA qA pB sB qB dpA dsA P₁,
    load cc0_scratch1 ![0, 0, 0] S1x1024x1024.size pA
        (View.write (Elt F) (slab cc0_scratch1 ![0, 1024, 0] S1x1024x1024.size S1024x1024 pB sB qB)
          (View.write (Elt F) (slab cc0_scratch1 ![0, 0, 0] S1x1024x1024.size S1024x1024 pA sA qA) f1
            (part m c main_arg2 ![0, 0] S1024x1024.size dpA dsA) Finset.univ) P₁ Finset.univ)
      = rowsHalf (aWo0 m c) 0 (by omega) := fun pA sA qA pB sB qB dpA dsA P₁ =>
  (read_slice_write_reshape_of_disjoint (View.whole cc0_scratch1) (Rect.unit ![0, 0, 0] S1x1024x1024.size pA) (Rect.unit ![0, 1024, 0] S1x1024x1024.size pB)
    qB.numel_eq (Rect.unit_disjoint 1 (Or.inl (by decide))) _ P₁).trans <|
    (readAt_write_lead1 (Val := Elt F) (View.whole cc0_scratch1) ![0, 0, 0] pA qA.numel_eq f1 _).trans <| funext fun j =>
      part_apply m c _ _ _ _ _ _ _ (Fin.forall_fin_two.mpr ⟨rfl, (Nat.zero_add _).symm⟩)

include f1 in
theorem read_v86 : ∀ pB sB qB dpB dsB,
    load cc0_scratch1 ![0, 1024, 0] S1x1024x1024.size pB
        (View.write (Elt F) (slab cc0_scratch1 ![0, 1024, 0] S1x1024x1024.size S1024x1024 pB sB qB) g1
          (part m c main_arg2 ![1024, 0] S1024x1024.size dpB dsB) Finset.univ)
      = rowsHalf (aWo0 m c) 1024 (by omega) := fun pB sB qB dpB dsB =>
  (readAt_write_lead1 (Val := Elt F) (View.whole cc0_scratch1) ![0, 1024, 0] pB qB.numel_eq g1 _).trans <| funext fun j =>
    part_apply m c _ _ _ _ _ _ _ (Fin.forall_fin_two.mpr ⟨rfl, (Nat.zero_add _).symm⟩)

include f0 in
theorem read_v201 : ∀ p s q,
    load cc0_scratch0 ![1, 0, 0] S1x1024x2048.size p
        (View.write (Elt F) (slab cc0_scratch0 ![1, 0, 0] S1x1024x2048.size S1024x2048 p s q) g0 (all m c main_arg3) Finset.univ)
      = lead1a (aWi1 m c) := fun p s q =>
  readAt_write_lead1 (Val := Elt F) (View.whole cc0_scratch0) ![1, 0, 0] p q.numel_eq g0 _

include f1 in
theorem read_v274 : ∀ p s q,
    load cc0_scratch1 ![1, 0, 0] S1x2048x1024.size p
        (View.write (Elt F) (slab cc0_scratch1 ![1, 0, 0] S1x2048x1024.size S2048x1024 p s q) g1 (all m c main_arg4) Finset.univ)
      = lead1b (aWo1 m c) := fun p s q =>
  readAt_write_lead1 (Val := Elt F) (View.whole cc0_scratch1) ![1, 0, 0] p q.numel_eq g1 _

include f0 in
theorem read_v430 : ∀ p s q,
    load cc0_scratch0 ![0, 0, 0] S1x1024x2048.size p
        (View.write (Elt F) (slab cc0_scratch0 ![0, 0, 0] S1x1024x2048.size S1024x2048 p s q) g0 (all m c main_arg5) Finset.univ)
      = lead1a (aWi2 m c) := fun p s q =>
  readAt_write_lead1 (Val := Elt F) (View.whole cc0_scratch0) ![0, 0, 0] p q.numel_eq g0 _

include f1 in
theorem read_v503 : ∀ p s q,
    load cc0_scratch1 ![0, 0, 0] S1x2048x1024.size p
        (View.write (Elt F) (slab cc0_scratch1 ![0, 0, 0] S1x2048x1024.size S2048x1024 p s q) g1 (all m c main_arg6) Finset.univ)
      = lead1b (aWo2 m c) := fun p s q =>
  readAt_write_lead1 (Val := Elt F) (View.whole cc0_scratch1) ![0, 0, 0] p q.numel_eq g1 _

end Cert.KernelIdeal.Mlp

end
-- ==== Proof.ReadsV.lean ====
import proofs.«900996_g7700000000000997_dist_mlpseq_tp1d_rep_bs_b64_d1024_h2048_v7x_i8_bf16_1_alg».proof.Proof.Vals
import proofs.«900996_g7700000000000997_dist_mlpseq_tp1d_rep_bs_b64_d1024_h2048_v7x_i8_bf16_1_alg».proof.Proof.Slots
import Idealize.ShloMosaic.Lib.Writes
import Idealize.ShloMosaic.Lib.Exec.Geometry
import Idealize.ShloMosaic.Lib.ValueIdx

noncomputable section

namespace Cert.KernelIdeal.Mlp

open Cert.KernelIdeal Cert.KernelIdeal.Gen
open Idealize.ShloMosaic Idealize.ShloMosaic.TcCoe Idealize.ShloMosaic.ValueIdx

variable {F : FTy → Type} [FloatOps F]

theorem zero2 : (![0, 0] : Fin 2 → ℕ) = fun _ => 0 := funext (Fin.forall_fin_two.mpr ⟨rfl, rfl⟩)

/-- One store of a whole buffer leaves what was stored, whatever the buffer held. -/
theorem writes_whole_of (b : Ref sig .tc) (g w : b.ty.Contents (Elt F)) (off : Fin b.ty.shape.rank → ℕ) (hoff : off = fun _ => 0)
    (h : ∀ a, off a + b.ty.shape.size a ≤ b.ty.shape.size a) :
    (Memref.whole b).view.writes (Elt F) g [⟨Rect.unit off b.ty.shape.size h, w⟩] = w := by
  rw [View.writes_singleton]
  exact Memref.write_access_unit_zero_univ (Elt F) b hoff h g w

theorem writes_whole (g w : (cc0_stg1_0 : Ref sig .tc).ty.Contents (Elt F))
    (h : ∀ a, (![0, 0] : Fin 2 → ℕ) a + S8x1024.size a ≤ S8x1024.size a) :
    (Memref.whole cc0_stg1_0).view.writes (Elt F) g [⟨Rect.unit (s := S8x1024) ![0, 0] S8x1024.size h, w⟩] = w :=
  writes_whole_of cc0_stg1_0 g w ![0, 0] zero2 h

variable (m : (ℓ : Loc nD τ sig) → Buf (Elt F) ℓ) (c : Dev nD)

/-- What a load of eight rows at `off` reads once the last partial product is stored whole. -/
abbrev rowsAt (off : Fin 2 → ℕ) (h : ∀ a, off a + S8x1024.size a ≤ S64x1024.size a)
    (hr : ∀ a, (![0, 0] : Fin 2 → ℕ) a + S64x1024.size a ≤ S64x1024.size a) :=
  View.readAt (Elt F) (Memref.whole cc0_scratch2).view (Rect.unit (s := S64x1024) off S8x1024.size h).toLoadRect
    ((Memref.whole cc0_scratch2).view.writes (Elt F) (Memref.whole cc0_scratch2).view.junk
      [⟨Rect.unit (s := S64x1024) ![0, 0] S64x1024.size hr, acc2 m c⟩])

/-- At the row offset `8 d` it reads the rows `8 d …` of what was stored. -/
theorem rows_at (d : Dev nD) (off : Fin 2 → ℕ) (hoff : off = ![8 * d.val, 0]) : ∀ h hr, rowsAt m c off h hr = rowsOf m c d := by
  subst hoff
  exact fun h hr => (congrArg (View.readAt (Elt F) _ _) (writes_whole_of cc0_scratch2 _ (acc2 m c) _ zero2 hr)).trans <| funext fun j =>
    congrArg (acc2 m c) (funext (Fin.forall_fin_two.mpr
      ⟨Fin.ext (congrArg (8 * d.val + ·) (Nat.one_mul _)), Fin.ext ((Nat.zero_add _).trans (Nat.one_mul _))⟩))

theorem rows_read' (o : Fin 8) (ho : o ≠ 0) : ∀ h hr, rowsAt m c (k0_off1 c (BitVec.ofNat 32 o.val)) h hr = rowsOf m c (xr c o) :=
  rows_at m c _ _ (off1_eq c o ho)

theorem mine_read' : ∀ h hr, rowsAt m c (k0_off2 c) h hr = rowsOf m c c := rows_at m c _ _ (k0_off2_eq c)

/-- A function of an index with one leading coordinate, fed the index rebuilt from its last two coordinates, is itself. -/
theorem lead_eta {α : Type} {n1 n2 : ℕ} (w : (⟨3, ![1, n1, n2]⟩ : Shape).Idx → α) :
    (fun j => w (ix3 (0 : Fin 1) ⟨(j 1).val, (j 1).isLt⟩ ⟨(j 2).val, (j 2).isLt⟩)) = w :=
  funext fun j => congrArg w ((congrArg (fun u : Fin 1 => ix3 u (j 1) (j 2)) (Subsingleton.elim (0 : Fin 1) (j 0))).trans (eq_ix3 j).symm)

theorem landed_S (d : Dev nD) (i : Fin 12) :
    (fun j : S1x64x512.Idx => SVv m d i (ix2 (⟨(j 1).val, (j 1).isLt⟩ : Fin 64) (⟨(j 2).val, (j 2).isLt⟩ : Fin 512))) = Sv m i d :=
  lead_eta _

theorem landed_Q (d : Dev nD) (o : Fin 8) :
    (fun j : S1x8x1024.Idx => RVv m d o (ix2 (⟨(j 1).val, (j 1).isLt⟩ : Fin 8) (⟨(j 2).val, (j 2).isLt⟩ : Fin 1024))) = Q m o d :=
  lead_eta _

/-- A slot of a send buffer read after a list of writes whose last one filled it reads that write's payload. -/
theorem read_sslot_head_at (i : Fin 12) (n : ℕ) (hn : n = i.val) (f : Buf (Elt F) ((c : Thread nD τ).loc cc0_scratch3))
    (w : S1x64x512.Idx → Elt F .bf16)
    (L : List (View.Piece (Elt F) (cc0_scratch3 : Ref sig .tc).ty.shape (cc0_scratch3 : Ref sig .tc).ty.elt))
    (h : ∀ a, (![n, 0, 0] : Fin 3 → ℕ) a + S1x64x512.size a ≤ S12x64x512.size a) :
    (sslot i).view.read (Elt F)
        ((Memref.whole cc0_scratch3).view.writes (Elt F) f (⟨Rect.unit (s := S12x64x512) ![n, 0, 0] S1x64x512.size h, w⟩ :: L))
      = fun j => w (ix3 (0 : Fin 1) (⟨(j 0).val, idx2_lt0 j⟩ : Fin 64) (⟨(j 1).val, idx2_lt1 j⟩ : Fin 512)) := by
  subst hn
  exact store_sslot c i ((Memref.whole cc0_scratch3).view.writes (Elt F) f L) w

theorem read_qslot_head_at (o : Fin 8) (n : ℕ) (hn : n = o.val) (f : Buf (Elt F) ((c : Thread nD τ).loc cc0_scratch5))
    (w : S1x8x1024.Idx → Elt F .bf16)
    (L : List (View.Piece (Elt F) (cc0_scratch5 : Ref sig .tc).ty.shape (cc0_scratch5 : Ref sig .tc).ty.elt))
    (h : ∀ a, (![n, 0, 0] : Fin 3 → ℕ) a + S1x8x1024.size a ≤ S8x8x1024.size a) :
    (qslot o).view.read (Elt F)
        ((Memref.whole cc0_scratch5).view.writes (Elt F) f (⟨Rect.unit (s := S8x8x1024) ![n, 0, 0] S1x8x1024.size h, w⟩ :: L))
      = fun j => w (ix3 (0 : Fin 1) (⟨(j 0).val, idx2_lt0 j⟩ : Fin 8) (⟨(j 1).val, idx2_lt1 j⟩ : Fin 1024)) := by
  subst hn
  exact store_qslot c o ((Memref.whole cc0_scratch5).view.writes (Elt F) f L) w

theorem pay40_same : k0_pay40 (F := F) = k0_pay39 := rfl
theorem pay41_same : k0_pay41 (F := F) = k0_pay39 := rfl
theorem pay42_same : k0_pay42 (F := F) = k0_pay39 := rfl
theorem pay43_same : k0_pay43 (F := F) = k0_pay39 := rfl
theorem pay44_same : k0_pay44 (F := F) = k0_pay39 := rfl
theorem pay45_same : k0_pay45 (F := F) = k0_pay39 := rfl

end Cert.KernelIdeal.Mlp

end
-- ==== Proof.Body.lean ====
import proofs.«900996_g7700000000000997_dist_mlpseq_tp1d_rep_bs_b64_d1024_h2048_v7x_i8_bf16_1_alg».proof.Proof.Tables
import proofs.«900996_g7700000000000997_dist_mlpseq_tp1d_rep_bs_b64_d1024_h2048_v7x_i8_bf16_1_alg».proof.Proof.Open
import proofs.«900996_g7700000000000997_dist_mlpseq_tp1d_rep_bs_b64_d1024_h2048_v7x_i8_bf16_1_alg».proof.Proof.Slots
import proofs.«900996_g7700000000000997_dist_mlpseq_tp1d_rep_bs_b64_d1024_h2048_v7x_i8_bf16_1_alg».proof.Proof.BodyCtx
import proofs.«900996_g7700000000000997_dist_mlpseq_tp1d_rep_bs_b64_d1024_h2048_v7x_i8_bf16_1_alg».proof.Proof.Access
import proofs.«900996_g7700000000000997_dist_mlpseq_tp1d_rep_bs_b64_d1024_h2048_v7x_i8_bf16_1_alg».proof.Proof.Sends
import proofs.«900996_g7700000000000997_dist_mlpseq_tp1d_rep_bs_b64_d1024_h2048_v7x_i8_bf16_1_alg».proof.Proof.Ledger
import proofs.«900996_g7700000000000997_dist_mlpseq_tp1d_rep_bs_b64_d1024_h2048_v7x_i8_bf16_1_alg».proof.Proof.Close
import proofs.«900996_g7700000000000997_dist_mlpseq_tp1d_rep_bs_b64_d1024_h2048_v7x_i8_bf16_1_alg».proof.Proof.Oblig
import proofs.«900996_g7700000000000997_dist_mlpseq_tp1d_rep_bs_b64_d1024_h2048_v7x_i8_bf16_1_alg».proof.Proof.ReadsW
import proofs.«900996_g7700000000000997_dist_mlpseq_tp1d_rep_bs_b64_d1024_h2048_v7x_i8_bf16_1_alg».proof.Proof.ReadsV

set_option maxRecDepth 16384

noncomputable section

namespace Cert.KernelIdeal.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)

/-- An entailment out of `P' ∗ A`, with `P` equal to `P'`, as a wand out of `P` alone. -/
theorem wand_of_eq {P P' A R : sProp 𝕄} (h : P = P') (w : P' ∗ A ⊢ R) : P ⊢ A -∗ R := (Entails.of_eq h).trans (BIClass.wand_intro w)

/-- A send slot reads back what the last store put into it, whatever was stored into the buffer before. -/
theorem sv_sent (c : Dev nD) (i : Fin 12) (n : ℕ) (hn : n = i.val) {f : Buf (Elt F) ((c : Thread nD τ).loc cc0_scratch3)}
    {w : S1x64x512.Idx → Elt F .bf16} {T : List (View.Piece (Elt F) (cc0_scratch3 : Ref sig .tc).ty.shape (cc0_scratch3 : Ref sig .tc).ty.elt)}
    {h : ∀ a, (![n, 0, 0] : Fin 3 → ℕ) a + S1x64x512.size a ≤ S12x64x512.size a} (hw : w = Sv m i c) :
    (sslot i).view.read (Elt F) ((Memref.whole cc0_scratch3).view.writes (Elt F) f (⟨Rect.unit (s := S12x64x512) ![n, 0, 0] S1x64x512.size h, w⟩ :: T)) = SVv m c i := by
  rw [read_sslot_head_at c i n hn, hw]; rfl

/-- The same for a slot of the reduce-scatter's send buffer. -/
theorem rv_sent (c : Dev nD) (o : Fin 8) (n : ℕ) (hn : n = o.val) {f : Buf (Elt F) ((c : Thread nD τ).loc cc0_scratch5)}
    {w : S1x8x1024.Idx → Elt F .bf16} {T : List (View.Piece (Elt F) (cc0_scratch5 : Ref sig .tc).ty.shape (cc0_scratch5 : Ref sig .tc).ty.elt)}
    {h : ∀ a, (![n, 0, 0] : Fin 3 → ℕ) a + S1x8x1024.size a ≤ S8x8x1024.size a} (hw : w = Q m o c) :
    (qslot o).view.read (Elt F) ((Memref.whole cc0_scratch5).view.writes (Elt F) f (⟨Rect.unit (s := S8x8x1024) ![n, 0, 0] S1x8x1024.size h, w⟩ :: T)) = RVv m c o := by
  rw [read_qslot_head_at c o n hn, hw]; rfl

instance closedOff_off1_6 (c : Dev nD) : ClosedOff (k0_off1 c 6#32) := ⟨![8 * (xr c 6).val, 0], off1_eq c 6 (by decide)⟩
instance closedOff_off1_5 (c : Dev nD) : ClosedOff (k0_off1 c 5#32) := ⟨![8 * (xr c 5).val, 0], off1_eq c 5 (by decide)⟩
instance closedOff_off1_7 (c : Dev nD) : ClosedOff (k0_off1 c 7#32) := ⟨![8 * (xr c 7).val, 0], off1_eq c 7 (by decide)⟩
instance closedOff_off1_2 (c : Dev nD) : ClosedOff (k0_off1 c 2#32) := ⟨![8 * (xr c 2).val, 0], off1_eq c 2 (by decide)⟩
instance closedOff_off1_1 (c : Dev nD) : ClosedOff (k0_off1 c 1#32) := ⟨![8 * (xr c 1).val, 0], off1_eq c 1 (by decide)⟩
instance closedOff_off1_3 (c : Dev nD) : ClosedOff (k0_off1 c 3#32) := ⟨![8 * (xr c 3).val, 0], off1_eq c 3 (by decide)⟩
instance closedOff_off1_4 (c : Dev nD) : ClosedOff (k0_off1 c 4#32) := ⟨![8 * (xr c 4).val, 0], off1_eq c 4 (by decide)⟩

attribute [local sl_rounds] duties_bar duties_exit duties_send duties_recv duties_rss duties_rsr amount_bar amount_exit amount_send amount_recv amount_rss amount_rsr
  expect_bar expect_exit expect_send expect_recv expect_rss expect_rsr payload_exit

set_option maxHeartbeats 16000000 in
set_option sl_exec.dmaWindow true in
set_option sl_exec.dmaWindowSet true in
/-- One device's thread, from entry to return: the handshake with the seven partners, three layers each ending in an all-reduce over the partners `c ⊕ 1`, `c ⊕ 3`, `c ⊕ 4` in two halves, the reduce-scatter of the last product's rows, and the sum of the eight row blocks; every value is named as a term of the argument arrays. -/
theorem sound_body (κ : GSem nD τ sig → ℕ) (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (f5 : Buf (Elt F) ((c : Thread nD τ).loc cc0_scratch5))
    (f6 : Buf (Elt F) ((c : Thread nD τ).loc cc0_scratch6)) (g1 : Buf (Elt F) ((c : Thread nD τ).loc cc0_stg1_0))
    (Kt : PUnit → sProp 𝕄) :
    iprop(bodyCtx (SVv m) (RVv m) m κ c W f0 f1 f2 f3 f4 f5 f6 g1 ∗ (bodyPost (SVv m) (RVv m) m (OVv m) c -∗ Kt ⟨⟩))
      ⊢ wp frame (wpE (defs₀ (F := F)) 𝒱₀ (c : Thread nD τ) none) Set.univ (Gen.bodyAt0 (F := F) t0_0) Kt := by

  have hled : ∀ (sm : SemLoc sig) (O : CellTallies nD τ sig Unit), AllAbove (lv ((c : Thread nD τ), sm) () + 1) O →
      ((levAts L lv : sProp 𝕄) ⊢ MayWait (c : Thread nD τ) sm () O) := fun sm O h => mayWait_of_above c sm O h
  unfold bodyCtx owed₀
  iintro ⟨⟨Hw1, Hw2, Hw3, Hw4, Hw5, Hw6, Hs0, Hs1, Hs2, Hs3, Hs4, Hs5, Hs6, Hx, Hout, Hq2, Hq3, Hq4, Hq5, Hq6, Hq7, Hq8, Hq9, Hq34, Hq42, #HIbar, #HIexit, #HIs0, #HIr0, #HIs1, #HIr1, #HIs2, #HIr2, #HIs3, #HIr3, #HIs4, #HIr4, #HIs5, #HIr5, #HIs6, #HIr6, #HIs7, #HIr7, #HIs8, #HIr8, #HIs9, #HIr9, #HIs10, #HIr10, #HIs11, #HIr11, #HIqs1, #HIqr1, #HIqs2, #HIqr2, #HIqs3, #HIqr3, #HIqs4, #HIqr4, #HIqs5, #HIqr5, #HIqs6, #HIqr6, #HIqs7, #HIqr7, #HIB1, #HIE1, #HIQ1, #HIB2, #HIE2, #HIQ2, #HIB3, #HIE3, #HIQ3, #HIB4, #HIE4, #HIQ4, #HIB5, #HIE5, #HIQ5, #HIB6, #HIE6, #HIQ6, #HIB7, #HIE7, #HIQ7, #HIR0, #HIR1, #HIR2, #HIR3, #HIR4, #HIR5, #HIR6, #HIR7, #HIR8, #HIR9, #HIR10, #HIR11, #HrB1, #HrE1, #HrQ1, #Hrqs1, #HrB2, #HrE2, #HrQ2, #Hrqs2, #HrB3, #HrE3, #HrQ3, #Hrqs3, #HrB4, #HrE4, #HrQ4, #Hrqs4, #HrB5, #HrE5, #HrQ5, #Hrqs5, #HrB6, #HrE6, #HrQ6, #Hrqs6, #HrB7, #HrE7, #HrQ7, #Hrqs7, #HrR0, #Hrs0, #HrR1, #Hrs1, #HrR2, #Hrs2, #HrR3, #Hrs3, #HrR4, #Hrs4, #HrR5, #Hrs5, #HrR6, #Hrs6, #HrR7, #Hrs7, #HrR8, #Hrs8, #HrR9, #Hrs9, #HrR10, #Hrs10, #HrR11, #Hrs11, HtB1, HtE1, HtQ1, Htqs1, HtB2, HtE2, HtQ2, Htqs2, HtB3, HtE3, HtQ3, Htqs3, HtB4, HtE4, HtQ4, Htqs4, HtB5, HtE5, HtQ5, Htqs5, HtB6, HtE6, HtQ6, Htqs6, HtB7, HtE7, HtQ7, Htqs7, HtR0, Hts0, HtR1, Hts1, HtR2, Hts2, HtR3, Hts3, HtR4, Hts4, HtR5, Hts5, HtR6, Hts6, HtR7, Hts7, HtR8, Hts8, HtR9, Hts9, HtR10, Hts10, HtR11, Hts11, Habar, Haexit, Has0, Har0, Has1, Har1, Has2, Har2, Has3, Har3, Has4, Har4, Has5, Har5, Has6, Har6, Has7, Har7, Has8, Har8, Has9, Har9, Has10, Har10, Has11, Har11, Haqs1, Haqr1, Haqs2, Haqr2, Haqs3, Haqr3, Haqs4, Haqr4, Haqs5, Haqr5, Haqs6, Haqr6, Haqs7, Haqr7, Hcbar, Hcexit, Hcr0, Hcr1, Hcr2, Hcr3, Hcr4, Hcr5, Hcr6, Hcr7, Hcr8, Hcr9, Hcr10, Hcr11, Hcq1, Hcq2, Hcq3, Hcq4, Hcq5, Hcq6, Hcq7, HO, #Hlev⟩, Hk⟩

  ihave Hs4' := (Entails.of_eq (whole_view c cc0_scratch4 f4).symm) $$ Hs4
  ihave Hs6' := (Entails.of_eq (whole_view c cc0_scratch6 f6).symm) $$ Hs6
  ihave Hbp := (barPays_intro (F := F) c) $$ [Hs4' Hs6']
  · isplitl [Hs4']; · iexists f4; iexact Hs4'
    iexists f6; iexact Hs6'
  icases Hbp with ⟨HpayB1, HpayB2, HpayB3, HpayB4, HpayB5, HpayB6, HpayB7, Hp0⟩
  ihave HpayB1 := (Entails.of_eq (payload_bar (SVv m) (RVv m) (xr c 1) 1).symm) $$ HpayB1
  ihave HpayB2 := (Entails.of_eq (payload_bar (SVv m) (RVv m) (xr c 2) 2).symm) $$ HpayB2
  ihave HpayB3 := (Entails.of_eq (payload_bar (SVv m) (RVv m) (xr c 3) 3).symm) $$ HpayB3
  ihave HpayB4 := (Entails.of_eq (payload_bar (SVv m) (RVv m) (xr c 4) 4).symm) $$ HpayB4
  ihave HpayB5 := (Entails.of_eq (payload_bar (SVv m) (RVv m) (xr c 5) 5).symm) $$ HpayB5
  ihave HpayB6 := (Entails.of_eq (payload_bar (SVv m) (RVv m) (xr c 6) 6).symm) $$ HpayB6
  ihave HpayB7 := (Entails.of_eq (payload_bar (SVv m) (RVv m) (xr c 7) 7).symm) $$ HpayB7
  unfold bodyAt0
  sl_unfold [cc0_body]
  sl_exec_parts (disch := above_tac)

  have hbar := rest_bar (SVv m) (RVv m) c
  rw [Finset.sdiff_empty, duties_bar] at hbar
  ihave Hbp := (Entails.of_eq hbar) $$ Habar_pay1
  icases Hbp with ⟨Hb1, Hb2, Hb3, Hb4, Hb5, Hb6, Hb7⟩
  ihave Hb1 := (barPay_1 (F := F) c).1 $$ Hb1
  icases Hb1 with ⟨HP1, HD0, HD1, HD6, HD7⟩
  ihave Hb3 := (barPay_3 (F := F) c).1 $$ Hb3
  icases Hb3 with ⟨HP3, HD2, HD3, HD8, HD9⟩
  ihave Hb4 := (barPay_4 (F := F) c).1 $$ Hb4
  icases Hb4 with ⟨HP4, HD4, HD5, HD10, HD11⟩
  ihave HP2 := (barPay_o (F := F) c 2 slotsOf_2).1 $$ Hb2
  ihave HP5 := (barPay_o (F := F) c 5 slotsOf_5).1 $$ Hb5
  ihave HP6 := (barPay_o (F := F) c 6 slotsOf_6).1 $$ Hb6
  ihave HP7 := (barPay_o (F := F) c 7 slotsOf_7).1 $$ Hb7
  unfold slotAny
  have e_r : sound_body.sl.r m c = xb0 m c := by
    delta sound_body.sl.r
    unfold xb0
    exact congrArg k0_pay1 (read_x m c _)
  have e_v53 : sound_body.sl.v53 m c f0 = colsHalf (aWi0 m c) 0 (by omega) := by
    delta sound_body.sl.v53 sound_body.sl.dma0 sound_body.sl.dma0_1
    exact read_v53 m c f0 ..
  have e_r1 : sound_body.sl.r_1 m c f0 = h0a m c := by
    delta sound_body.sl.r_1
    simp only [h0a, e_r, e_v53]
  have e_v65 : sound_body.sl.v65 m c f0 = colsHalf (aWi0 m c) 1024 (by omega) := by
    delta sound_body.sl.v65 sound_body.sl.dma0 sound_body.sl.dma0_1
    exact read_v65 m c f0 ..
  have e_r2 : sound_body.sl.r_2 m c f0 = h0b m c := by
    delta sound_body.sl.r_2
    simp only [h0b, e_r, e_v65]
  have e_v77 : sound_body.sl.v77 m c f1 = rowsHalf (aWo0 m c) 0 (by omega) := by
    delta sound_body.sl.v77 sound_body.sl.dma0_2 sound_body.sl.dma0_3
    exact read_v77 m c f1 ..
  have e_v86 : sound_body.sl.v86 m c f1 = rowsHalf (aWo0 m c) 1024 (by omega) := by
    delta sound_body.sl.v86 sound_body.sl.dma0_2 sound_body.sl.dma0_3
    exact read_v86 m c f1 ..
  have pS0 : k0_pay7 (sound_body.sl.r_1 m c f0) (sound_body.sl.r_2 m c f0) (sound_body.sl.v77 m c f1) (sound_body.sl.v86 m c f1) = S0 m c := by
    simp only [S0, e_r1, e_r2, e_v77, e_v86]

  ihave Hsp := (carve_sslot (F := F) c 0 _ (by exact sslot_sub_rest 0 [] (by decide)) _).1 $$ Hs3
  icases Hsp with ⟨Hsl0, Hs3⟩
  icases HD0 with ⟨%fd0, HD0⟩
  iapply (wp_send_x (SVv m) (RVv m) c 0 _ (dev8_eq c) _ fd0 (sv_sent m c 0 0 rfl pS0) _ _) $$ [HIs0 HIR0 Hsl0 HD0 HO Hts0 Hrs0 HtR0 HrR0]
  · icombine HIs0 HIR0 Hsl0 HD0 HO Hts0 Hrs0 HtR0 HrR0 as Hp; iexact Hp
  iintro ⟨Hcs0, HO⟩
  sl_exec_parts (disch := above_tac)
  have e_r4 : sound_body.sl.r_4 m c f0 f1 = b00 m c := by
    delta sound_body.sl.r_4
    simp only [b00, e_r1, e_r2, e_v77, e_v86]
  have pS1 : k0_pay8 (sound_body.sl.r_4 m c f0 f1) = S1 m c := by
    simp only [S1, e_r4]

  ihave Hsp := (carve_sslot (F := F) c 1 _ (by exact sslot_sub_rest 1 [0] (by decide)) _).1 $$ Hs3
  icases Hsp with ⟨Hsl1, Hs3⟩
  icases HD1 with ⟨%fd1, HD1⟩
  iapply (wp_send_x (SVv m) (RVv m) c 1 _ (dev9_eq c) _ fd1 (sv_sent m c 1 1 rfl pS1) _ _) $$ [HIs1 HIR1 Hsl1 HD1 HO Hts1 Hrs1 HtR1 HrR1]
  · icombine HIs1 HIR1 Hsl1 HD1 HO Hts1 Hrs1 HtR1 HrR1 as Hp; iexact Hp
  iintro ⟨Hcs1, HO⟩
  sl_exec_parts (disch := above_tac)

  iapply (wand_of_eq (payload_recv (SVv m) (RVv m) c 0 0) (wp_load_landed (F := F) c 0 _)) $$ Har0_pay1
  iintro HLa0
  sl_exec_parts (disch := above_tac)
  have e_r3 : sound_body.sl.r_3 m c f0 f1 = a00 m c := by
    delta sound_body.sl.r_3
    simp only [a00, e_r1, e_r2, e_v77, e_v86]
  have pS2 : k0_pay10 (sound_body.sl.r_3 m c f0 f1) (fun j => SVv m (xr c (maskOf 0)) 0 (ValueIdx.ix2 (⟨(j 1).val, (j 1).isLt⟩ : Fin 64) (⟨(j 2).val, (j 2).isLt⟩ : Fin 512))) = S2 m c := by
    simp only [landed_S, landed_Q, e_r3] <;> rfl

  ihave Hsp := (carve_sslot (F := F) c 2 _ (by exact sslot_sub_rest 2 [0, 1] (by decide)) _).1 $$ Hs3
  icases Hsp with ⟨Hsl2, Hs3⟩
  icases HD2 with ⟨%fd2, HD2⟩
  iapply (wp_send_x (SVv m) (RVv m) c 2 _ (dev10_eq c) _ fd2 (sv_sent m c 2 2 rfl pS2) _ _) $$ [HIs2 HIR2 Hsl2 HD2 HO Hts2 Hrs2 HtR2 HrR2]
  · icombine HIs2 HIR2 Hsl2 HD2 HO Hts2 Hrs2 HtR2 HrR2 as Hp; iexact Hp
  iintro ⟨Hcs2, HO⟩
  sl_exec_parts (disch := above_tac)

  iapply (wand_of_eq (payload_recv (SVv m) (RVv m) c 1 0) (wp_load_landed (F := F) c 1 _)) $$ Har1_pay1
  iintro HLa1
  sl_exec_parts (disch := above_tac)
  have pS3 : k0_pay12 (sound_body.sl.r_4 m c f0 f1) (fun j => SVv m (xr c (maskOf 1)) 1 (ValueIdx.ix2 (⟨(j 1).val, (j 1).isLt⟩ : Fin 64) (⟨(j 2).val, (j 2).isLt⟩ : Fin 512))) = S3 m c := by
    simp only [landed_S, landed_Q, e_r4] <;> rfl

  ihave Hsp := (carve_sslot (F := F) c 3 _ (by exact sslot_sub_rest 3 [0, 1, 2] (by decide)) _).1 $$ Hs3
  icases Hsp with ⟨Hsl3, Hs3⟩
  icases HD3 with ⟨%fd3, HD3⟩
  iapply (wp_send_x (SVv m) (RVv m) c 3 _ (dev11_eq c) _ fd3 (sv_sent m c 3 3 rfl pS3) _ _) $$ [HIs3 HIR3 Hsl3 HD3 HO Hts3 Hrs3 HtR3 HrR3]
  · icombine HIs3 HIR3 Hsl3 HD3 HO Hts3 Hrs3 HtR3 HrR3 as Hp; iexact Hp
  iintro ⟨Hcs3, HO⟩
  sl_exec_parts (disch := above_tac)

  iapply (wand_of_eq (payload_recv (SVv m) (RVv m) c 2 0) (wp_load_landed (F := F) c 2 _)) $$ Har2_pay1
  iintro HLa2
  sl_exec_parts (disch := above_tac)
  have e_r5 : sound_body.sl.r_5 m c f0 f1 = a01 m c := by
    delta sound_body.sl.r_5
    simp only [landed_S, landed_Q, e_r3] <;> rfl
  have pS4 : k0_pay15 (sound_body.sl.r_5 m c f0 f1) (fun j => SVv m (xr c (maskOf 2)) 2 (ValueIdx.ix2 (⟨(j 1).val, (j 1).isLt⟩ : Fin 64) (⟨(j 2).val, (j 2).isLt⟩ : Fin 512))) = S4 m c := by
    simp only [landed_S, landed_Q, e_r5] <;> rfl

  ihave Hsp := (carve_sslot (F := F) c 4 _ (by exact sslot_sub_rest 4 [0, 1, 2, 3] (by decide)) _).1 $$ Hs3
  icases Hsp with ⟨Hsl4, Hs3⟩
  icases HD4 with ⟨%fd4, HD4⟩
  iapply (wp_send_x (SVv m) (RVv m) c 4 _ (dev12_eq c) _ fd4 (sv_sent m c 4 4 rfl pS4) _ _) $$ [HIs4 HIR4 Hsl4 HD4 HO Hts4 Hrs4 HtR4 HrR4]
  · icombine HIs4 HIR4 Hsl4 HD4 HO Hts4 Hrs4 HtR4 HrR4 as Hp; iexact Hp
  iintro ⟨Hcs4, HO⟩
  sl_exec_parts (disch := above_tac)

  iapply (wand_of_eq (payload_recv (SVv m) (RVv m) c 3 0) (wp_load_landed (F := F) c 3 _)) $$ Har3_pay1
  iintro HLa3
  sl_exec_parts (disch := above_tac)
  have e_r6 : sound_body.sl.r_6 m c f0 f1 = b01 m c := by
    delta sound_body.sl.r_6
    simp only [landed_S, landed_Q, e_r4] <;> rfl
  have pS5 : k0_pay17 (sound_body.sl.r_6 m c f0 f1) (fun j => SVv m (xr c (maskOf 3)) 3 (ValueIdx.ix2 (⟨(j 1).val, (j 1).isLt⟩ : Fin 64) (⟨(j 2).val, (j 2).isLt⟩ : Fin 512))) = S5 m c := by
    simp only [landed_S, landed_Q, e_r6] <;> rfl

  ihave Hsp := (carve_sslot (F := F) c 5 _ (by exact sslot_sub_rest 5 [0, 1, 2, 3, 4] (by decide)) _).1 $$ Hs3
  icases Hsp with ⟨Hsl5, Hs3⟩
  icases HD5 with ⟨%fd5, HD5⟩
  iapply (wp_send_x (SVv m) (RVv m) c 5 _ (dev13_eq c) _ fd5 (sv_sent m c 5 5 rfl pS5) _ _) $$ [HIs5 HIR5 Hsl5 HD5 HO Hts5 Hrs5 HtR5 HrR5]
  · icombine HIs5 HIR5 Hsl5 HD5 HO Hts5 Hrs5 HtR5 HrR5 as Hp; iexact Hp
  iintro ⟨Hcs5, HO⟩
  sl_exec_parts (disch := above_tac)

  iapply (wand_of_eq (payload_recv (SVv m) (RVv m) c 4 0) (wp_load_landed (F := F) c 4 _)) $$ Har4_pay1
  iintro HLa4
  sl_exec_parts (disch := above_tac)

  iapply (wand_of_eq (payload_recv (SVv m) (RVv m) c 5 0) (wp_load_landed (F := F) c 5 _)) $$ Har5_pay1
  iintro HLa5
  sl_exec_parts (disch := above_tac)
  have e_v201 : sound_body.sl.v201 m c f0 = lead1a (aWi1 m c) := by
    delta sound_body.sl.v201 sound_body.sl.dma0 sound_body.sl.dma0_1 sound_body.sl.dma5
    exact read_v201 m c f0 ..
  have e_r7 : sound_body.sl.r_7 m c f0 = k0_pay13 (lead1a (aWi1 m c)) := by
    delta sound_body.sl.r_7
    simp only [e_v201]
  have e_r9 : sound_body.sl.r_9 m c f0 f1 = b02 m c := by
    delta sound_body.sl.r_9
    simp only [landed_S, landed_Q, e_r6] <;> rfl
  have e_v274 : sound_body.sl.v274 m c f1 = lead1b (aWo1 m c) := by
    delta sound_body.sl.v274 sound_body.sl.dma0_2 sound_body.sl.dma0_3 sound_body.sl.dma5_1
    exact read_v274 m c f1 ..
  have e_r10 : sound_body.sl.r_10 m c f1 = k0_pay18 (lead1b (aWo1 m c)) := by
    delta sound_body.sl.r_10
    simp only [e_v274]
  have e_r8 : sound_body.sl.r_8 m c f0 f1 = a02 m c := by
    delta sound_body.sl.r_8
    simp only [landed_S, landed_Q, e_r5] <;> rfl
  have e_r11 : sound_body.sl.r_11 m c f0 f1 = a03 m c := by
    delta sound_body.sl.r_11
    simp only [landed_S, landed_Q, e_r8] <;> rfl
  have e_r12 : sound_body.sl.r_12 m c f0 f1 = acc1 m c := by
    delta sound_body.sl.r_12
    simp only [landed_S, landed_Q, e_r7, e_r9, e_r10, e_r11] <;> rfl
  have pS6 : k0_pay23 (sound_body.sl.r_12 m c f0 f1) = S6 m c := by
    simp only [S6, e_r12]

  ihave Hsp := (carve_sslot (F := F) c 6 _ (by exact sslot_sub_rest 6 [0, 1, 2, 3, 4, 5] (by decide)) _).1 $$ Hs3
  icases Hsp with ⟨Hsl6, Hs3⟩
  icases HD6 with ⟨%fd6, HD6⟩
  iapply (wp_send_x (SVv m) (RVv m) c 6 _ (dev14_eq c) _ fd6 (sv_sent m c 6 6 rfl pS6) _ _) $$ [HIs6 HIR6 Hsl6 HD6 HO Hts6 Hrs6 HtR6 HrR6]
  · icombine HIs6 HIR6 Hsl6 HD6 HO Hts6 Hrs6 HtR6 HrR6 as Hp; iexact Hp
  iintro ⟨Hcs6, HO⟩
  sl_exec_parts (disch := above_tac)
  have pS7 : k0_pay24 (sound_body.sl.r_12 m c f0 f1) = S7 m c := by
    simp only [S7, e_r12]

  ihave Hsp := (carve_sslot (F := F) c 7 _ (by exact sslot_sub_rest 7 [0, 1, 2, 3, 4, 5, 6] (by decide)) _).1 $$ Hs3
  icases Hsp with ⟨Hsl7, Hs3⟩
  icases HD7 with ⟨%fd7, HD7⟩
  iapply (wp_send_x (SVv m) (RVv m) c 7 _ (dev15_eq c) _ fd7 (sv_sent m c 7 7 rfl pS7) _ _) $$ [HIs7 HIR7 Hsl7 HD7 HO Hts7 Hrs7 HtR7 HrR7]
  · icombine HIs7 HIR7 Hsl7 HD7 HO Hts7 Hrs7 HtR7 HrR7 as Hp; iexact Hp
  iintro ⟨Hcs7, HO⟩
  sl_exec_parts (disch := above_tac)

  iapply (wand_of_eq (payload_recv (SVv m) (RVv m) c 6 0) (wp_load_landed (F := F) c 6 _)) $$ Har6_pay1
  iintro HLa6
  sl_exec_parts (disch := above_tac)
  have e_r13 : sound_body.sl.r_13 m c f0 f1 = a10 m c := by
    delta sound_body.sl.r_13
    simp only [a10, e_r12]
  have e_r16 : sound_body.sl.r_16 m c f0 f1 = k0_pay26 (a10 m c) (S6 m (xr c 1)) := by
    delta sound_body.sl.r_16
    simp only [landed_S, landed_Q, e_r13] <;> rfl
  have pS8 : sound_body.sl.v382 m c f0 f1 = S8 m c := by
    delta sound_body.sl.v382
    simp only [S8, k0_pay27, e_r16]

  ihave Hsp := (carve_sslot (F := F) c 8 _ (by exact sslot_sub_rest 8 [0, 1, 2, 3, 4, 5, 6, 7] (by decide)) _).1 $$ Hs3
  icases Hsp with ⟨Hsl8, Hs3⟩
  icases HD8 with ⟨%fd8, HD8⟩
  iapply (wp_send_x (SVv m) (RVv m) c 8 _ (dev16_eq c) _ fd8 (sv_sent m c 8 8 rfl pS8) _ _) $$ [HIs8 HIR8 Hsl8 HD8 HO Hts8 Hrs8 HtR8 HrR8]
  · icombine HIs8 HIR8 Hsl8 HD8 HO Hts8 Hrs8 HtR8 HrR8 as Hp; iexact Hp
  iintro ⟨Hcs8, HO⟩
  sl_exec_parts (disch := above_tac)

  iapply (wand_of_eq (payload_recv (SVv m) (RVv m) c 7 0) (wp_load_landed (F := F) c 7 _)) $$ Har7_pay1
  iintro HLa7
  sl_exec_parts (disch := above_tac)
  have e_r14 : sound_body.sl.r_14 m c f0 f1 = b10 m c := by
    delta sound_body.sl.r_14
    simp only [b10, e_r12]
  have pS9 : k0_pay29 (sound_body.sl.r_14 m c f0 f1) (fun j => SVv m (xr c (maskOf 7)) 7 (ValueIdx.ix2 (⟨(j 1).val, (j 1).isLt⟩ : Fin 64) (⟨(j 2).val, (j 2).isLt⟩ : Fin 512))) = S9 m c := by
    simp only [landed_S, landed_Q, e_r14] <;> rfl

  ihave Hsp := (carve_sslot (F := F) c 9 _ (by exact sslot_sub_rest 9 [0, 1, 2, 3, 4, 5, 6, 7, 8] (by decide)) _).1 $$ Hs3
  icases Hsp with ⟨Hsl9, Hs3⟩
  icases HD9 with ⟨%fd9, HD9⟩
  iapply (wp_send_x (SVv m) (RVv m) c 9 _ (dev17_eq c) _ fd9 (sv_sent m c 9 9 rfl pS9) _ _) $$ [HIs9 HIR9 Hsl9 HD9 HO Hts9 Hrs9 HtR9 HrR9]
  · icombine HIs9 HIR9 Hsl9 HD9 HO Hts9 Hrs9 HtR9 HrR9 as Hp; iexact Hp
  iintro ⟨Hcs9, HO⟩
  sl_exec_parts (disch := above_tac)

  iapply (wand_of_eq (payload_recv (SVv m) (RVv m) c 8 0) (wp_load_landed (F := F) c 8 _)) $$ Har8_pay1
  iintro HLa8
  sl_exec_parts (disch := above_tac)
  have e_r15 : sound_body.sl.r_15 m c f0 f1 = a11 m c := by
    delta sound_body.sl.r_15
    simp only [landed_S, landed_Q, e_r13] <;> rfl
  have pS10 : k0_pay32 (sound_body.sl.r_15 m c f0 f1) (fun j => SVv m (xr c (maskOf 8)) 8 (ValueIdx.ix2 (⟨(j 1).val, (j 1).isLt⟩ : Fin 64) (⟨(j 2).val, (j 2).isLt⟩ : Fin 512))) = S10 m c := by
    simp only [landed_S, landed_Q, e_r15] <;> rfl

  ihave Hsp := (carve_sslot (F := F) c 10 _ (by exact sslot_sub_rest 10 [0, 1, 2, 3, 4, 5, 6, 7, 8, 9] (by decide)) _).1 $$ Hs3
  icases Hsp with ⟨Hsl10, Hs3⟩
  icases HD10 with ⟨%fd10, HD10⟩
  iapply (wp_send_x (SVv m) (RVv m) c 10 _ (dev18_eq c) _ fd10 (sv_sent m c 10 10 rfl pS10) _ _) $$ [HIs10 HIR10 Hsl10 HD10 HO Hts10 Hrs10 HtR10 HrR10]
  · icombine HIs10 HIR10 Hsl10 HD10 HO Hts10 Hrs10 HtR10 HrR10 as Hp; iexact Hp
  iintro ⟨Hcs10, HO⟩
  sl_exec_parts (disch := above_tac)

  iapply (wand_of_eq (payload_recv (SVv m) (RVv m) c 9 0) (wp_load_landed (F := F) c 9 _)) $$ Har9_pay1
  iintro HLa9
  sl_exec_parts (disch := above_tac)
  have e_r17 : sound_body.sl.r_17 m c f0 f1 = b11 m c := by
    delta sound_body.sl.r_17
    simp only [landed_S, landed_Q, e_r14] <;> rfl
  have pS11 : sound_body.sl.r_21 m c f0 f1 = S11 m c := by
    delta sound_body.sl.r_21
    simp only [landed_S, landed_Q, e_r17] <;> rfl

  ihave Hsp := (carve_sslot (F := F) c 11 _ (by exact sslot_sub_rest 11 [0, 1, 2, 3, 4, 5, 6, 7, 8, 9, 10] (by decide)) _).1 $$ Hs3
  icases Hsp with ⟨Hsl11, Hs3⟩
  icases HD11 with ⟨%fd11, HD11⟩
  iapply (wp_send_x (SVv m) (RVv m) c 11 _ (dev19_eq c) _ fd11 (sv_sent m c 11 11 rfl pS11) _ _) $$ [HIs11 HIR11 Hsl11 HD11 HO Hts11 Hrs11 HtR11 HrR11]
  · icombine HIs11 HIR11 Hsl11 HD11 HO Hts11 Hrs11 HtR11 HrR11 as Hp; iexact Hp
  iintro ⟨Hcs11, HO⟩
  sl_exec_parts (disch := above_tac)

  iapply (wand_of_eq (payload_recv (SVv m) (RVv m) c 10 0) (wp_load_landed (F := F) c 10 _)) $$ Har10_pay1
  iintro HLa10
  sl_exec_parts (disch := above_tac)

  iapply (wand_of_eq (payload_recv (SVv m) (RVv m) c 11 0) (wp_load_landed (F := F) c 11 _)) $$ Har11_pay1
  iintro HLa11
  sl_exec_parts (disch := above_tac)
  have e_v430 : sound_body.sl.v430 m c f0 = lead1a (aWi2 m c) := by
    delta sound_body.sl.v430 sound_body.sl.dma0 sound_body.sl.dma0_1 sound_body.sl.dma5 sound_body.sl.dma0_4
    exact read_v430 m c f0 ..
  have e_r18 : sound_body.sl.r_18 m c f0 = k0_pay30 (lead1a (aWi2 m c)) := by
    delta sound_body.sl.r_18
    simp only [e_v430]
  have e_r20 : sound_body.sl.r_20 m c f0 f1 = b12 m c := by
    delta sound_body.sl.r_20
    simp only [landed_S, landed_Q, e_r17] <;> rfl
  have e_v503 : sound_body.sl.v503 m c f1 = lead1b (aWo2 m c) := by
    delta sound_body.sl.v503 sound_body.sl.dma0_2 sound_body.sl.dma0_3 sound_body.sl.dma5_1 sound_body.sl.dma0_5
    exact read_v503 m c f1 ..
  have e_r22 : sound_body.sl.r_22 m c f1 = k0_pay35 (lead1b (aWo2 m c)) := by
    delta sound_body.sl.r_22
    simp only [e_v503]
  have e_r19 : sound_body.sl.r_19 m c f0 f1 = a12 m c := by
    delta sound_body.sl.r_19
    simp only [landed_S, landed_Q, e_r15] <;> rfl
  have e_r23 : sound_body.sl.r_23 m c f0 f1 = a13 m c := by
    delta sound_body.sl.r_23
    simp only [landed_S, landed_Q, e_r19] <;> rfl
  have e_r24 : sound_body.sl.r_24 m c = k0_pay37 (S11 m (xr c 4)) := by
    delta sound_body.sl.r_24
    simp only [landed_S, landed_Q] <;> rfl
  have pAcc2 : k0_pay38 (sound_body.sl.r_18 m c f0) (sound_body.sl.r_20 m c f0 f1) (sound_body.sl.r_22 m c f1) (sound_body.sl.r_23 m c f0 f1) (sound_body.sl.r_24 m c) = acc2 m c := by
    simp only [acc2, e_r18, e_r20, e_r22, e_r23, e_r24]
  have e_row6 : sound_body.sl.v555 m c f0 f1 = rowsOf m c (xr c 6) := by
    delta sound_body.sl.v555 sound_body.sl.Hs2_1
    simp only [pAcc2]
    exact rows_read' m c 6 (by decide) _ _
  have pQ6 : k0_pay39 (sound_body.sl.v555 m c f0 f1) = Q m 6 c := by
    simp only [Q, e_row6]

  ihave Hsp := (carve_qslot (F := F) c 6 _ (by exact qslot_sub_rest 6 [] (by decide)) _).1 $$ Hs5
  icases Hsp with ⟨Hql6, Hs5⟩
  icases HP6 with ⟨%fq6, HP6⟩
  iapply (wp_send_q (SVv m) (RVv m) c 6 (by decide) _ (dev20_eq c) _ fq6 (rv_sent m c 6 6 rfl pQ6) _ _) $$ [HIqs6 HIQ6 Hql6 HP6 HO Htqs6 Hrqs6 HtQ6 HrQ6]
  · icombine HIqs6 HIQ6 Hql6 HP6 HO Htqs6 Hrqs6 HtQ6 HrQ6 as Hp; iexact Hp
  iintro ⟨Hcqs6, HO⟩
  sl_exec_parts (disch := above_tac)
  have e_row5 : sound_body.sl.v573 m c f0 f1 = rowsOf m c (xr c 5) := by
    delta sound_body.sl.v573 sound_body.sl.Hs2_1
    simp only [pAcc2]
    exact rows_read' m c 5 (by decide) _ _
  have pQ5 : k0_pay40 (sound_body.sl.v573 m c f0 f1) = Q m 5 c := by
    simp only [Q, pay40_same, e_row5]

  ihave Hsp := (carve_qslot (F := F) c 5 _ (by exact qslot_sub_rest 5 [6] (by decide)) _).1 $$ Hs5
  icases Hsp with ⟨Hql5, Hs5⟩
  icases HP5 with ⟨%fq5, HP5⟩
  iapply (wp_send_q (SVv m) (RVv m) c 5 (by decide) _ (dev21_eq c) _ fq5 (rv_sent m c 5 5 rfl pQ5) _ _) $$ [HIqs5 HIQ5 Hql5 HP5 HO Htqs5 Hrqs5 HtQ5 HrQ5]
  · icombine HIqs5 HIQ5 Hql5 HP5 HO Htqs5 Hrqs5 HtQ5 HrQ5 as Hp; iexact Hp
  iintro ⟨Hcqs5, HO⟩
  sl_exec_parts (disch := above_tac)
  have e_row7 : sound_body.sl.v591 m c f0 f1 = rowsOf m c (xr c 7) := by
    delta sound_body.sl.v591 sound_body.sl.Hs2_1
    simp only [pAcc2]
    exact rows_read' m c 7 (by decide) _ _
  have pQ7 : k0_pay41 (sound_body.sl.v591 m c f0 f1) = Q m 7 c := by
    simp only [Q, pay41_same, e_row7]

  ihave Hsp := (carve_qslot (F := F) c 7 _ (by exact qslot_sub_rest 7 [6, 5] (by decide)) _).1 $$ Hs5
  icases Hsp with ⟨Hql7, Hs5⟩
  icases HP7 with ⟨%fq7, HP7⟩
  iapply (wp_send_q (SVv m) (RVv m) c 7 (by decide) _ (dev22_eq c) _ fq7 (rv_sent m c 7 7 rfl pQ7) _ _) $$ [HIqs7 HIQ7 Hql7 HP7 HO Htqs7 Hrqs7 HtQ7 HrQ7]
  · icombine HIqs7 HIQ7 Hql7 HP7 HO Htqs7 Hrqs7 HtQ7 HrQ7 as Hp; iexact Hp
  iintro ⟨Hcqs7, HO⟩
  sl_exec_parts (disch := above_tac)
  have e_row2 : sound_body.sl.v609 m c f0 f1 = rowsOf m c (xr c 2) := by
    delta sound_body.sl.v609 sound_body.sl.Hs2_1
    simp only [pAcc2]
    exact rows_read' m c 2 (by decide) _ _
  have pQ2 : k0_pay42 (sound_body.sl.v609 m c f0 f1) = Q m 2 c := by
    simp only [Q, pay42_same, e_row2]

  ihave Hsp := (carve_qslot (F := F) c 2 _ (by exact qslot_sub_rest 2 [6, 5, 7] (by decide)) _).1 $$ Hs5
  icases Hsp with ⟨Hql2, Hs5⟩
  icases HP2 with ⟨%fq2, HP2⟩
  iapply (wp_send_q (SVv m) (RVv m) c 2 (by decide) _ (dev23_eq c) _ fq2 (rv_sent m c 2 2 rfl pQ2) _ _) $$ [HIqs2 HIQ2 Hql2 HP2 HO Htqs2 Hrqs2 HtQ2 HrQ2]
  · icombine HIqs2 HIQ2 Hql2 HP2 HO Htqs2 Hrqs2 HtQ2 HrQ2 as Hp; iexact Hp
  iintro ⟨Hcqs2, HO⟩
  sl_exec_parts (disch := above_tac)
  have e_row1 : sound_body.sl.v627 m c f0 f1 = rowsOf m c (xr c 1) := by
    delta sound_body.sl.v627 sound_body.sl.Hs2_1
    simp only [pAcc2]
    exact rows_read' m c 1 (by decide) _ _
  have pQ1 : k0_pay43 (sound_body.sl.v627 m c f0 f1) = Q m 1 c := by
    simp only [Q, pay43_same, e_row1]

  ihave Hsp := (carve_qslot (F := F) c 1 _ (by exact qslot_sub_rest 1 [6, 5, 7, 2] (by decide)) _).1 $$ Hs5
  icases Hsp with ⟨Hql1, Hs5⟩
  icases HP1 with ⟨%fq1, HP1⟩
  iapply (wp_send_q (SVv m) (RVv m) c 1 (by decide) _ (dev24_eq c) _ fq1 (rv_sent m c 1 1 rfl pQ1) _ _) $$ [HIqs1 HIQ1 Hql1 HP1 HO Htqs1 Hrqs1 HtQ1 HrQ1]
  · icombine HIqs1 HIQ1 Hql1 HP1 HO Htqs1 Hrqs1 HtQ1 HrQ1 as Hp; iexact Hp
  iintro ⟨Hcqs1, HO⟩
  sl_exec_parts (disch := above_tac)
  have e_row3 : sound_body.sl.v645 m c f0 f1 = rowsOf m c (xr c 3) := by
    delta sound_body.sl.v645 sound_body.sl.Hs2_1
    simp only [pAcc2]
    exact rows_read' m c 3 (by decide) _ _
  have pQ3 : k0_pay44 (sound_body.sl.v645 m c f0 f1) = Q m 3 c := by
    simp only [Q, pay44_same, e_row3]

  ihave Hsp := (carve_qslot (F := F) c 3 _ (by exact qslot_sub_rest 3 [6, 5, 7, 2, 1] (by decide)) _).1 $$ Hs5
  icases Hsp with ⟨Hql3, Hs5⟩
  icases HP3 with ⟨%fq3, HP3⟩
  iapply (wp_send_q (SVv m) (RVv m) c 3 (by decide) _ (dev25_eq c) _ fq3 (rv_sent m c 3 3 rfl pQ3) _ _) $$ [HIqs3 HIQ3 Hql3 HP3 HO Htqs3 Hrqs3 HtQ3 HrQ3]
  · icombine HIqs3 HIQ3 Hql3 HP3 HO Htqs3 Hrqs3 HtQ3 HrQ3 as Hp; iexact Hp
  iintro ⟨Hcqs3, HO⟩
  sl_exec_parts (disch := above_tac)
  have e_row4 : sound_body.sl.v663 m c f0 f1 = rowsOf m c (xr c 4) := by
    delta sound_body.sl.v663 sound_body.sl.Hs2_1
    simp only [pAcc2]
    exact rows_read' m c 4 (by decide) _ _
  have pQ4 : k0_pay45 (sound_body.sl.v663 m c f0 f1) = Q m 4 c := by
    simp only [Q, pay45_same, e_row4]

  ihave Hsp := (carve_qslot (F := F) c 4 _ (by exact qslot_sub_rest 4 [6, 5, 7, 2, 1, 3] (by decide)) _).1 $$ Hs5
  icases Hsp with ⟨Hql4, Hs5⟩
  icases HP4 with ⟨%fq4, HP4⟩
  iapply (wp_send_q (SVv m) (RVv m) c 4 (by decide) _ (dev26_eq c) _ fq4 (rv_sent m c 4 4 rfl pQ4) _ _) $$ [HIqs4 HIQ4 Hql4 HP4 HO Htqs4 Hrqs4 HtQ4 HrQ4]
  · icombine HIqs4 HIQ4 Hql4 HP4 HO Htqs4 Hrqs4 HtQ4 HrQ4 as Hp; iexact Hp
  iintro ⟨Hcqs4, HO⟩
  sl_exec_parts (disch := above_tac)

  iapply (wand_of_eq (payload_rsr (SVv m) (RVv m) c 1 (by decide) 0) (wp_load_landed_p (F := F) c 1 _)) $$ Haqr1_pay1
  iintro HMa1
  sl_exec_parts (disch := above_tac)

  iapply (wand_of_eq (payload_rsr (SVv m) (RVv m) c 3 (by decide) 0) (wp_load_landed_p (F := F) c 3 _)) $$ Haqr3_pay1
  iintro HMa3
  sl_exec_parts (disch := above_tac)

  iapply (wand_of_eq (payload_rsr (SVv m) (RVv m) c 4 (by decide) 0) (wp_load_landed_p (F := F) c 4 _)) $$ Haqr4_pay1
  iintro HMa4
  sl_exec_parts (disch := above_tac)

  iapply (wand_of_eq (payload_rsr (SVv m) (RVv m) c 2 (by decide) 0) (wp_load_landed_p (F := F) c 2 _)) $$ Haqr2_pay1
  iintro HMa2
  sl_exec_parts (disch := above_tac)

  iapply (wand_of_eq (payload_rsr (SVv m) (RVv m) c 5 (by decide) 0) (wp_load_landed_p (F := F) c 5 _)) $$ Haqr5_pay1
  iintro HMa5
  sl_exec_parts (disch := above_tac)

  iapply (wand_of_eq (payload_rsr (SVv m) (RVv m) c 7 (by decide) 0) (wp_load_landed_p (F := F) c 7 _)) $$ Haqr7_pay1
  iintro HMa7
  sl_exec_parts (disch := above_tac)

  iapply (wand_of_eq (payload_rsr (SVv m) (RVv m) c 6 (by decide) 0) (wp_load_landed_p (F := F) c 6 _)) $$ Haqr6_pay1
  iintro HMa6
  sl_exec_parts (disch := above_tac)
  have e_mine : sound_body.sl.v680 m c f0 f1 = rowsOf m c c := by
    delta sound_body.sl.v680 sound_body.sl.Hs2_1
    simp only [pAcc2]
    exact mine_read' m c _ _
  have pOut : k0_pay50 (sound_body.sl.r_28 m c f0 f1) (fun j => RVv m (xr c 6) 6 (ValueIdx.ix2 (⟨(j 1).val, (j 1).isLt⟩ : Fin 8) (⟨(j 2).val, (j 2).isLt⟩ : Fin 1024))) = outV m c := by
    delta sound_body.sl.r_28 sound_body.sl.r_27 sound_body.sl.r_26 sound_body.sl.r_25
    simp only [outV, landed_Q, e_mine]
  have hOut : (Memref.whole cc0_stg1_0).view.writes (Elt F) g1 [⟨Rect.unit ![0, 0] S8x1024.size inb_S8x1024_S8x1024_0_0, k0_pay50 (sound_body.sl.r_28 m c f0 f1) (fun j => RVv m (xr c 6) 6 (ValueIdx.ix2 (⟨(j 1).val, (j 1).isLt⟩ : Fin 8) (⟨(j 2).val, (j 2).isLt⟩ : Fin 1024)))⟩] = OVv m c := by
    rw [writes_whole]
    exact pOut

  ihave HSa0 := (Entails.of_eq (payload_send (SVv m) (RVv m) c 0 0)) $$ Has0_pay1
  ihave HSa1 := (Entails.of_eq (payload_send (SVv m) (RVv m) c 1 0)) $$ Has1_pay1
  ihave HSa2 := (Entails.of_eq (payload_send (SVv m) (RVv m) c 2 0)) $$ Has2_pay1
  ihave HSa3 := (Entails.of_eq (payload_send (SVv m) (RVv m) c 3 0)) $$ Has3_pay1
  ihave HSa4 := (Entails.of_eq (payload_send (SVv m) (RVv m) c 4 0)) $$ Has4_pay1
  ihave HSa5 := (Entails.of_eq (payload_send (SVv m) (RVv m) c 5 0)) $$ Has5_pay1
  ihave HSa6 := (Entails.of_eq (payload_send (SVv m) (RVv m) c 6 0)) $$ Has6_pay1
  ihave HSa7 := (Entails.of_eq (payload_send (SVv m) (RVv m) c 7 0)) $$ Has7_pay1
  ihave HSa8 := (Entails.of_eq (payload_send (SVv m) (RVv m) c 8 0)) $$ Has8_pay1
  ihave HSa9 := (Entails.of_eq (payload_send (SVv m) (RVv m) c 9 0)) $$ Has9_pay1
  ihave HSa10 := (Entails.of_eq (payload_send (SVv m) (RVv m) c 10 0)) $$ Has10_pay1
  ihave HSa11 := (Entails.of_eq (payload_send (SVv m) (RVv m) c 11 0)) $$ Has11_pay1
  ihave HQa1 := (Entails.of_eq (payload_rss (SVv m) (RVv m) c 1 (by decide) 0)) $$ Haqs1_pay1
  ihave HQa2 := (Entails.of_eq (payload_rss (SVv m) (RVv m) c 2 (by decide) 0)) $$ Haqs2_pay1
  ihave HQa3 := (Entails.of_eq (payload_rss (SVv m) (RVv m) c 3 (by decide) 0)) $$ Haqs3_pay1
  ihave HQa4 := (Entails.of_eq (payload_rss (SVv m) (RVv m) c 4 (by decide) 0)) $$ Haqs4_pay1
  ihave HQa5 := (Entails.of_eq (payload_rss (SVv m) (RVv m) c 5 (by decide) 0)) $$ Haqs5_pay1
  ihave HQa6 := (Entails.of_eq (payload_rss (SVv m) (RVv m) c 6 (by decide) 0)) $$ Haqs6_pay1
  ihave HQa7 := (Entails.of_eq (payload_rss (SVv m) (RVv m) c 7 (by decide) 0)) $$ Haqs7_pay1
  icases Hp0 with ⟨%fp0, Hp0⟩
  ihave Hp0 := (slotAny_intro (F := F) c (pslot 0) fp0) $$ Hp0

  ihave Hout := (Entails.of_eq (congrArg (fun f => ((Memref.whole cc0_stg1_0).view.loc (c : Thread nD τ) ↦[(Memref.whole cc0_stg1_0).view.set]{fullShare} f : sProp 𝕄)) hOut)) $$ Hout

  rw [wp_ret]
  imod (body_close (SVv m) (RVv m) m (OVv m) κ c _ _ _ _ _ _) $$ [Hw1 Hw2 Hw3 Hw4 Hw5 Hw6 Hs0 Hs1 Hs2 Hs3 HSa0 HSa1 HSa2 HSa3 HSa4 HSa5 HSa6 HSa7 HSa8 HSa9 HSa10 HSa11 HLa0 HLa1 HLa2 HLa3 HLa4 HLa5 HLa6 HLa7 HLa8 HLa9 HLa10 HLa11 Hs5 HQa1 HQa2 HQa3 HQa4 HQa5 HQa6 HQa7 Hp0 HMa1 HMa2 HMa3 HMa4 HMa5 HMa6 HMa7 Hx Hout Hq2 Hq3 Hq4 Hq5 Hq6 Hq7 Hq8 Hq9 Hq34 Hq42 Haexit Has0 Has1 Has2 Has3 Has4 Has5 Has6 Has7 Has8 Has9 Has10 Has11 Har0 Har1 Har2 Har3 Har4 Har5 Har6 Har7 Har8 Har9 Har10 Har11 Haqs1 Haqs2 Haqs3 Haqs4 Haqs5 Haqs6 Haqs7 Haqr1 Haqr2 Haqr3 Haqr4 Haqr5 Haqr6 Haqr7 HO] with Hpost
  · unfold bodyEnd; iframe ∗ #
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    iexact Hq9
  imodintro
  iapply Hk
  iexact Hpost

theorem body_obligation (m : (ℓ : Loc nD τ sig) → Buf (Elt F) ℓ) (c : Dev nD) :
    BodyObligation (dats (SVv m) (RVv m) m (OVv m) 0 c) (defs₀ (F := F)) 𝒱₀ () Set.univ :=
  body_obligation_of (SVv m) (RVv m) m (OVv m)
    (fun κ c W f0 f1 f2 f3 f4 f5 f6 g1 Kt => sound_body m κ c W f0 f1 f2 f3 f4 f5 f6 g1 Kt) c

end Cert.KernelIdeal.Mlp

end
-- ==== Proof.lean ====
import proofs.«900996_g7700000000000997_dist_mlpseq_tp1d_rep_bs_b64_d1024_h2048_v7x_i8_bf16_1_alg».proof.Defs
import proofs.«900996_g7700000000000997_dist_mlpseq_tp1d_rep_bs_b64_d1024_h2048_v7x_i8_bf16_1_alg».proof.Proof.Gen.Kernel
import proofs.«900996_g7700000000000997_dist_mlpseq_tp1d_rep_bs_b64_d1024_h2048_v7x_i8_bf16_1_alg».proof.Proof.Gen.Kernel.Skeleton
import proofs.«900996_g7700000000000997_dist_mlpseq_tp1d_rep_bs_b64_d1024_h2048_v7x_i8_bf16_1_alg».proof.Proof.Gen.Kernel.Launch
import proofs.«900996_g7700000000000997_dist_mlpseq_tp1d_rep_bs_b64_d1024_h2048_v7x_i8_bf16_1_alg».proof.Proof.Gen.Kernel.Points
import proofs.«900996_g7700000000000997_dist_mlpseq_tp1d_rep_bs_b64_d1024_h2048_v7x_i8_bf16_1_alg».proof.Proof.Gen.Kernel.Frame
import proofs.«900996_g7700000000000997_dist_mlpseq_tp1d_rep_bs_b64_d1024_h2048_v7x_i8_bf16_1_alg».proof.Proof.Gen.KernelIdeal
import proofs.«900996_g7700000000000997_dist_mlpseq_tp1d_rep_bs_b64_d1024_h2048_v7x_i8_bf16_1_alg».proof.Proof.Gen.KernelIdeal.Skeleton
import proofs.«900996_g7700000000000997_dist_mlpseq_tp1d_rep_bs_b64_d1024_h2048_v7x_i8_bf16_1_alg».proof.Proof.Gen.KernelIdeal.Launch
import proofs.«900996_g7700000000000997_dist_mlpseq_tp1d_rep_bs_b64_d1024_h2048_v7x_i8_bf16_1_alg».proof.Proof.Gen.KernelIdeal.Points
import proofs.«900996_g7700000000000997_dist_mlpseq_tp1d_rep_bs_b64_d1024_h2048_v7x_i8_bf16_1_alg».proof.Proof.Gen.KernelIdeal.Frame
import proofs.«900996_g7700000000000997_dist_mlpseq_tp1d_rep_bs_b64_d1024_h2048_v7x_i8_bf16_1_alg».proof.Proof.Gen.ReferenceIdeal
import proofs.«900996_g7700000000000997_dist_mlpseq_tp1d_rep_bs_b64_d1024_h2048_v7x_i8_bf16_1_alg».proof.Proof.Gen.Pre_finite_inputs_Kernel
import proofs.«900996_g7700000000000997_dist_mlpseq_tp1d_rep_bs_b64_d1024_h2048_v7x_i8_bf16_1_alg».proof.Proof.Gen.Pre_finite_inputs_ReferenceIdeal
import Idealize.ShloMosaic.Adequacy
import Idealize.ShloMosaic.Init
import proofs.«900996_g7700000000000997_dist_mlpseq_tp1d_rep_bs_b64_d1024_h2048_v7x_i8_bf16_1_alg».proof.Proof.Gen.ReferenceIdeal.Run
import proofs.«900996_g7700000000000997_dist_mlpseq_tp1d_rep_bs_b64_d1024_h2048_v7x_i8_bf16_1_alg».proof.Proof.Gen.ReferenceIdeal.Read
import proofs.«900996_g7700000000000997_dist_mlpseq_tp1d_rep_bs_b64_d1024_h2048_v7x_i8_bf16_1_alg».proof.Proof.RefFrame
import proofs.«900996_g7700000000000997_dist_mlpseq_tp1d_rep_bs_b64_d1024_h2048_v7x_i8_bf16_1_alg».proof.Proof.ValueIdeal
import proofs.«900996_g7700000000000997_dist_mlpseq_tp1d_rep_bs_b64_d1024_h2048_v7x_i8_bf16_1_alg».proof.Proof.Launch
import proofs.«900996_g7700000000000997_dist_mlpseq_tp1d_rep_bs_b64_d1024_h2048_v7x_i8_bf16_1_alg».proof.Proof.Body
import proofs.«900996_g7700000000000997_dist_mlpseq_tp1d_rep_bs_b64_d1024_h2048_v7x_i8_bf16_1_alg».proof.Proof.K.Launch
import proofs.«900996_g7700000000000997_dist_mlpseq_tp1d_rep_bs_b64_d1024_h2048_v7x_i8_bf16_1_alg».proof.Proof.K.Body

noncomputable section

namespace Cert.Proof

open Idealize.ShloMosaic Idealize.ShloMosaic.TcCoe Idealize.SL.Sem

theorem frame_k : Cert.frame_Kernel (hKernel := Cert.Kernel.Gen.facts)
    (hPre_finite_inputs_Kernel := Cert.Pre_finite_inputs_Kernel.Gen.facts) := fun m ρ _ =>
  (θ_run Cert.Kernel.defs _ _).mono (fun _ h c => (h c).2)
    (Cert.Kernel.Mlp.run_main (Cert.Kernel.Mlp.SVv m) (Cert.Kernel.Mlp.RVv m) m ρ (Cert.Kernel.Mlp.OVv m)
      (Cert.Kernel.Mlp.body_obligation m))

theorem frame_ki : Cert.frame_KernelIdeal (hKernelIdeal := Cert.KernelIdeal.Gen.facts)
    (hPre_finite_inputs_Kernel := Cert.Pre_finite_inputs_Kernel.Gen.facts) := fun m ρ _ =>
  (θ_run Cert.KernelIdeal.defs _ _).mono (fun _ h c => (h c).2)
    (Cert.KernelIdeal.Mlp.run_main (Cert.KernelIdeal.Mlp.SVv m) (Cert.KernelIdeal.Mlp.RVv m) m ρ (Cert.KernelIdeal.Mlp.OVv m)
      (Cert.KernelIdeal.Mlp.body_obligation m))

theorem algebraic : Cert.algebraic_KernelIdeal_ReferenceIdeal (hKernelIdeal := Cert.KernelIdeal.Gen.facts)
    (hReferenceIdeal := Cert.ReferenceIdeal.Gen.facts)
    (hPre_finite_inputs_Kernel := Cert.Pre_finite_inputs_Kernel.Gen.facts) := by
  intro m ρ m' ρ' _ hagree
  refine ⟨Cert.ReferenceIdeal.Read.val_main_v11 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (m' (((0 : Dev Cert.ReferenceIdeal.nD).tc : Thread Cert.ReferenceIdeal.nD Cert.ReferenceIdeal.τ).loc Cert.ReferenceIdeal.main_arg5))
      (m' (((0 : Dev Cert.ReferenceIdeal.nD).tc : Thread Cert.ReferenceIdeal.nD Cert.ReferenceIdeal.τ).loc Cert.ReferenceIdeal.main_arg6)),
    ?_, ?_⟩
  · refine (θ_run Cert.KernelIdeal.defs _ _).mono (fun _ h c => ⟨(h c).1.trans ?_, (h c).2⟩)
      (Cert.KernelIdeal.Mlp.run_main (Cert.KernelIdeal.Mlp.SVv m) (Cert.KernelIdeal.Mlp.RVv m) m ρ (Cert.KernelIdeal.Mlp.OVv m)
        (Cert.KernelIdeal.Mlp.body_obligation m))
    exact Cert.KernelIdeal.Mlp.outV_eq_block m _ _ _ _ _ _ _ (fun d => (hagree d).1) (fun d => (hagree d).2.1)
      (fun d => (hagree d).2.2.1) (fun d => (hagree d).2.2.2.1) (fun d => (hagree d).2.2.2.2.1)
      (fun d => (hagree d).2.2.2.2.2.1) (fun d => (hagree d).2.2.2.2.2.2) c
  · exact (θ_run Cert.ReferenceIdeal.defs _ _).mono
      (fun _ h => ⟨(h 0).1.trans (Cert.ReferenceIdeal.Read.val_main_v11_eq _ _ _ _ _ _ _), (h 0).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_k, frame_ki, Cert.ReferenceIdeal.RefFrame.frame_ri, trivial, algebraic⟩

end Cert.Proof

end
